-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S5000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x2 : Shape := ⟨2, ![64, 2]⟩
abbrev S2 : Shape := ⟨1, ![2]⟩
abbrev S3x64 : Shape := ⟨2, ![3, 64]⟩
abbrev S2x1200000 : Shape := ⟨2, ![2, 1200000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_arg8 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg4 : FVec F S2x64 .f32) (main_arg5 : FVec F S64x2 .f32) (main_arg6 : FVec F S2 .f32) (main_arg7 : FVec F S3x64 .f32) (main_arg8 : FVec F S3x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x64 .f32) (main_arg2 : FVec F S64 .f32) (main_arg3 : FVec F S2x64x64 .f32) (main_arg4 : FVec F S2x64 .f32) (main_arg5 : FVec F S64x2 .f32) (main_arg6 : FVec F S2 .f32) (main_arg7 : FVec F S3x64 .f32) (main_arg8 : FVec F S3x64 .f32) (main_arg9 : IVec S2x1200000 32) (main_arg10 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg3
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x2 : Shape := ⟨2, ![64, 2]⟩
abbrev S2 : Shape := ⟨1, ![2]⟩
abbrev S3x64 : Shape := ⟨2, ![3, 64]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S100000x1 : Shape := ⟨2, ![100000, 1]⟩
abbrev S_ : Shape := ⟨0, ![]⟩
abbrev S1200000x1 : Shape := ⟨2, ![1200000, 1]⟩
abbrev S100000x64 : Shape := ⟨2, ![100000, 64]⟩
abbrev S5000x128 : Shape := ⟨2, ![5000, 128]⟩
abbrev S5000x64 : Shape := ⟨2, ![5000, 64]⟩
abbrev S1200000x64 : Shape := ⟨2, ![1200000, 64]⟩
abbrev S1x64 : Shape := ⟨2, ![1, 64]⟩
abbrev S5000x1 : Shape := ⟨2, ![5000, 1]⟩
abbrev S1x64x64 : Shape := ⟨3, ![1, 64, 64]⟩
abbrev S64x64 : Shape := ⟨2, ![64, 64]⟩
abbrev S100000x2 : Shape := ⟨2, ![100000, 2]⟩
abbrev S5000x2 : Shape := ⟨2, ![5000, 2]⟩
abbrev S1200000x2 : Shape := ⟨2, ![1200000, 2]⟩
abbrev S1x2 : Shape := ⟨2, ![1, 2]⟩
abbrev S64x1 : Shape := ⟨2, ![64, 1]⟩

abbrev nBuf : Space → Nat
  | .hbm => 193
  | .vmem => 100
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S2x64x64, .f32⟩
  | 4 => ⟨S2x64, .f32⟩
  | 5 => ⟨S64x2, .f32⟩
  | 6 => ⟨S2, .f32⟩
  | 7 => ⟨S3x64, .f32⟩
  | 8 => ⟨S3x64, .f32⟩
  | 9 => ⟨S2x1200000, .i32⟩
  | 10 => ⟨S100000, .i32⟩
  | 11 => ⟨S1x1200000, .i32⟩
  | 12 => ⟨S1200000, .i32⟩
  | 13 => ⟨S1x1200000, .i32⟩
  | 14 => ⟨S1200000, .i32⟩
  | 15 => ⟨S100000x1, .i32⟩
  | 16 => ⟨S_, .f32⟩
  | 17 => ⟨S1200000, .f32⟩
  | 18 => ⟨S_, .f32⟩
  | 19 => ⟨S100000, .f32⟩
  | 20 => ⟨S1200000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S_, .i32⟩
  | 31 => ⟨S1200000, .i32⟩
  | 32 => ⟨S1200000, .i1⟩
  | 33 => ⟨S_, .i32⟩
  | 34 => ⟨S1200000, .i32⟩
  | 35 => ⟨S1200000, .i32⟩
  | 36 => ⟨S1200000, .i32⟩
  | 37 => ⟨S1200000x1, .i32⟩
  | 38 => ⟨S1200000, .f32⟩
  | 39 => ⟨S_, .i32⟩
  | 40 => ⟨S1200000, .i32⟩
  | 41 => ⟨S1200000, .i1⟩
  | 42 => ⟨S_, .i32⟩
  | 43 => ⟨S1200000, .i32⟩
  | 44 => ⟨S1200000, .i32⟩
  | 45 => ⟨S1200000, .i32⟩
  | 46 => ⟨S1200000x1, .i32⟩
  | 47 => ⟨S1200000, .f32⟩
  | 48 => ⟨S1200000, .f32⟩
  | 49 => ⟨S1200000x1, .f32⟩
  | 50 => ⟨S100000x64, .f32⟩
  | 51 => ⟨S_, .i32⟩
  | 52 => ⟨S1200000, .i32⟩
  | 53 => ⟨S1200000, .i1⟩
  | 54 => ⟨S_, .i32⟩
  | 55 => ⟨S1200000, .i32⟩
  | 56 => ⟨S1200000, .i32⟩
  | 57 => ⟨S1200000, .i32⟩
  | 58 => ⟨S1200000x1, .i32⟩
  | 59 => ⟨S1200000x64, .f32⟩
  | 60 => ⟨S1200000x64, .f32⟩
  | 61 => ⟨S1200000x64, .f32⟩
  | 62 => ⟨S_, .f32⟩
  | 63 => ⟨S100000x64, .f32⟩
  | 64 => ⟨S1200000x1, .i32⟩
  | 65 => ⟨S100000x64, .f32⟩
  | 66 => ⟨S1x64, .f32⟩
  | 67 => ⟨S100000x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S1x64, .f32⟩
  | 77 => ⟨S1x64, .f32⟩
  | 78 => ⟨S_, .f32⟩
  | 79 => ⟨S100000x64, .f32⟩
  | 80 => ⟨S1x64, .f32⟩
  | 81 => ⟨S64, .f32⟩
  | 82 => ⟨S1x64, .f32⟩
  | 83 => ⟨S1x64, .f32⟩
  | 84 => ⟨S64, .f32⟩
  | 85 => ⟨S1x64, .f32⟩
  | 86 => ⟨S100000x64, .f32⟩
  | 87 => ⟨S1x64x64, .f32⟩
  | 88 => ⟨S64x64, .f32⟩
  | 89 => ⟨S1x64, .f32⟩
  | 90 => ⟨S64, .f32⟩
  | 91 => ⟨S100000x64, .f32⟩
  | 92 => ⟨S_, .i32⟩
  | 93 => ⟨S1200000, .i32⟩
  | 94 => ⟨S1200000, .i1⟩
  | 95 => ⟨S_, .i32⟩
  | 96 => ⟨S1200000, .i32⟩
  | 97 => ⟨S1200000, .i32⟩
  | 98 => ⟨S1200000, .i32⟩
  | 99 => ⟨S1200000x1, .i32⟩
  | 100 => ⟨S1200000x64, .f32⟩
  | 101 => ⟨S1200000x64, .f32⟩
  | 102 => ⟨S1200000x64, .f32⟩
  | 103 => ⟨S_, .f32⟩
  | 104 => ⟨S100000x64, .f32⟩
  | 105 => ⟨S1200000x1, .i32⟩
  | 106 => ⟨S100000x64, .f32⟩
  | 107 => ⟨S1x64, .f32⟩
  | 108 => ⟨S100000x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S1x64, .f32⟩
  | 118 => ⟨S1x64, .f32⟩
  | 119 => ⟨S1x64, .f32⟩
  | 120 => ⟨S64, .f32⟩
  | 121 => ⟨S1x64, .f32⟩
  | 122 => ⟨S1x64, .f32⟩
  | 123 => ⟨S64, .f32⟩
  | 124 => ⟨S1x64, .f32⟩
  | 125 => ⟨S100000x64, .f32⟩
  | 126 => ⟨S1x64x64, .f32⟩
  | 127 => ⟨S64x64, .f32⟩
  | _ => ⟨S100000x128, .f32⟩

abbrev hbmTy0_1 (i : Nat) : BufTy := match i % 128 with
  | 0 => ⟨S1x64, .f32⟩
  | 1 => ⟨S64, .f32⟩
  | 2 => ⟨S100000x64, .f32⟩
  | 3 => ⟨S_, .i32⟩
  | 4 => ⟨S1200000, .i32⟩
  | 5 => ⟨S1200000, .i1⟩
  | 6 => ⟨S_, .i32⟩
  | 7 => ⟨S1200000, .i32⟩
  | 8 => ⟨S1200000, .i32⟩
  | 9 => ⟨S1200000, .i32⟩
  | 10 => ⟨S1200000x1, .i32⟩
  | 11 => ⟨S1200000x64, .f32⟩
  | 12 => ⟨S1200000x64, .f32⟩
  | 13 => ⟨S1200000x64, .f32⟩
  | 14 => ⟨S_, .f32⟩
  | 15 => ⟨S100000x64, .f32⟩
  | 16 => ⟨S1200000x1, .i32⟩
  | 17 => ⟨S100000x64, .f32⟩
  | 18 => ⟨S1x64, .f32⟩
  | 19 => ⟨S100000x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S64, .f32⟩
  | 32 => ⟨S1x64, .f32⟩
  | 33 => ⟨S1x64, .f32⟩
  | 34 => ⟨S64, .f32⟩
  | 35 => ⟨S1x64, .f32⟩
  | 36 => ⟨S100000x64, .f32⟩
  | 37 => ⟨S100000x2, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000x2, .f32⟩
  | 47 => ⟨S1200000x2, .f32⟩
  | 48 => ⟨S1200000x2, .f32⟩
  | 49 => ⟨S_, .f32⟩
  | 50 => ⟨S100000x2, .f32⟩
  | 51 => ⟨S1200000x1, .i32⟩
  | 52 => ⟨S100000x2, .f32⟩
  | 53 => ⟨S1x2, .f32⟩
  | 54 => ⟨S100000x2, .f32⟩
  | 55 => ⟨S1x2, .f32⟩
  | 56 => ⟨S1x2, .f32⟩
  | 57 => ⟨S64x2, .f32⟩
  | 58 => ⟨S1x64, .f32⟩
  | 59 => ⟨S_, .f32⟩
  | 60 => ⟨S1x64, .f32⟩
  | 61 => ⟨S1x64, .f32⟩
  | 62 => ⟨S64x1, .f32⟩
  | 63 => ⟨S64x2, .f32⟩
  | 64 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S64x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x1, .f32⟩
  | .local _ .vmem, ⟨62, _⟩ => ⟨S5000x1, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S1x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S1x64, .f32⟩
  | .local _ .vmem, ⟨71, _⟩ => ⟨S1x64, .f32⟩
  | .local _ .vmem, ⟨72, _⟩ => ⟨S1x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S64x2, .f32⟩
  | .local _ .vmem, ⟨81, _⟩ => ⟨S5000x2, .f32⟩
  | .local _ .vmem, ⟨82, _⟩ => ⟨S5000x2, .f32⟩
  | .local _ .vmem, ⟨83, _⟩ => ⟨S5000x2, .f32⟩
  | .local _ .vmem, ⟨84, _⟩ => ⟨S5000x2, .f32⟩
  | .local _ .vmem, ⟨85, _⟩ => ⟨S5000x2, .f32⟩
  | .local _ .vmem, ⟨86, _⟩ => ⟨S5000x2, .f32⟩
  | .local _ .vmem, ⟨87, _⟩ => ⟨S5000x1, .f32⟩
  | .local _ .vmem, ⟨88, _⟩ => ⟨S5000x1, .f32⟩
  | .local _ .vmem, ⟨89, _⟩ => ⟨S1x2, .f32⟩
  | .local _ .vmem, ⟨90, _⟩ => ⟨S5000x2, .f32⟩
  | .local _ .vmem, ⟨91, _⟩ => ⟨S5000x2, .f32⟩
  | .local _ .vmem, ⟨92, _⟩ => ⟨S1x2, .f32⟩
  | .local _ .vmem, ⟨93, _⟩ => ⟨S1x2, .f32⟩
  | .local _ .vmem, ⟨94, _⟩ => ⟨S5000x2, .f32⟩
  | .local _ .vmem, ⟨95, _⟩ => ⟨S5000x2, .f32⟩
  | .local _ .vmem, ⟨96, _⟩ => ⟨S5000x1, .i32⟩
  | .local _ .vmem, ⟨97, _⟩ => ⟨S5000x1, .i32⟩
  | .local _ .vmem, ⟨98, _⟩ => ⟨S64x2, .f32⟩
  | .local _ .vmem, ⟨99, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev main_v45_2 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78_0 : Ref sig .tc := ⟨.hbm, 108, rfl⟩
abbrev main_v78_1 : Ref sig .tc := ⟨.hbm, 109, rfl⟩
abbrev main_v78_2 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_17 : Ref sig .tc := ⟨.hbm, 131, rfl⟩
abbrev main_v97 : Ref sig .tc := ⟨.hbm, 132, rfl⟩
abbrev main_v98 : Ref sig .tc := ⟨.hbm, 133, rfl⟩
abbrev main_c_18 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_19 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110_0 : Ref sig .tc := ⟨.hbm, 147, rfl⟩
abbrev main_v110_1 : Ref sig .tc := ⟨.hbm, 148, rfl⟩
abbrev main_v110_2 : Ref sig .tc := ⟨.hbm, 149, rfl⟩
abbrev main_cst_20 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_22 : Ref sig .tc := ⟨.hbm, 166, rfl⟩
abbrev main_v125 : Ref sig .tc := ⟨.hbm, 167, rfl⟩
abbrev main_v126 : Ref sig .tc := ⟨.hbm, 168, rfl⟩
abbrev main_c_23 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_24 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138_0 : Ref sig .tc := ⟨.hbm, 182, rfl⟩
abbrev main_v138_1 : Ref sig .tc := ⟨.hbm, 183, rfl⟩
abbrev main_v138_2 : Ref sig .tc := ⟨.hbm, 184, rfl⟩
abbrev main_v139_0 : Ref sig .tc := ⟨.hbm, 185, rfl⟩
abbrev main_v139_1 : Ref sig .tc := ⟨.hbm, 186, rfl⟩
abbrev main_cst_25 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg6_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg6_0 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg4_0 : Ref sig .tc := ⟨.vmem, 73, rfl⟩
abbrev cc8_stg5_0 : Ref sig .tc := ⟨.vmem, 74, rfl⟩
abbrev cc8_stg5_1 : Ref sig .tc := ⟨.vmem, 75, rfl⟩
abbrev cc8_stg6_0 : Ref sig .tc := ⟨.vmem, 76, rfl⟩
abbrev cc8_stg6_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg2_1 : Ref sig .tc := ⟨.vmem, 82, rfl⟩
abbrev cc10_stg0_0 : Ref sig .tc := ⟨.vmem, 83, rfl⟩
abbrev cc10_stg0_1 : Ref sig .tc := ⟨.vmem, 84, rfl⟩
abbrev cc10_stg1_0 : Ref sig .tc := ⟨.vmem, 85, rfl⟩
abbrev cc10_stg1_1 : Ref sig .tc := ⟨.vmem, 86, rfl⟩
abbrev cc10_stg2_0 : Ref sig .tc := ⟨.vmem, 87, rfl⟩
abbrev cc10_stg2_1 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg4_1 : Ref sig .tc := ⟨.vmem, 91, rfl⟩
abbrev cc10_stg5_0 : Ref sig .tc := ⟨.vmem, 92, rfl⟩
abbrev cc10_stg6_0 : Ref sig .tc := ⟨.vmem, 93, rfl⟩
abbrev cc11_stg0_0 : Ref sig .tc := ⟨.vmem, 94, rfl⟩
abbrev cc11_stg0_1 : Ref sig .tc := ⟨.vmem, 95, rfl⟩
abbrev cc11_stg1_0 : Ref sig .tc := ⟨.vmem, 96, rfl⟩
abbrev cc11_stg1_1 : Ref sig .tc := ⟨.vmem, 97, rfl⟩
abbrev cc11_stg2_0 : Ref sig .tc := ⟨.vmem, 98, rfl⟩
abbrev cc11_stg3_0 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem4_1 : DmaSem sig := 39
abbrev cc4_sem5_0 : DmaSem sig := 40
abbrev cc4_sem6_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem2_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem2_1 : DmaSem sig := 62
abbrev cc7_sem3_0 : DmaSem sig := 63
abbrev cc7_sem4_0 : DmaSem sig := 64
abbrev cc7_sem4_1 : DmaSem sig := 65
abbrev cc7_sem5_0 : DmaSem sig := 66
abbrev cc7_sem6_0 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem4_0 : DmaSem sig := 73
abbrev cc8_sem5_0 : DmaSem sig := 74
abbrev cc8_sem5_1 : DmaSem sig := 75
abbrev cc8_sem6_0 : DmaSem sig := 76
abbrev cc8_sem6_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem2_1 : DmaSem sig := 82
abbrev cc10_sem0_0 : DmaSem sig := 83
abbrev cc10_sem0_1 : DmaSem sig := 84
abbrev cc10_sem1_0 : DmaSem sig := 85
abbrev cc10_sem1_1 : DmaSem sig := 86
abbrev cc10_sem2_0 : DmaSem sig := 87
abbrev cc10_sem2_1 : DmaSem sig := 88
abbrev cc10_sem3_0 : DmaSem sig := 89
abbrev cc10_sem4_0 : DmaSem sig := 90
abbrev cc10_sem4_1 : DmaSem sig := 91
abbrev cc10_sem5_0 : DmaSem sig := 92
abbrev cc10_sem6_0 : DmaSem sig := 93
abbrev cc11_sem0_0 : DmaSem sig := 94
abbrev cc11_sem0_1 : DmaSem sig := 95
abbrev cc11_sem1_0 : DmaSem sig := 96
abbrev cc11_sem1_1 : DmaSem sig := 97
abbrev cc11_sem2_0 : DmaSem sig := 98
abbrev cc11_sem3_0 : DmaSem sig := 99

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x2 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x2 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x2 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x2 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x2 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x2 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x2 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x2 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S100000_S100000x1 : S100000.ShapeCasts S100000x1
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S1200000_S1200000x1 : S1200000.ShapeCasts S1200000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  slices_S3x64_S1x64_0_0 : S3x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64_S1x64_1_0 : S3x64.Slices ![1, 0] S1x64
  slices_S2x64x64_S1x64x64_1_0_0 : S2x64x64.Slices ![1, 0, 0] S1x64x64
  slices_S2x64_S1x64_1_0 : S2x64.Slices ![1, 0] S1x64
  slices_S3x64_S1x64_2_0 : S3x64.Slices ![2, 0] S1x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1200000x1_S1200000x2_0_1 : S1200000x1.BroadcastsInDim S1200000x2 (![0, 1] : Fin 2 → Fin S1200000x2.rank)
  bcast_S_S100000x2 : S_.BroadcastsInDim S100000x2 (![] : Fin 0 → Fin S100000x2.rank)
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S5000x2_S5000x2 : S5000x2.ShapeCasts S5000x2
  broadcasts_S5000x1_S5000x2 : S5000x1.Broadcasts S5000x2
  shapeCasts_S1x2_S1x2 : S1x2.ShapeCasts S1x2
  broadcasts_S1x2_S5000x2 : S1x2.Broadcasts S5000x2
  reduces_S5000x2_S2 : S5000x2.Reduces [0] S2
  iota_S5000x64_d1_w32 : S5000x64.Iotas .tc 32 [1]
  natLt_1_32 : 1 < 32
  shapeCasts_S64x2_S64x2 : S64x2.ShapeCasts S64x2
  shapeCasts_S1x64_S64x1 : S1x64.ShapeCasts S64x1
  bcast_S64x1_S64x2_0_1 : S64x1.BroadcastsInDim S64x2 (![0, 1] : Fin 2 → Fin S64x2.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x128_S128x64_S5000x64_1_0_0_1_n_n_wf : DotDims.WF S5000x128 S128x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  gather_S100000x2_S1200000x1_S1200000x2_1_0_n_n_0_1_12_wf : GatherDims.WF S100000x2 S1200000x1 S1200000x2 [1] [0] [] [0] [] 1 ![1, 2]
  scatter_S100000x2_S1200000x1_S1200000x2_1_0_0_1_wf : ScatterDims.WF S100000x2 S1200000x1 S1200000x2 [1] [0] [0] 1
  dot_S5000x64_S5000x2_S64x2_0_0_1_1_n_n_wf : DotDims.WF S5000x64 S5000x2 S64x2 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S100000x64.size a
  hwx8_6 : ∀ i : grid8.Coords, EltTy.bits .f32 = 32 ∨ (Rect.block (s := S100000x64) S5000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x2.size a ≤ S64x2.size a
  hwx9_1 : ∀ i : grid9.Coords, EltTy.bits .f32 = 32 ∨ (Rect.block (s := S64x2) S64x2.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x2.size a ≤ S100000x2.size a
  hwx9_2 : ∀ i : grid9.Coords, EltTy.bits .f32 = 32 ∨ (Rect.block (s := S100000x2) S5000x2.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x2.size a ≤ S100000x2.size a
  hwx10_0 : ∀ i : grid10.Coords, EltTy.bits .f32 = 32 ∨ (Rect.block (s := S100000x2) S5000x2.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x2.size a ≤ S100000x2.size a
  hwx10_1 : ∀ i : grid10.Coords, EltTy.bits .f32 = 32 ∨ (Rect.block (s := S100000x2) S5000x2.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .f32 = 32 ∨ (Rect.block (s := S100000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x2.size a ≤ S1x2.size a
  hwx10_3 : ∀ i : grid10.Coords, EltTy.bits .f32 = 32 ∨ (Rect.block (s := S1x2) S1x2.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x2.size a ≤ S100000x2.size a
  hwx10_4 : ∀ i : grid10.Coords, EltTy.bits .f32 = 32 ∨ (Rect.block (s := S100000x2) S5000x2.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x2.size a ≤ S1x2.size a
  hwx10_5 : ∀ i : grid10.Coords, EltTy.bits .f32 = 32 ∨ (Rect.block (s := S1x2) S1x2.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x2.size a ≤ S1x2.size a
  hwx10_6 : ∀ i : grid10.Coords, EltTy.bits .f32 = 32 ∨ (Rect.block (s := S1x2) S1x2.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x2.size a ≤ S100000x2.size a
  hwx11_0 : ∀ i : grid11.Coords, EltTy.bits .f32 = 32 ∨ (Rect.block (s := S100000x2) S5000x2.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S100000x1.size a
  hwx11_1 : ∀ i : grid11.Coords, EltTy.bits .i32 = 32 ∨ (Rect.block (s := S100000x1) S5000x1.size (cc11_transform_1 i) (hinb11_1 i)).WholeWords (EltTy.packing .i32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x2.size a ≤ S64x2.size a
  hwx11_2 : ∀ i : grid11.Coords, EltTy.bits .f32 = 32 ∨ (Rect.block (s := S64x2) S64x2.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1200000x1_S1200000x2_1_0_n_n_0_1_12 : GatherDims S100000x2 S1200000x1 S1200000x2 where
  offsetDims := [1]
  collapsedSliceDims := [0]
  operandBatchingDims := []
  startIndicesBatchingDims := []
  startIndexMap := [0]
  indexVectorDim := 1
  sliceSizes := ![1, 2]
  wf := gather_S100000x2_S1200000x1_S1200000x2_1_0_n_n_0_1_12_wf
def scatter_S100000x2_S1200000x1_S1200000x2_1_0_0_1 : ScatterDims S100000x2 S1200000x1 S1200000x2 where
  updateWindowDims := [1]
  insertedWindowDims := [0]
  scatterDimsToOperandDims := [0]
  indexVectorDim := 1
  wf := scatter_S100000x2_S1200000x1_S1200000x2_1_0_0_1_wf
def dot_S5000x64_S5000x2_S64x2_0_0_1_1_n_n : DotDims S5000x64 S5000x2 S64x2 where
  lhsContracting := [0]
  rhsContracting := [0]
  lhsNonContracting := [1]
  rhsNonContracting := [1]
  lhsBatch := []
  rhsBatch := []
  wf := dot_S5000x64_S5000x2_S64x2_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v59) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v78_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v78_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S5000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v91) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v91) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v108) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v14) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v109) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v110_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v110_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v110_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v110_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v112) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v116) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v119) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v122) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v91) S5000x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v123) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v123) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg5) S64x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v124) S5000x2.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v136) S5000x2.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v124) S5000x2.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v14) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v137) S1x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v138_0) S5000x2.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v138_1) S1x2.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v138_2) S1x2.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v138_0) S5000x2.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v4) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v139_0) S64x2.size cc11_transform_2 reads11_2 true true 1 stage11_2 sem11_2
    hrank11 hreads11_2 hinb11_2 nbuf11_2 (Memref.isWhole_whole _) hwx11_2 hstage11_2

abbrev win11_3 : Pipeline.Window sig grid11 :=
  Pipeline.Window.ofSpec (Memref.whole main_v139_1) S1x64.size cc11_transform_3 reads11_3 true true 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x2 : Shape := ⟨2, ![64, 2]⟩
abbrev S2 : Shape := ⟨1, ![2]⟩
abbrev S3x64 : Shape := ⟨2, ![3, 64]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x64 : Shape := ⟨2, ![100000, 64]⟩
abbrev S1200000x64 : Shape := ⟨2, ![1200000, 64]⟩
abbrev S100000x1 : Shape := ⟨2, ![100000, 1]⟩
abbrev S1x64 : Shape := ⟨2, ![1, 64]⟩
abbrev S1x64x64 : Shape := ⟨3, ![1, 64, 64]⟩
abbrev S64x64 : Shape := ⟨2, ![64, 64]⟩
abbrev S100000x2 : Shape := ⟨2, ![100000, 2]⟩
abbrev S1200000x2 : Shape := ⟨2, ![1200000, 2]⟩
abbrev S1x2 : Shape := ⟨2, ![1, 2]⟩
abbrev S64x1 : Shape := ⟨2, ![64, 1]⟩

abbrev nBuf : Space → Nat
  | .hbm => 382
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S2x64x64, .f32⟩
  | 4 => ⟨S2x64, .f32⟩
  | 5 => ⟨S64x2, .f32⟩
  | 6 => ⟨S2, .f32⟩
  | 7 => ⟨S3x64, .f32⟩
  | 8 => ⟨S3x64, .f32⟩
  | 9 => ⟨S2x1200000, .i32⟩
  | 10 => ⟨S100000, .i32⟩
  | 11 => ⟨S1x1200000, .i32⟩
  | 12 => ⟨S1200000, .i32⟩
  | 13 => ⟨S1x1200000, .i32⟩
  | 14 => ⟨S1200000, .i32⟩
  | 15 => ⟨S_, .f32⟩
  | 16 => ⟨S1200000, .f32⟩
  | 17 => ⟨S_, .f32⟩
  | 18 => ⟨S100000, .f32⟩
  | 19 => ⟨S1200000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000x64, .f32⟩
  | 28 => ⟨S_, .i32⟩
  | 29 => ⟨S1200000, .i32⟩
  | 30 => ⟨S1200000, .i1⟩
  | 31 => ⟨S_, .i32⟩
  | 32 => ⟨S1200000, .i32⟩
  | 33 => ⟨S1200000, .i32⟩
  | 34 => ⟨S1200000, .i32⟩
  | 35 => ⟨S1200000x1, .i32⟩
  | 36 => ⟨S1200000, .f32⟩
  | 37 => ⟨S_, .i32⟩
  | 38 => ⟨S1200000, .i32⟩
  | 39 => ⟨S1200000, .i1⟩
  | 40 => ⟨S_, .i32⟩
  | 41 => ⟨S1200000, .i32⟩
  | 42 => ⟨S1200000, .i32⟩
  | 43 => ⟨S1200000, .i32⟩
  | 44 => ⟨S1200000x1, .i32⟩
  | 45 => ⟨S1200000, .f32⟩
  | 46 => ⟨S1200000, .f32⟩
  | 47 => ⟨S_, .i32⟩
  | 48 => ⟨S1200000, .i32⟩
  | 49 => ⟨S1200000, .i1⟩
  | 50 => ⟨S_, .i32⟩
  | 51 => ⟨S1200000, .i32⟩
  | 52 => ⟨S1200000, .i32⟩
  | 53 => ⟨S1200000, .i32⟩
  | 54 => ⟨S1200000x1, .i32⟩
  | 55 => ⟨S1200000x64, .f32⟩
  | 56 => ⟨S1200000x1, .f32⟩
  | 57 => ⟨S1200000x64, .f32⟩
  | 58 => ⟨S1200000x64, .f32⟩
  | 59 => ⟨S_, .f32⟩
  | 60 => ⟨S100000x64, .f32⟩
  | 61 => ⟨S1200000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S1x64, .f32⟩
  | 75 => ⟨S64, .f32⟩
  | 76 => ⟨S1x64, .f32⟩
  | 77 => ⟨S64, .f32⟩
  | 78 => ⟨S_, .f32⟩
  | 79 => ⟨S64, .f32⟩
  | 80 => ⟨S_, .f32⟩
  | 81 => ⟨S64, .f32⟩
  | 82 => ⟨S64, .f32⟩
  | 83 => ⟨S_, .i32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S100000x64, .f32⟩
  | 91 => ⟨S100000x64, .f32⟩
  | 92 => ⟨S100000x64, .f32⟩
  | 93 => ⟨S_, .f32⟩
  | 94 => ⟨S_, .f32⟩
  | 95 => ⟨S_, .f32⟩
  | 96 => ⟨S_, .f32⟩
  | 97 => ⟨S64, .f32⟩
  | 98 => ⟨S64, .f32⟩
  | 99 => ⟨S64, .f32⟩
  | 100 => ⟨S_, .f32⟩
  | 101 => ⟨S_, .i1⟩
  | 102 => ⟨S_, .f32⟩
  | 103 => ⟨S_, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S64, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S1x64x64, .f32⟩
  | 123 => ⟨S64x64, .f32⟩
  | 124 => ⟨S1x64, .f32⟩
  | 125 => ⟨S64, .f32⟩
  | 126 => ⟨S100000x64, .f32⟩
  | 127 => ⟨S_, .i32⟩
  | _ => ⟨S100000x128, .f32⟩

abbrev hbmTy0_1 (i : Nat) : BufTy := match i % 128 with
  | 0 => ⟨S1200000, .i32⟩
  | 1 => ⟨S1200000, .i1⟩
  | 2 => ⟨S_, .i32⟩
  | 3 => ⟨S1200000, .i32⟩
  | 4 => ⟨S1200000, .i32⟩
  | 5 => ⟨S1200000, .i32⟩
  | 6 => ⟨S1200000x1, .i32⟩
  | 7 => ⟨S1200000, .f32⟩
  | 8 => ⟨S_, .i32⟩
  | 9 => ⟨S1200000, .i32⟩
  | 10 => ⟨S1200000, .i1⟩
  | 11 => ⟨S_, .i32⟩
  | 12 => ⟨S1200000, .i32⟩
  | 13 => ⟨S1200000, .i32⟩
  | 14 => ⟨S1200000, .i32⟩
  | 15 => ⟨S1200000x1, .i32⟩
  | 16 => ⟨S1200000, .f32⟩
  | 17 => ⟨S1200000, .f32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000x64, .f32⟩
  | 27 => ⟨S1200000x1, .f32⟩
  | 28 => ⟨S1200000x64, .f32⟩
  | 29 => ⟨S1200000x64, .f32⟩
  | 30 => ⟨S_, .f32⟩
  | 31 => ⟨S100000x64, .f32⟩
  | 32 => ⟨S1200000x1, .i32⟩
  | 33 => ⟨S100000x64, .f32⟩
  | 34 => ⟨S100000, .f32⟩
  | 35 => ⟨S100000x1, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S1x64, .f32⟩
  | 46 => ⟨S64, .f32⟩
  | 47 => ⟨S1x64, .f32⟩
  | 48 => ⟨S64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S100000x64, .f32⟩
  | 62 => ⟨S100000x64, .f32⟩
  | 63 => ⟨S100000x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S100000x64, .f32⟩
  | 94 => ⟨S1x64x64, .f32⟩
  | 95 => ⟨S64x64, .f32⟩
  | 96 => ⟨S1x64, .f32⟩
  | 97 => ⟨S64, .f32⟩
  | 98 => ⟨S100000x64, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000, .f32⟩
  | 108 => ⟨S_, .i32⟩
  | 109 => ⟨S1200000, .i32⟩
  | 110 => ⟨S1200000, .i1⟩
  | 111 => ⟨S_, .i32⟩
  | 112 => ⟨S1200000, .i32⟩
  | 113 => ⟨S1200000, .i32⟩
  | 114 => ⟨S1200000, .i32⟩
  | 115 => ⟨S1200000x1, .i32⟩
  | 116 => ⟨S1200000, .f32⟩
  | 117 => ⟨S1200000, .f32⟩
  | 118 => ⟨S_, .i32⟩
  | 119 => ⟨S1200000, .i32⟩
  | 120 => ⟨S1200000, .i1⟩
  | 121 => ⟨S_, .i32⟩
  | 122 => ⟨S1200000, .i32⟩
  | 123 => ⟨S1200000, .i32⟩
  | 124 => ⟨S1200000, .i32⟩
  | 125 => ⟨S1200000x1, .i32⟩
  | 126 => ⟨S1200000x64, .f32⟩
  | 127 => ⟨S1200000x1, .f32⟩
  | _ => ⟨S100000x128, .f32⟩

abbrev hbmTy0_2 (i : Nat) : BufTy := match i % 128 with
  | 0 => ⟨S1200000x64, .f32⟩
  | 1 => ⟨S1200000x64, .f32⟩
  | 2 => ⟨S_, .f32⟩
  | 3 => ⟨S100000x64, .f32⟩
  | 4 => ⟨S1200000x1, .i32⟩
  | 5 => ⟨S100000x64, .f32⟩
  | 6 => ⟨S100000, .f32⟩
  | 7 => ⟨S100000x1, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S1x64, .f32⟩
  | 18 => ⟨S64, .f32⟩
  | 19 => ⟨S1x64, .f32⟩
  | 20 => ⟨S64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S64, .f32⟩
  | 55 => ⟨S64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S100000x64, .f32⟩
  | 66 => ⟨S100000x2, .f32⟩
  | 67 => ⟨S_, .i32⟩
  | 68 => ⟨S1200000, .i32⟩
  | 69 => ⟨S1200000, .i1⟩
  | 70 => ⟨S_, .i32⟩
  | 71 => ⟨S1200000, .i32⟩
  | 72 => ⟨S1200000, .i32⟩
  | 73 => ⟨S1200000, .i32⟩
  | 74 => ⟨S1200000x1, .i32⟩
  | 75 => ⟨S1200000, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000, .f32⟩
  | 85 => ⟨S1200000, .f32⟩
  | 86 => ⟨S_, .i32⟩
  | 87 => ⟨S1200000, .i32⟩
  | 88 => ⟨S1200000, .i1⟩
  | 89 => ⟨S_, .i32⟩
  | 90 => ⟨S1200000, .i32⟩
  | 91 => ⟨S1200000, .i32⟩
  | 92 => ⟨S1200000, .i32⟩
  | 93 => ⟨S1200000x1, .i32⟩
  | 94 => ⟨S1200000x2, .f32⟩
  | 95 => ⟨S1200000x1, .f32⟩
  | 96 => ⟨S1200000x2, .f32⟩
  | 97 => ⟨S1200000x2, .f32⟩
  | 98 => ⟨S_, .f32⟩
  | 99 => ⟨S100000x2, .f32⟩
  | 100 => ⟨S1200000x1, .i32⟩
  | 101 => ⟨S100000x2, .f32⟩
  | 102 => ⟨S100000, .f32⟩
  | 103 => ⟨S100000x1, .f32⟩
  | 104 => ⟨S100000x2, .f32⟩
  | 105 => ⟨S100000x2, .f32⟩
  | 106 => ⟨S100000x2, .f32⟩
  | 107 => ⟨S1x2, .f32⟩
  | 108 => ⟨S100000x2, .f32⟩
  | 109 => ⟨S100000x2, .f32⟩
  | 110 => ⟨S_, .f32⟩
  | 111 => ⟨S64x2, .f32⟩
  | 112 => ⟨S100000x1, .i32⟩
  | 113 => ⟨S64x2, .f32⟩
  | 114 => ⟨S_, .f32⟩
  | 115 => ⟨S100000, .f32⟩
  | 116 => ⟨S_, .f32⟩
  | 117 => ⟨S64, .f32⟩
  | 118 => ⟨S100000x1, .i32⟩
  | 119 => ⟨S64, .f32⟩
  | 120 => ⟨S_, .f32⟩
  | 121 => ⟨S64, .f32⟩
  | 122 => ⟨S64, .f32⟩
  | 123 => ⟨S64x1, .f32⟩
  | 124 => ⟨S64x2, .f32⟩
  | 125 => ⟨S64x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_12 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_c_13 : Ref sig .tc := ⟨.hbm, 127, rfl⟩
abbrev main_v78 : Ref sig .tc := ⟨.hbm, 128, rfl⟩
abbrev main_v79 : Ref sig .tc := ⟨.hbm, 129, rfl⟩
abbrev main_c_14 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_15 : Ref sig .tc := ⟨.hbm, 136, rfl⟩
abbrev main_v85 : Ref sig .tc := ⟨.hbm, 137, rfl⟩
abbrev main_v86 : Ref sig .tc := ⟨.hbm, 138, rfl⟩
abbrev main_c_16 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_17 : Ref sig .tc := ⟨.hbm, 146, rfl⟩
abbrev main_v93 : Ref sig .tc := ⟨.hbm, 147, rfl⟩
abbrev main_v94 : Ref sig .tc := ⟨.hbm, 148, rfl⟩
abbrev main_c_18 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_19 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_call2_cst : Ref sig .tc := ⟨.hbm, 170, rfl⟩
abbrev main_call2_v0 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_20 : Ref sig .tc := ⟨.hbm, 177, rfl⟩
abbrev main_v119 : Ref sig .tc := ⟨.hbm, 178, rfl⟩
abbrev main_cst_21 : Ref sig .tc := ⟨.hbm, 179, rfl⟩
abbrev main_v120 : Ref sig .tc := ⟨.hbm, 180, rfl⟩
abbrev main_v121 : Ref sig .tc := ⟨.hbm, 181, rfl⟩
abbrev main_c_22 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_cst_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_cst_1 : Ref sig .tc := ⟨.hbm, 193, rfl⟩
abbrev main_call3_v8 : Ref sig .tc := ⟨.hbm, 194, rfl⟩
abbrev main_call3_cst_2 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_cst_3 : Ref sig .tc := ⟨.hbm, 199, rfl⟩
abbrev main_call3_v12 : Ref sig .tc := ⟨.hbm, 200, rfl⟩
abbrev main_call3_cst_4 : Ref sig .tc := ⟨.hbm, 201, rfl⟩
abbrev main_call3_call0_v0 : Ref sig .tc := ⟨.hbm, 202, rfl⟩
abbrev main_call3_call0_v1 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_cst_23 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_c_24 : Ref sig .tc := ⟨.hbm, 227, rfl⟩
abbrev main_v144 : Ref sig .tc := ⟨.hbm, 228, rfl⟩
abbrev main_v145 : Ref sig .tc := ⟨.hbm, 229, rfl⟩
abbrev main_c_25 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_c_26 : Ref sig .tc := ⟨.hbm, 236, rfl⟩
abbrev main_v151 : Ref sig .tc := ⟨.hbm, 237, rfl⟩
abbrev main_v152 : Ref sig .tc := ⟨.hbm, 238, rfl⟩
abbrev main_c_27 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_c_28 : Ref sig .tc := ⟨.hbm, 246, rfl⟩
abbrev main_v159 : Ref sig .tc := ⟨.hbm, 247, rfl⟩
abbrev main_v160 : Ref sig .tc := ⟨.hbm, 248, rfl⟩
abbrev main_c_29 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_cst_30 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_call4_cst : Ref sig .tc := ⟨.hbm, 270, rfl⟩
abbrev main_call4_v0 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_31 : Ref sig .tc := ⟨.hbm, 277, rfl⟩
abbrev main_v185 : Ref sig .tc := ⟨.hbm, 278, rfl⟩
abbrev main_cst_32 : Ref sig .tc := ⟨.hbm, 279, rfl⟩
abbrev main_v186 : Ref sig .tc := ⟨.hbm, 280, rfl⟩
abbrev main_v187 : Ref sig .tc := ⟨.hbm, 281, rfl⟩
abbrev main_c_33 : Ref sig .tc := ⟨.hbm, 282, rfl⟩
abbrev main_call5_cst : Ref sig .tc := ⟨.hbm, 283, rfl⟩
abbrev main_call5_v0 : Ref sig .tc := ⟨.hbm, 284, rfl⟩
abbrev main_call5_v1 : Ref sig .tc := ⟨.hbm, 285, rfl⟩
abbrev main_call5_cst_0 : Ref sig .tc := ⟨.hbm, 286, rfl⟩
abbrev main_call5_v2 : Ref sig .tc := ⟨.hbm, 287, rfl⟩
abbrev main_call5_v3 : Ref sig .tc := ⟨.hbm, 288, rfl⟩
abbrev main_call5_v4 : Ref sig .tc := ⟨.hbm, 289, rfl⟩
abbrev main_call5_v5 : Ref sig .tc := ⟨.hbm, 290, rfl⟩
abbrev main_call5_v6 : Ref sig .tc := ⟨.hbm, 291, rfl⟩
abbrev main_call5_v7 : Ref sig .tc := ⟨.hbm, 292, rfl⟩
abbrev main_call5_cst_1 : Ref sig .tc := ⟨.hbm, 293, rfl⟩
abbrev main_call5_v8 : Ref sig .tc := ⟨.hbm, 294, rfl⟩
abbrev main_call5_cst_2 : Ref sig .tc := ⟨.hbm, 295, rfl⟩
abbrev main_call5_v9 : Ref sig .tc := ⟨.hbm, 296, rfl⟩
abbrev main_call5_v10 : Ref sig .tc := ⟨.hbm, 297, rfl⟩
abbrev main_call5_v11 : Ref sig .tc := ⟨.hbm, 298, rfl⟩
abbrev main_call5_cst_3 : Ref sig .tc := ⟨.hbm, 299, rfl⟩
abbrev main_call5_v12 : Ref sig .tc := ⟨.hbm, 300, rfl⟩
abbrev main_call5_cst_4 : Ref sig .tc := ⟨.hbm, 301, rfl⟩
abbrev main_call5_call0_v0 : Ref sig .tc := ⟨.hbm, 302, rfl⟩
abbrev main_call5_call0_v1 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_cst_34 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_c_35 : Ref sig .tc := ⟨.hbm, 323, rfl⟩
abbrev main_v206 : Ref sig .tc := ⟨.hbm, 324, rfl⟩
abbrev main_v207 : Ref sig .tc := ⟨.hbm, 325, rfl⟩
abbrev main_c_36 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_c_37 : Ref sig .tc := ⟨.hbm, 332, rfl⟩
abbrev main_v213 : Ref sig .tc := ⟨.hbm, 333, rfl⟩
abbrev main_v214 : Ref sig .tc := ⟨.hbm, 334, rfl⟩
abbrev main_c_38 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_c_39 : Ref sig .tc := ⟨.hbm, 342, rfl⟩
abbrev main_v221 : Ref sig .tc := ⟨.hbm, 343, rfl⟩
abbrev main_v222 : Ref sig .tc := ⟨.hbm, 344, rfl⟩
abbrev main_c_40 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_cst_41 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_cst_42 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_cst_43 : Ref sig .tc := ⟨.hbm, 370, rfl⟩
abbrev main_v245 : Ref sig .tc := ⟨.hbm, 371, rfl⟩
abbrev main_cst_44 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_cst_45 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64_S1x64_0_0 : S3x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  slices_S3x64_S1x64_1_0 : S3x64.Slices ![1, 0] S1x64
  slices_S2x64x64_S1x64x64_1_0_0 : S2x64x64.Slices ![1, 0, 0] S1x64x64
  slices_S2x64_S1x64_1_0 : S2x64.Slices ![1, 0] S1x64
  slices_S3x64_S1x64_2_0 : S3x64.Slices ![2, 0] S1x64
  bcast_S1200000x1_S1200000x2_0_1 : S1200000x1.BroadcastsInDim S1200000x2 (![0, 1] : Fin 2 → Fin S1200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64x2 : S_.BroadcastsInDim S64x2 (![] : Fin 0 → Fin S64x2.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S100000_S1200000x1_S1200000_n_0_0_1_wf : ScatterDims.WF S100000 S1200000x1 S1200000 [] [0] [0] 1
  dot_S100000x128_S128x64_S100000x64_1_0_0_1_n_n_wf : DotDims.WF S100000x128 S128x64 S100000x64 [1] [0] [0] [1] [] []
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []
  gather_S100000x2_S1200000x1_S1200000x2_1_0_n_n_0_1_12_wf : GatherDims.WF S100000x2 S1200000x1 S1200000x2 [1] [0] [] [0] [] 1 ![1, 2]
  scatter_S100000x2_S1200000x1_S1200000x2_1_0_0_1_wf : ScatterDims.WF S100000x2 S1200000x1 S1200000x2 [1] [0] [0] 1
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1200000x1_S1200000x2_1_0_n_n_0_1_12 : GatherDims S100000x2 S1200000x1 S1200000x2 where
  offsetDims := [1]
  collapsedSliceDims := [0]
  operandBatchingDims := []
  startIndicesBatchingDims := []
  startIndexMap := [0]
  indexVectorDim := 1
  sliceSizes := ![1, 2]
  wf := gather_S100000x2_S1200000x1_S1200000x2_1_0_n_n_0_1_12_wf
def scatter_S100000x2_S1200000x1_S1200000x2_1_0_0_1 : ScatterDims S100000x2 S1200000x1 S1200000x2 where
  updateWindowDims := [1]
  insertedWindowDims := [0]
  scatterDimsToOperandDims := [0]
  indexVectorDim := 1
  wf := scatter_S100000x2_S1200000x1_S1200000x2_1_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Tab (R C : Nat) : Type := Fin R → Fin C → EReal

def ofMat {R C : Nat} (x : FVec Ideal ⟨2, ![R, C]⟩ .f32) : Tab R C := fun n j => x (ix2 n j)

def toMat {R C : Nat} (T : Tab R C) : FVec Ideal ⟨2, ![R, C]⟩ .f32 := fun i => T (i 0) (i 1)

def ofVec {C : Nat} (x : FVec Ideal ⟨1, ![C]⟩ .f32) : Fin C → EReal := fun j => x (ix1 j)

def ofCube {L R C : Nat} (x : FVec Ideal ⟨3, ![L, R, C]⟩ .f32) (l : Fin L) : Tab R C := fun k j => x (ix3 l k j)

def rowOfMat {L C : Nat} (x : FVec Ideal ⟨2, ![L, C]⟩ .f32) (l : Fin L) : Fin C → EReal := fun j => x (ix2 l j)

 def zero : EReal := Ideal.ofBits .f32 0x00000000#32
 def one : EReal := Ideal.ofBits .f32 0x3F800000#32
 def negHalf : EReal := Ideal.ofBits .f32 0xBF000000#32
 def nNodes : EReal := Ideal.ofBits .f32 0x47C35000#32
 def eps : EReal := Ideal.ofBits .f32 0x3727C5AC#32

def wrapped (z : BitVec 32) : BitVec 32 := Scalar.select (IntOp.cmpi .slt z 0#32) (IntOp.addi z 100000#32) z

def rowOf (z : BitVec 32) : Fin 100000 := ⟨min (wrapped z).toInt.toNat (100000 - 1), by omega⟩

section Graph
variable (ei : IVec ⟨2, ![2, 1200000]⟩ 32)

 def src (e : Fin 1200000) : BitVec 32 := ei (ix2 (0 : Fin 2) e)
 def dst (e : Fin 1200000) : BitVec 32 := ei (ix2 (1 : Fin 2) e)

def inEdges (n : Fin 100000) : Finset (Fin 1200000) :=
  Finset.univ.filter fun e => (dst ei e).toInt = (n.val : Int)

def deg (n : Fin 100000) : EReal := (zero + ∑ _e ∈ inEdges ei n, one) + one

def dinv (n : Fin 100000) : EReal := Ideal.pow (deg ei n) negHalf

def enorm (e : Fin 1200000) : EReal := dinv ei (rowOf (src ei e)) * dinv ei (rowOf (dst ei e))

def lin {K C : Nat} (h : Tab 100000 K) (W : Tab K C) : Tab 100000 C := fun n j => ∑ k : Fin K, h n k * W k j

def agg {C : Nat} (hl : Tab 100000 C) : Tab 100000 C := fun n j =>
  zero + ∑ e ∈ inEdges ei n, hl (rowOf (src ei e)) j * enorm ei e

def conv {C : Nat} (hl : Tab 100000 C) (b : Fin C → EReal) : Tab 100000 C := fun n j =>
  (agg ei hl n j + hl n j * (dinv ei n * dinv ei n)) + b j
end Graph

def reluT {R C : Nat} (t : Tab R C) : Tab R C := fun n j => max (t n j) zero

def colSum {C : Nat} (t : Tab 100000 C) (j : Fin C) : EReal := ∑ n : Fin 100000, t n j

def meanT {C : Nat} (t : Tab 100000 C) (j : Fin C) : EReal := Ideal.div (colSum t j) nNodes

def varK {C : Nat} (t : Tab 100000 C) (j : Fin C) : EReal :=
  Ideal.div (colSum (fun n j => t n j * t n j) j) nNodes - meanT t j * meanT t j

def varR {C : Nat} (t : Tab 100000 C) (j : Fin C) : EReal :=
  Ideal.div (colSum (fun n j => (t n j - meanT t j) * (t n j - meanT t j)) j)
    (nNodes - (((0#32 : BitVec 32).toInt : ℝ) : EReal))

def bnWith {C : Nat} (v : Fin C → EReal) (t : Tab 100000 C) (γ β : Fin C → EReal) : Tab 100000 C := fun n j =>
  ((t n j - meanT t j) * Ideal.rsqrt (v j + eps)) * γ j + β j

def addT {R C : Nat} (a b : Tab R C) : Tab R C := fun n j => a n j + b n j

def hot (z : BitVec 32) (b : Fin 64) : EReal :=
  (((((IntOp.cmpi .eq z (BitVec.ofNat 32 b.val)).setWidth 32 : BitVec 32)).toInt : ℝ) : EReal)

section Net
variable (x : FVec Ideal ⟨2, ![100000, 128]⟩ .f32) (Win : FVec Ideal ⟨2, ![128, 64]⟩ .f32)
  (bin : FVec Ideal ⟨1, ![64]⟩ .f32) (Wh : FVec Ideal ⟨3, ![2, 64, 64]⟩ .f32) (bh : FVec Ideal ⟨2, ![2, 64]⟩ .f32)
  (Wout : FVec Ideal ⟨2, ![64, 2]⟩ .f32) (bout : FVec Ideal ⟨1, ![2]⟩ .f32)
  (g be : FVec Ideal ⟨2, ![3, 64]⟩ .f32) (ei : IVec ⟨2, ![2, 1200000]⟩ 32) (bt : IVec ⟨1, ![100000]⟩ 32)

def t0 : Tab 100000 64 := reluT (conv ei (lin (ofMat x) (ofMat Win)) (ofVec bin))

def h1K : Tab 100000 64 := addT (bnWith (varK (t0 x Win bin ei)) (t0 x Win bin ei) (rowOfMat g 0) (rowOfMat be 0)) (fun _ _ => zero)
def t1K : Tab 100000 64 := reluT (conv ei (lin (h1K x Win bin g be ei) (ofCube Wh 0)) (rowOfMat bh 0))
def h2K : Tab 100000 64 :=
  addT (bnWith (varK (t1K x Win bin Wh bh g be ei)) (t1K x Win bin Wh bh g be ei) (rowOfMat g 1) (rowOfMat be 1)) (h1K x Win bin g be ei)
def t2K : Tab 100000 64 := reluT (conv ei (lin (h2K x Win bin Wh bh g be ei) (ofCube Wh 1)) (rowOfMat bh 1))
def h3K : Tab 100000 64 :=
  addT (bnWith (varK (t2K x Win bin Wh bh g be ei)) (t2K x Win bin Wh bh g be ei) (rowOfMat g 2) (rowOfMat be 2)) (h2K x Win bin Wh bh g be ei)
def t3K : Tab 100000 2 := conv ei (lin (h3K x Win bin Wh bh g be ei) (ofMat Wout)) (ofVec bout)

def sumsK : Tab 64 2 := fun b d => ∑ n : Fin 100000, hot (bt (ix1 n)) b * t3K x Win bin Wh bh Wout bout g be ei n d

def cntK (b : Fin 64) : EReal := ∑ n : Fin 100000, hot (bt (ix1 n)) b
def outK : Tab 64 2 := fun b d => Ideal.div (sumsK x Win bin Wh bh Wout bout g be ei bt b d) (max (cntK bt b) one)

def h1R : Tab 100000 64 := bnWith (varR (t0 x Win bin ei)) (t0 x Win bin ei) (rowOfMat g 0) (rowOfMat be 0)
def t1R : Tab 100000 64 := reluT (conv ei (lin (h1R x Win bin g be ei) (ofCube Wh 0)) (rowOfMat bh 0))
def h2R : Tab 100000 64 :=
  addT (bnWith (varR (t1R x Win bin Wh bh g be ei)) (t1R x Win bin Wh bh g be ei) (rowOfMat g 1) (rowOfMat be 1)) (h1R x Win bin g be ei)
def t2R : Tab 100000 64 := reluT (conv ei (lin (h2R x Win bin Wh bh g be ei) (ofCube Wh 1)) (rowOfMat bh 1))
def h3R : Tab 100000 64 :=
  addT (bnWith (varR (t2R x Win bin Wh bh g be ei)) (t2R x Win bin Wh bh g be ei) (rowOfMat g 2) (rowOfMat be 2)) (h2R x Win bin Wh bh g be ei)
def t3R : Tab 100000 2 := conv ei (lin (h3R x Win bin Wh bh g be ei) (ofMat Wout)) (ofVec bout)

def members (b : Fin 64) : Finset (Fin 100000) := Finset.univ.filter fun n => (bt (ix1 n)).toInt = (b.val : Int)
def sumsR : Tab 64 2 := fun b d => zero + ∑ n ∈ members bt b, t3R x Win bin Wh bh Wout bout g be ei n d
def cntR (b : Fin 64) : EReal := zero + ∑ _n ∈ members bt b, one
def outR : Tab 64 2 := fun b d => Ideal.div (sumsR x Win bin Wh bh Wout bout g be ei bt b d) (max (cntR bt b) one)
end Net

def AllReal {s : Shape} (v : FVec Ideal s .f32) : Prop := ∀ i, ∃ r : ℝ, v i = (r : EReal)

end Cert.Spec

end
-- ==== Proof.KSpec.lean ====
import proofs.«426946_j20469814133009_2_alg».proof.Proof.Spec

noncomputable section

open scoped BigOperators

namespace Cert.Spec

open Idealize.ShloMosaic Idealize.ShloMosaic.ValueIdx

def combPre {C : Nat} (A H : Tab 100000 C) (sn : Tab 100000 1) (b : Tab 1 C) : Tab 100000 C := fun n j =>
  (A n j + H n j * sn n 0) + b 0 j

def sumRow {C : Nat} (T : Tab 100000 C) : Tab 1 C := fun _ j => ∑ n : Fin 100000, T n j

def sqSumRow {C : Nat} (T : Tab 100000 C) : Tab 1 C := fun _ j => ∑ n : Fin 100000, T n j * T n j

def bnKern {C : Nat} (T : Tab 100000 C) (M Vr G B : Tab 1 C) (Res : Tab 100000 C) : Tab 100000 C := fun n j =>
  ((((T n j - M 0 j) * Ideal.rsqrt (Vr 0 j + eps)) * G 0 j) + B 0 j) + Res n j

def poolSums (H : Tab 100000 2) (w : IVec ⟨2, ![100000, 1]⟩ 32) : Tab 64 2 := fun b d =>
  ∑ n : Fin 100000, hot (w (ix2 n (0 : Fin 1))) b * H n d

def poolCnt (w : IVec ⟨2, ![100000, 1]⟩ 32) : Tab 1 64 := fun _ b => ∑ n : Fin 100000, hot (w (ix2 n (0 : Fin 1))) b

end Cert.Spec

end
-- ==== Proof.KChainAlg.lean ====
import proofs.«426946_j20469814133009_2_alg».proof.Proof.KSpec

noncomputable section

open scoped BigOperators

namespace Cert.KernelIdeal.KV

open Idealize.ShloMosaic Idealize.ShloMosaic.ValueIdx Cert.Spec

theorem ofMat_toMat {R C : Nat} (T : Tab R C) : ofMat (toMat T) = T := rfl

theorem toMat_ofMat {R C : Nat} (x : FVec Ideal ⟨2, ![R, C]⟩ .f32) : toMat (ofMat x) = x := by
  funext i
  exact congrArg x (eq_ix2 i).symm

theorem toMat_apply {R C : Nat} (T : Tab R C) (n : Fin R) (j : Fin C) : toMat T (ix2 n j) = T n j := rfl

theorem eq_toMat_of_ofMat {R C : Nat} (x : FVec Ideal ⟨2, ![R, C]⟩ .f32) (T : Tab R C) (h : ofMat x = T) : x = toMat T := by
  rw [← h, toMat_ofMat]

theorem combPre_eq_conv {C : Nat} (ei : IVec ⟨2, ![2, 1200000]⟩ 32) (A L' : Tab 100000 C) (sn : Tab 100000 1) (b : Tab 1 C)
    (L : Tab 100000 C) (bias : Fin C → EReal) (hL : L' = L) (hA : A = agg ei L)
    (hsn : ∀ n, sn n 0 = dinv ei n * dinv ei n) (hb : ∀ j, b 0 j = bias j) :
    combPre A L' sn b = conv ei L bias := by
  funext n j
  simp only [combPre, conv, hL, hA, hsn, hb]

theorem bnKern_eq {C : Nat} (T : Tab 100000 C) (M Vr G B : Tab 1 C) (Res : Tab 100000 C) (g b : Fin C → EReal)
    (hM : ∀ j, M 0 j = Ideal.div (sumRow T 0 j) nNodes)
    (hV : ∀ j, Vr 0 j = Ideal.div (sqSumRow T 0 j) nNodes - Ideal.div (sumRow T 0 j) nNodes * Ideal.div (sumRow T 0 j) nNodes)
    (hG : ∀ j, G 0 j = g j) (hB : ∀ j, B 0 j = b j) :
    bnKern T M Vr G B Res = addT (bnWith (varK T) T g b) Res := by
  funext n j
  simp only [bnKern, addT, bnWith, varK, meanT, colSum, hM, hV, hG, hB, sumRow, sqSumRow]

theorem poolSums_eq (H : Tab 100000 2) (w : IVec ⟨2, ![100000, 1]⟩ 32) (bt : IVec ⟨1, ![100000]⟩ 32)
    (hw : ∀ n, w (ix2 n (0 : Fin 1)) = bt (ix1 n)) (b : Fin 64) (d : Fin 2) :
    poolSums H w b d = ∑ n : Fin 100000, hot (bt (ix1 n)) b * H n d := by
  simp only [poolSums, hw]

theorem poolCnt_eq (w : IVec ⟨2, ![100000, 1]⟩ 32) (bt : IVec ⟨1, ![100000]⟩ 32)
    (hw : ∀ n, w (ix2 n (0 : Fin 1)) = bt (ix1 n)) (r : Fin 1) (b : Fin 64) :
    poolCnt w r b = cntK bt b := by
  simp only [poolCnt, cntK, hw]

end Cert.KernelIdeal.KV

end
-- ==== Proof.KChainC0.lean ====
import proofs.«426946_j20469814133009_2_alg».proof.Proof.Gen.KernelIdeal.Frame
import Idealize.ShloMosaic.Lib.StableHlo.Run
import Idealize.ShloMosaic.PureOps.Ideal

set_option maxRecDepth 16384

noncomputable section

namespace Cert.KernelIdeal.KV

open Idealize.ShloMosaic Idealize.ShloMosaic.TcCoe Cert.KernelIdeal Cert.KernelIdeal.Gen

def wr0 : List (Ref sig .tc) := [main_v0, main_v1, main_v2, main_v3, main_v4, main_cst, main_v5, main_cst_0, main_v6, main_v7, main_v8, main_cst_1, main_v9, main_v10, main_cst_2, main_v11, main_v12, main_v13, main_v14, main_c, main_v15, main_v16, main_c_3, main_v17, main_v18, main_v19, main_v20, main_v21, main_c_4, main_v22, main_v23, main_c_5, main_v24, main_v25, main_v26, main_v27, main_v28, main_v29, main_v30]
theorem hostOps0_wr : (hostOps0 (F := Ideal)).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH0 (W : Valuation τ sig (Elt Ideal)) (b : Ref sig .tc) (hb : b ∉ wr0) :
    StableHlo.after hostOps0 W (Proc.devRef .tc b) = W (Proc.devRef .tc b) :=
  StableHlo.after_of_writes_sub _ W hostOps0_wr hb

def wr1 : List (Ref sig .tc) := [main_c_6, main_v32, main_v33, main_c_7, main_v34, main_v35, main_v36, main_v37, main_v38, main_v39, main_v40, main_cst_8, main_v41, main_v42, main_v43, main_v44]
theorem hostOps1_wr : (hostOps1 (F := Ideal)).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH1 (W : Valuation τ sig (Elt Ideal)) (b : Ref sig .tc) (hb : b ∉ wr1) :
    StableHlo.after hostOps1 W (Proc.devRef .tc b) = W (Proc.devRef .tc b) :=
  StableHlo.after_of_writes_sub _ W hostOps1_wr hb

def wr2 : List (Ref sig .tc) := [main_cst_9, main_v46, main_v47, main_cst_10, main_v48, main_v49, main_v50, main_v51, main_cst_11, main_v52, main_v53, main_v54, main_v55, main_v56, main_v57, main_v58]
theorem hostOps2_wr : (hostOps2 (F := Ideal)).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH2 (W : Valuation τ sig (Elt Ideal)) (b : Ref sig .tc) (hb : b ∉ wr2) :
    StableHlo.after hostOps2 W (Proc.devRef .tc b) = W (Proc.devRef .tc b) :=
  StableHlo.after_of_writes_sub _ W hostOps2_wr hb

variable (m : (ℓ : Loc nD τ sig) → Buf (Elt Ideal) ℓ) (ρ : Dev nD → PrngReg)

-- A segment leaves a buffer it does not write as it found it; a region also leaves its input arrays.
theorem s1 (c : Dev nD) (b : Ref sig .tc) (h : b ∉ wr0) :
    W1 m ρ c (Proc.devRef .tc b) = W0 m ρ c (Proc.devRef .tc b) :=
  carryH0 _ b h
theorem s2 (c : Dev nD) (b : Ref sig .tc) (h : (∀ w, Pipeline.arrRef spec0 w ≠ b)) :
    W2 m ρ c (Proc.devRef .tc b) = W1 m ρ c (Proc.devRef .tc b) :=
  W2_of_ne m ρ c b h
theorem s3 (c : Dev nD) (b : Ref sig .tc) (h : b ∉ wr1) :
    W3 m ρ c (Proc.devRef .tc b) = W2 m ρ c (Proc.devRef .tc b) :=
  carryH1 _ b h
theorem s4 (c : Dev nD) (b : Ref sig .tc) (h : ((∀ w, Pipeline.arrRef spec1 w ≠ b) ∨ b = main_v14)) :
    W4 m ρ c (Proc.devRef .tc b) = W3 m ρ c (Proc.devRef .tc b) := by
  rcases h with h | rfl
  · exact W4_of_ne m ρ c b h
  · exact (W4_arr m ρ c 2).trans (((dat1 (V3 m ρ) c).arrAt_in 2 rfl _).trans (A_eq1 (V3 m ρ) c 2))
theorem s5 (c : Dev nD) (b : Ref sig .tc) (h : b ∉ wr2) :
    W5 m ρ c (Proc.devRef .tc b) = W4 m ρ c (Proc.devRef .tc b) :=
  carryH2 _ b h
theorem s6 (c : Dev nD) (b : Ref sig .tc) (h : (∀ w, Pipeline.arrRef spec2 w ≠ b)) :
    W6 m ρ c (Proc.devRef .tc b) = W5 m ρ c (Proc.devRef .tc b) :=
  W6_of_ne m ρ c b h

-- Steps compose: one condition per segment carries a buffer across the whole stretch.
abbrev P0_2 (b : Ref sig .tc) : Prop := b ∉ wr0 ∧ (∀ w, Pipeline.arrRef spec0 w ≠ b)
theorem c0_2 (c : Dev nD) (b : Ref sig .tc) (h : P0_2 b) : W2 m ρ c (Proc.devRef .tc b) = W0 m ρ c (Proc.devRef .tc b) :=
  (s2 m ρ c b h.2).trans (s1 m ρ c b h.1)
abbrev P0_3 (b : Ref sig .tc) : Prop := P0_2 b ∧ b ∉ wr1
theorem c0_3 (c : Dev nD) (b : Ref sig .tc) (h : P0_3 b) : W3 m ρ c (Proc.devRef .tc b) = W0 m ρ c (Proc.devRef .tc b) :=
  (s3 m ρ c b h.2).trans (c0_2 m ρ c b h.1)
abbrev P0_4 (b : Ref sig .tc) : Prop := P0_3 b ∧ ((∀ w, Pipeline.arrRef spec1 w ≠ b) ∨ b = main_v14)
theorem c0_4 (c : Dev nD) (b : Ref sig .tc) (h : P0_4 b) : W4 m ρ c (Proc.devRef .tc b) = W0 m ρ c (Proc.devRef .tc b) :=
  (s4 m ρ c b h.2).trans (c0_3 m ρ c b h.1)
abbrev P0_5 (b : Ref sig .tc) : Prop := P0_4 b ∧ b ∉ wr2
theorem c0_5 (c : Dev nD) (b : Ref sig .tc) (h : P0_5 b) : W5 m ρ c (Proc.devRef .tc b) = W0 m ρ c (Proc.devRef .tc b) :=
  (s5 m ρ c b h.2).trans (c0_4 m ρ c b h.1)
abbrev P0_6 (b : Ref sig .tc) : Prop := P0_5 b ∧ (∀ w, Pipeline.arrRef spec2 w ≠ b)
theorem c0_6 (c : Dev nD) (b : Ref sig .tc) (h : P0_6 b) : W6 m ρ c (Proc.devRef .tc b) = W0 m ρ c (Proc.devRef .tc b) :=
  (s6 m ρ c b h.2).trans (c0_5 m ρ c b h.1)
abbrev P1_3 (b : Ref sig .tc) : Prop := (∀ w, Pipeline.arrRef spec0 w ≠ b) ∧ b ∉ wr1
theorem c1_3 (c : Dev nD) (b : Ref sig .tc) (h : P1_3 b) : W3 m ρ c (Proc.devRef .tc b) = W1 m ρ c (Proc.devRef .tc b) :=
  (s3 m ρ c b h.2).trans (s2 m ρ c b h.1)
abbrev P1_4 (b : Ref sig .tc) : Prop := P1_3 b ∧ ((∀ w, Pipeline.arrRef spec1 w ≠ b) ∨ b = main_v14)
theorem c1_4 (c : Dev nD) (b : Ref sig .tc) (h : P1_4 b) : W4 m ρ c (Proc.devRef .tc b) = W1 m ρ c (Proc.devRef .tc b) :=
  (s4 m ρ c b h.2).trans (c1_3 m ρ c b h.1)
abbrev P1_5 (b : Ref sig .tc) : Prop := P1_4 b ∧ b ∉ wr2
theorem c1_5 (c : Dev nD) (b : Ref sig .tc) (h : P1_5 b) : W5 m ρ c (Proc.devRef .tc b) = W1 m ρ c (Proc.devRef .tc b) :=
  (s5 m ρ c b h.2).trans (c1_4 m ρ c b h.1)
abbrev P1_6 (b : Ref sig .tc) : Prop := P1_5 b ∧ (∀ w, Pipeline.arrRef spec2 w ≠ b)
theorem c1_6 (c : Dev nD) (b : Ref sig .tc) (h : P1_6 b) : W6 m ρ c (Proc.devRef .tc b) = W1 m ρ c (Proc.devRef .tc b) :=
  (s6 m ρ c b h.2).trans (c1_5 m ρ c b h.1)

end Cert.KernelIdeal.KV

end
-- ==== Proof.KChainC1.lean ====
import proofs.«426946_j20469814133009_2_alg».proof.Proof.Gen.KernelIdeal.Frame
import Idealize.ShloMosaic.Lib.StableHlo.Run
import Idealize.ShloMosaic.PureOps.Ideal

set_option maxRecDepth 16384

noncomputable section

namespace Cert.KernelIdeal.KV

open Idealize.ShloMosaic Idealize.ShloMosaic.TcCoe Cert.KernelIdeal Cert.KernelIdeal.Gen

def wr3 : List (Ref sig .tc) := [main_v60, main_v61, main_v62, main_v63]
theorem hostOps3_wr : (hostOps3 (F := Ideal)).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH3 (W : Valuation τ sig (Elt Ideal)) (b : Ref sig .tc) (hb : b ∉ wr3) :
    StableHlo.after hostOps3 W (Proc.devRef .tc b) = W (Proc.devRef .tc b) :=
  StableHlo.after_of_writes_sub _ W hostOps3_wr hb

def wr4 : List (Ref sig .tc) := [main_c_12, main_v65, main_v66, main_c_13, main_v67, main_v68, main_v69, main_v70, main_v71, main_v72, main_v73, main_cst_14, main_v74, main_v75, main_v76, main_v77]
theorem hostOps4_wr : (hostOps4 (F := Ideal)).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH4 (W : Valuation τ sig (Elt Ideal)) (b : Ref sig .tc) (hb : b ∉ wr4) :
    StableHlo.after hostOps4 W (Proc.devRef .tc b) = W (Proc.devRef .tc b) :=
  StableHlo.after_of_writes_sub _ W hostOps4_wr hb

def wr5 : List (Ref sig .tc) := [main_cst_15, main_v79, main_v80, main_cst_16, main_v81, main_v82, main_v83, main_v84, main_v85, main_v86, main_v87, main_v88, main_v89, main_v90]
theorem hostOps5_wr : (hostOps5 (F := Ideal)).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH5 (W : Valuation τ sig (Elt Ideal)) (b : Ref sig .tc) (hb : b ∉ wr5) :
    StableHlo.after hostOps5 W (Proc.devRef .tc b) = W (Proc.devRef .tc b) :=
  StableHlo.after_of_writes_sub _ W hostOps5_wr hb

variable (m : (ℓ : Loc nD τ sig) → Buf (Elt Ideal) ℓ) (ρ : Dev nD → PrngReg)

-- A segment leaves a buffer it does not write as it found it; a region also leaves its input arrays.
theorem s7 (c : Dev nD) (b : Ref sig .tc) (h : b ∉ wr3) :
    W7 m ρ c (Proc.devRef .tc b) = W6 m ρ c (Proc.devRef .tc b) :=
  carryH3 _ b h
theorem s8 (c : Dev nD) (b : Ref sig .tc) (h : ((∀ w, Pipeline.arrRef spec3 w ≠ b) ∨ b = main_v59)) :
    W8 m ρ c (Proc.devRef .tc b) = W7 m ρ c (Proc.devRef .tc b) := by
  rcases h with h | rfl
  · exact W8_of_ne m ρ c b h
  · exact (W8_arr m ρ c 0).trans (((dat3 (V7 m ρ) c).arrAt_in 0 rfl _).trans (A_eq3 (V7 m ρ) c 0))
theorem s9 (c : Dev nD) (b : Ref sig .tc) (h : b ∉ wr4) :
    W9 m ρ c (Proc.devRef .tc b) = W8 m ρ c (Proc.devRef .tc b) :=
  carryH4 _ b h
theorem s10 (c : Dev nD) (b : Ref sig .tc) (h : ((∀ w, Pipeline.arrRef spec4 w ≠ b) ∨ b = main_v14)) :
    W10 m ρ c (Proc.devRef .tc b) = W9 m ρ c (Proc.devRef .tc b) := by
  rcases h with h | rfl
  · exact W10_of_ne m ρ c b h
  · exact (W10_arr m ρ c 2).trans (((dat4 (V9 m ρ) c).arrAt_in 2 rfl _).trans (A_eq4 (V9 m ρ) c 2))
theorem s11 (c : Dev nD) (b : Ref sig .tc) (h : b ∉ wr5) :
    W11 m ρ c (Proc.devRef .tc b) = W10 m ρ c (Proc.devRef .tc b) :=
  carryH5 _ b h
theorem s12 (c : Dev nD) (b : Ref sig .tc) (h : (∀ w, Pipeline.arrRef spec5 w ≠ b)) :
    W12 m ρ c (Proc.devRef .tc b) = W11 m ρ c (Proc.devRef .tc b) :=
  W12_of_ne m ρ c b h

-- Steps compose: one condition per segment carries a buffer across the whole stretch.
abbrev P6_8 (b : Ref sig .tc) : Prop := b ∉ wr3 ∧ ((∀ w, Pipeline.arrRef spec3 w ≠ b) ∨ b = main_v59)
theorem c6_8 (c : Dev nD) (b : Ref sig .tc) (h : P6_8 b) : W8 m ρ c (Proc.devRef .tc b) = W6 m ρ c (Proc.devRef .tc b) :=
  (s8 m ρ c b h.2).trans (s7 m ρ c b h.1)
abbrev P6_9 (b : Ref sig .tc) : Prop := P6_8 b ∧ b ∉ wr4
theorem c6_9 (c : Dev nD) (b : Ref sig .tc) (h : P6_9 b) : W9 m ρ c (Proc.devRef .tc b) = W6 m ρ c (Proc.devRef .tc b) :=
  (s9 m ρ c b h.2).trans (c6_8 m ρ c b h.1)
abbrev P6_10 (b : Ref sig .tc) : Prop := P6_9 b ∧ ((∀ w, Pipeline.arrRef spec4 w ≠ b) ∨ b = main_v14)
theorem c6_10 (c : Dev nD) (b : Ref sig .tc) (h : P6_10 b) : W10 m ρ c (Proc.devRef .tc b) = W6 m ρ c (Proc.devRef .tc b) :=
  (s10 m ρ c b h.2).trans (c6_9 m ρ c b h.1)
abbrev P6_11 (b : Ref sig .tc) : Prop := P6_10 b ∧ b ∉ wr5
theorem c6_11 (c : Dev nD) (b : Ref sig .tc) (h : P6_11 b) : W11 m ρ c (Proc.devRef .tc b) = W6 m ρ c (Proc.devRef .tc b) :=
  (s11 m ρ c b h.2).trans (c6_10 m ρ c b h.1)
abbrev P6_12 (b : Ref sig .tc) : Prop := P6_11 b ∧ (∀ w, Pipeline.arrRef spec5 w ≠ b)
theorem c6_12 (c : Dev nD) (b : Ref sig .tc) (h : P6_12 b) : W12 m ρ c (Proc.devRef .tc b) = W6 m ρ c (Proc.devRef .tc b) :=
  (s12 m ρ c b h.2).trans (c6_11 m ρ c b h.1)

end Cert.KernelIdeal.KV

end
-- ==== Proof.KChainC2.lean ====
import proofs.«426946_j20469814133009_2_alg».proof.Proof.Gen.KernelIdeal.Frame
import Idealize.ShloMosaic.Lib.StableHlo.Run
import Idealize.ShloMosaic.PureOps.Ideal

set_option maxRecDepth 16384

noncomputable section

namespace Cert.KernelIdeal.KV

open Idealize.ShloMosaic Idealize.ShloMosaic.TcCoe Cert.KernelIdeal Cert.KernelIdeal.Gen

def wr6 : List (Ref sig .tc) := [main_v92, main_v93, main_v94, main_v95]
theorem hostOps6_wr : (hostOps6 (F := Ideal)).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH6 (W : Valuation τ sig (Elt Ideal)) (b : Ref sig .tc) (hb : b ∉ wr6) :
    StableHlo.after hostOps6 W (Proc.devRef .tc b) = W (Proc.devRef .tc b) :=
  StableHlo.after_of_writes_sub _ W hostOps6_wr hb

def wr7 : List (Ref sig .tc) := [main_c_17, main_v97, main_v98, main_c_18, main_v99, main_v100, main_v101, main_v102, main_v103, main_v104, main_v105, main_cst_19, main_v106, main_v107, main_v108, main_v109]
theorem hostOps7_wr : (hostOps7 (F := Ideal)).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH7 (W : Valuation τ sig (Elt Ideal)) (b : Ref sig .tc) (hb : b ∉ wr7) :
    StableHlo.after hostOps7 W (Proc.devRef .tc b) = W (Proc.devRef .tc b) :=
  StableHlo.after_of_writes_sub _ W hostOps7_wr hb

def wr8 : List (Ref sig .tc) := [main_cst_20, main_v111, main_v112, main_cst_21, main_v113, main_v114, main_v115, main_v116, main_v117, main_v118, main_v119, main_v120, main_v121, main_v122]
theorem hostOps8_wr : (hostOps8 (F := Ideal)).Forall fun op => op.writes ⊆ (wr8.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH8 (W : Valuation τ sig (Elt Ideal)) (b : Ref sig .tc) (hb : b ∉ wr8) :
    StableHlo.after hostOps8 W (Proc.devRef .tc b) = W (Proc.devRef .tc b) :=
  StableHlo.after_of_writes_sub _ W hostOps8_wr hb

variable (m : (ℓ : Loc nD τ sig) → Buf (Elt Ideal) ℓ) (ρ : Dev nD → PrngReg)

-- A segment leaves a buffer it does not write as it found it; a region also leaves its input arrays.
theorem s13 (c : Dev nD) (b : Ref sig .tc) (h : b ∉ wr6) :
    W13 m ρ c (Proc.devRef .tc b) = W12 m ρ c (Proc.devRef .tc b) :=
  carryH6 _ b h
theorem s14 (c : Dev nD) (b : Ref sig .tc) (h : ((∀ w, Pipeline.arrRef spec6 w ≠ b) ∨ b = main_v91)) :
    W14 m ρ c (Proc.devRef .tc b) = W13 m ρ c (Proc.devRef .tc b) := by
  rcases h with h | rfl
  · exact W14_of_ne m ρ c b h
  · exact (W14_arr m ρ c 0).trans (((dat6 (V13 m ρ) c).arrAt_in 0 rfl _).trans (A_eq6 (V13 m ρ) c 0))
theorem s15 (c : Dev nD) (b : Ref sig .tc) (h : b ∉ wr7) :
    W15 m ρ c (Proc.devRef .tc b) = W14 m ρ c (Proc.devRef .tc b) :=
  carryH7 _ b h
theorem s16 (c : Dev nD) (b : Ref sig .tc) (h : ((∀ w, Pipeline.arrRef spec7 w ≠ b) ∨ b = main_v14)) :
    W16 m ρ c (Proc.devRef .tc b) = W15 m ρ c (Proc.devRef .tc b) := by
  rcases h with h | rfl
  · exact W16_of_ne m ρ c b h
  · exact (W16_arr m ρ c 2).trans (((dat7 (V15 m ρ) c).arrAt_in 2 rfl _).trans (A_eq7 (V15 m ρ) c 2))
theorem s17 (c : Dev nD) (b : Ref sig .tc) (h : b ∉ wr8) :
    W17 m ρ c (Proc.devRef .tc b) = W16 m ρ c (Proc.devRef .tc b) :=
  carryH8 _ b h
theorem s18 (c : Dev nD) (b : Ref sig .tc) (h : (∀ w, Pipeline.arrRef spec8 w ≠ b)) :
    W18 m ρ c (Proc.devRef .tc b) = W17 m ρ c (Proc.devRef .tc b) :=
  W18_of_ne m ρ c b h

-- Steps compose: one condition per segment carries a buffer across the whole stretch.
abbrev P12_14 (b : Ref sig .tc) : Prop := b ∉ wr6 ∧ ((∀ w, Pipeline.arrRef spec6 w ≠ b) ∨ b = main_v91)
theorem c12_14 (c : Dev nD) (b : Ref sig .tc) (h : P12_14 b) : W14 m ρ c (Proc.devRef .tc b) = W12 m ρ c (Proc.devRef .tc b) :=
  (s14 m ρ c b h.2).trans (s13 m ρ c b h.1)
abbrev P12_15 (b : Ref sig .tc) : Prop := P12_14 b ∧ b ∉ wr7
theorem c12_15 (c : Dev nD) (b : Ref sig .tc) (h : P12_15 b) : W15 m ρ c (Proc.devRef .tc b) = W12 m ρ c (Proc.devRef .tc b) :=
  (s15 m ρ c b h.2).trans (c12_14 m ρ c b h.1)
abbrev P12_16 (b : Ref sig .tc) : Prop := P12_15 b ∧ ((∀ w, Pipeline.arrRef spec7 w ≠ b) ∨ b = main_v14)
theorem c12_16 (c : Dev nD) (b : Ref sig .tc) (h : P12_16 b) : W16 m ρ c (Proc.devRef .tc b) = W12 m ρ c (Proc.devRef .tc b) :=
  (s16 m ρ c b h.2).trans (c12_15 m ρ c b h.1)
abbrev P12_17 (b : Ref sig .tc) : Prop := P12_16 b ∧ b ∉ wr8
theorem c12_17 (c : Dev nD) (b : Ref sig .tc) (h : P12_17 b) : W17 m ρ c (Proc.devRef .tc b) = W12 m ρ c (Proc.devRef .tc b) :=
  (s17 m ρ c b h.2).trans (c12_16 m ρ c b h.1)
abbrev P12_18 (b : Ref sig .tc) : Prop := P12_17 b ∧ (∀ w, Pipeline.arrRef spec8 w ≠ b)
theorem c12_18 (c : Dev nD) (b : Ref sig .tc) (h : P12_18 b) : W18 m ρ c (Proc.devRef .tc b) = W12 m ρ c (Proc.devRef .tc b) :=
  (s18 m ρ c b h.2).trans (c12_17 m ρ c b h.1)

end Cert.KernelIdeal.KV

end
-- ==== Proof.KChainC3.lean ====
import proofs.«426946_j20469814133009_2_alg».proof.Proof.Gen.KernelIdeal.Frame
import Idealize.ShloMosaic.Lib.StableHlo.Run
import Idealize.ShloMosaic.PureOps.Ideal

set_option maxRecDepth 16384

noncomputable section

namespace Cert.KernelIdeal.KV

open Idealize.ShloMosaic Idealize.ShloMosaic.TcCoe Cert.KernelIdeal Cert.KernelIdeal.Gen

def wr10 : List (Ref sig .tc) := [main_c_22, main_v125, main_v126, main_c_23, main_v127, main_v128, main_v129, main_v130, main_v131, main_v132, main_v133, main_cst_24, main_v134, main_v135, main_v136, main_v137]
theorem hostOps10_wr : (hostOps10 (F := Ideal)).Forall fun op => op.writes ⊆ (wr10.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem carryH10 (W : Valuation τ sig (Elt Ideal)) (b : Ref sig .tc) (hb : b ∉ wr10) :
    StableHlo.after hostOps10 W (Proc.devRef .tc b) = W (Proc.devRef .tc b) :=
  StableHlo.after_of_writes_sub _ W hostOps10_wr hb

variable (m : (ℓ : Loc nD τ sig) → Buf (Elt Ideal) ℓ) (ρ : Dev nD → PrngReg)

-- A segment leaves a buffer it does not write as it found it; a region also leaves its input arrays.
theorem s19 (c : Dev nD) (b : Ref sig .tc) (h : (∀ w, Pipeline.arrRef spec9 w ≠ b)) :
    W19 m ρ c (Proc.devRef .tc b) = W18 m ρ c (Proc.devRef .tc b) :=
  W19_of_ne m ρ c b h
theorem s20 (c : Dev nD) (b : Ref sig .tc) (h : b ∉ wr10) :
    W20 m ρ c (Proc.devRef .tc b) = W19 m ρ c (Proc.devRef .tc b) :=
  carryH10 _ b h
theorem s21 (c : Dev nD) (b : Ref sig .tc) (h : (∀ w, Pipeline.arrRef spec10 w ≠ b)) :
    W21 m ρ c (Proc.devRef .tc b) = W20 m ρ c (Proc.devRef .tc b) :=
  W21_of_ne m ρ c b h

-- Steps compose: one condition per segment carries a buffer across the whole stretch.
abbrev P18_20 (b : Ref sig .tc) : Prop := (∀ w, Pipeline.arrRef spec9 w ≠ b) ∧ b ∉ wr10
theorem c18_20 (c : Dev nD) (b : Ref sig .tc) (h : P18_20 b) : W20 m ρ c (Proc.devRef .tc b) = W18 m ρ c (Proc.devRef .tc b) :=
  (s20 m ρ c b h.2).trans (s19 m ρ c b h.1)
abbrev P18_21 (b : Ref sig .tc) : Prop := P18_20 b ∧ (∀ w, Pipeline.arrRef spec10 w ≠ b)
theorem c18_21 (c : Dev nD) (b : Ref sig .tc) (h : P18_21 b) : W21 m ρ c (Proc.devRef .tc b) = W18 m ρ c (Proc.devRef .tc b) :=
  (s21 m ρ c b h.2).trans (c18_20 m ρ c b h.1)

end Cert.KernelIdeal.KV

end
-- ==== Proof.KBnLinLib.lean ====
import proofs.«426946_j20469814133009_2_alg».proof.Proof.Gen.KernelIdeal.Skeleton
import proofs.«426946_j20469814133009_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV.BL

open Cert.KernelIdeal Cert.KernelIdeal.Gen Idealize.ShloMosaic Idealize.ShloMosaic.TcCoe Idealize.ShloMosaic.ValueIdx Cert.Spec

abbrev Ix (R C : ℕ) : Type := (⟨2, ![R, C]⟩ : Shape).Idx

abbrev Mov {N : ℕ} (ix : Fin N → Fin 2 → ℕ) : Prop := ∀ t, ix t 0 = t.val ∧ ix t 1 = 0

abbrev Fix {N : ℕ} (ix : Fin N → Fin 2 → ℕ) : Prop := ∀ t, ix t 0 = 0 ∧ ix t 1 = 0

abbrev Emb {R C R' C' : ℕ} (e : Ix R C → Ix R' C') (b : Fin 2 → ℕ) : Prop :=
  ∀ y a, (e y a : ℕ) = b a * (![R, C] : Fin 2 → ℕ) a + y a

theorem zeros : (![0, 0] : Fin 2 → Nat) = fun _ => 0 := funext fun a => by fin_cases a <;> rfl

def row {N : ℕ} (hN : N = 20) (t : Fin N) (p : Fin 5000) : Fin 100000 :=
  ⟨5000 * t.val + p.val, by have := t.isLt; omega⟩

-- block number (t, 0) with blocks of 5000 rows: the block's row p is the array's row 5000 t + p
theorem mov_emb {N C : ℕ} {ix : Fin N → Fin 2 → ℕ} (h : Mov ix) (hN : N = 20) (t : Fin N) {e : Ix 5000 C → Ix 100000 C}
    (he : Emb e (ix t)) (y : Ix 5000 C) : e y = ix2 (row hN t (y 0)) (y 1) :=
  Shape.idx_ext₂ (by rw [he, (h t).1]; show t.val * 5000 + _ = 5000 * t.val + _; omega)
    (by rw [he, (h t).2]; show 0 * C + (y 1).val = (y 1).val; omega)

theorem fix_emb {N R C : ℕ} {ix : Fin N → Fin 2 → ℕ} (h : Fix ix) (t : Fin N) {e : Ix R C → Ix R C} (he : Emb e (ix t))
    (y : Ix R C) : e y = y :=
  Shape.idx_ext₂ (by rw [he, (h t).1]; show 0 * R + _ = _; omega) (by rw [he, (h t).2]; show 0 * C + _ = _; omega)

-- row n of the array lies in block n / 5000
theorem cover_pt {N C : ℕ} (hN : N = 20) {ix : Fin N → Fin 2 → ℕ} (h : Mov ix) (i : Ix 100000 C) :
    ∃ t : Fin N, ∀ a : Fin 2, ix t a * (![5000, C] : Fin 2 → ℕ) a ≤ i a
      ∧ (i a : ℕ) < ix t a * (![5000, C] : Fin 2 → ℕ) a + (![5000, C] : Fin 2 → ℕ) a := by
  have h0 : (i 0).val < 100000 := (i 0).isLt
  have h1 : (i 1).val < C := (i 1).isLt
  refine ⟨⟨(i 0).val / 5000, by show _ / 5000 < N; omega⟩, fun a => ?_⟩
  match a with
  | ⟨0, _⟩ => show ix _ 0 * 5000 ≤ (i 0).val ∧ (i 0).val < ix _ 0 * 5000 + 5000; rw [(h _).1]; show (i 0).val / 5000 * 5000 ≤ _ ∧ _ < (i 0).val / 5000 * 5000 + 5000; omega
  | ⟨1, _⟩ => show ix _ 1 * C ≤ (i 1).val ∧ (i 1).val < ix _ 1 * C + C; rw [(h _).2]; show _ ≤ _ ∧ (i 1).val < 0 * C + C; omega

theorem mem_slice_unit {sig : RefSig} {κ : Kind} (b : Ref sig κ) {off size : Fin b.ty.shape.rank → ℕ} (inb) (i : b.ty.shape.Idx) :
    i ∈ ((View.whole b).slice (Rect.unit off size inb)).set ↔ ∀ a, off a ≤ (i a : ℕ) ∧ (i a : ℕ) < off a + size a := by
  rw [View.set_slice_whole, Rect.mem_set_unit]

theorem bn_pay (x0 x5 : Vec Ideal S5000x64 .f32) (x1 x2 x3 x4 : Vec Ideal S1x64 .f32) (p : Fin 5000) (q : Fin 64) :
    k2_pay1 (F := Ideal) x0 x1 x2 x3 x4 x5 (ix2 p q)
      = ((((x0 (ix2 p q) - x1 (ix2 (0 : Fin 1) q)) * Ideal.rsqrt (x2 (ix2 (0 : Fin 1) q) + Ideal.ofBits .f32 0x3727C5AC#32))
            * x3 (ix2 (0 : Fin 1) q)) + x4 (ix2 (0 : Fin 1) q)) + x5 (ix2 p q) := by
  unfold k2_pay1
  simp only [shapeCast_self]
  rw [addf_apply, addf_apply, mulf_apply, mulf_apply, subf_apply]
  rw [broadcastTo_1b_ab_apply, broadcastTo_1b_ab_apply, broadcastTo_1b_ab_apply, broadcastTo_1b_ab_apply]
  rfl

abbrev bnArr (A0 : FVec Ideal S100000x64 .f32) (A1 A2 A3 A4 : FVec Ideal S1x64 .f32) (A5 : FVec Ideal S100000x64 .f32) :
    FVec Ideal S100000x64 .f32 :=
  toMat (bnKern (ofMat A0) (ofMat A1) (ofMat A2) (ofMat A3) (ofMat A4) (ofMat A5))

-- the normalise block over blocks read from whole tables is the block of the normalise step of the tables
theorem bn_blk {N : ℕ} (hN : N = 20) {i0 i1 i2 i3 i4 i5 i6 : Fin N → Fin 2 → ℕ}
    (hb : Mov i0 ∧ Fix i1 ∧ Fix i2 ∧ Fix i3 ∧ Fix i4 ∧ Mov i5 ∧ Mov i6) (t : Fin N)
    (A0 : FVec Ideal S100000x64 .f32) (A1 A2 A3 A4 : FVec Ideal S1x64 .f32) (A5 : FVec Ideal S100000x64 .f32)
    {e0 e5 e6 : Ix 5000 64 → Ix 100000 64} {e1 e2 e3 e4 : Ix 1 64 → Ix 1 64}
    (h0 : Emb e0 (i0 t)) (h1 : Emb e1 (i1 t)) (h2 : Emb e2 (i2 t)) (h3 : Emb e3 (i3 t)) (h4 : Emb e4 (i4 t))
    (h5 : Emb e5 (i5 t)) (h6 : Emb e6 (i6 t))
    {x0 x5 : Vec Ideal S5000x64 .f32} {x1 x2 x3 x4 : Vec Ideal S1x64 .f32}
    (g0 : ∀ y, x0 y = A0 (e0 y)) (g1 : ∀ y, x1 y = A1 (e1 y)) (g2 : ∀ y, x2 y = A2 (e2 y)) (g3 : ∀ y, x3 y = A3 (e3 y))
    (g4 : ∀ y, x4 y = A4 (e4 y)) (g5 : ∀ y, x5 y = A5 (e5 y)) (j : Ix 5000 64) :
    k2_pay1 (F := Ideal) x0 x1 x2 x3 x4 x5 j
      = bnArr A0 A1 A2 A3 A4 A5 (e6 j) := by
  obtain ⟨m0, f1, f2, f3, f4, m5, m6⟩ := hb
  obtain ⟨p, q, rfl⟩ : ∃ (p : Fin 5000) (q : Fin 64), j = ix2 p q := ⟨j 0, j 1, eq_ix2 j⟩
  rw [bn_pay, g0, g1, g2, g3, g4, g5, mov_emb m0 hN t h0, mov_emb m5 hN t h5, mov_emb m6 hN t h6, fix_emb f1 t h1,
    fix_emb f2 t h2, fix_emb f3 t h3, fix_emb f4 t h4]
  rfl

-- a product into a zero accumulator, one contracted axis: entry (p, q) is the sum over k of x0 (p, k) * x1 (k, q)
theorem mm_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (h1 : ∀ j k, (d.lhsIdx j k 0 : ℕ) = j 0) (h2 : ∀ j k, (d.lhsIdx j k 1 : ℕ) = k ⟨0, by omega⟩)
    (h3 : ∀ j k, (d.rhsIdx j k 0 : ℕ) = k ⟨0, by omega⟩) (h4 : ∀ j k, (d.rhsIdx j k 1 : ℕ) = j 1)
    (x0 : FVec Ideal ⟨2, ![M, K]⟩ φ₁) (x1 : FVec Ideal ⟨2, ![K, N]⟩ φ₂) (j : Ix M N) :
    FloatOps.matmul d none x0 x1 (constant _ .f32 0x00000000#32) j = ∑ k : Fin K, x0 (ix2 (j 0) k) * x1 (ix2 k (j 1)) := by
  rw [Ideal.matmul_constant_zero_apply, ← Equiv.sum_comp (contrEquiv1 d K hr hs).symm]
  refine Finset.sum_congr rfl fun k _ => ?_
  have hk := contrEquiv1_symm_val d K hr hs k
  exact congrArg₂ (· * ·) (congrArg x0 (Shape.idx_ext₂ (h1 _ _) ((h2 _ _).trans hk)))
    (congrArg x1 (Shape.idx_ext₂ ((h3 _ _).trans hk) (h4 _ _)))

theorem pay0_at (x0 : Vec Ideal S5000x128 .f32) (x1 : Vec Ideal S128x64 .f32) (j : S5000x64.Idx) :
    k0_pay1 (F := Ideal) x0 x1 j = ∑ k : Fin 128, x0 (ix2 (j 0) k) * x1 (ix2 k (j 1)) := by
  unfold k0_pay1
  exact mm_apply dot_S5000x128_S128x64_S5000x64_1_0_0_1_n_n rfl rfl
    (fun j k => by simp [DotDims.lhsIdx, dot_S5000x128_S128x64_S5000x64_1_0_0_1_n_n]; rfl)
    (DotDims.lhsIdx_val_of_single _ (cl := 1) rfl) (DotDims.rhsIdx_val_of_single _ (cr := 0) rfl)
    (fun j k => by simp [DotDims.rhsIdx, dot_S5000x128_S128x64_S5000x64_1_0_0_1_n_n]; rfl) _ _ j

theorem pay3_at (x0 : Vec Ideal S5000x64 .f32) (x1 : Vec Ideal S64x64 .f32) (j : S5000x64.Idx) :
    k3_pay1 (F := Ideal) x0 x1 j = ∑ k : Fin 64, x0 (ix2 (j 0) k) * x1 (ix2 k (j 1)) := by
  unfold k3_pay1
  simp only [shapeCast_self]
  exact mm_apply dot_S5000x64_S64x64_S5000x64_1_0_0_1_n_n rfl rfl
    (fun j k => by simp [DotDims.lhsIdx, dot_S5000x64_S64x64_S5000x64_1_0_0_1_n_n]; rfl)
    (DotDims.lhsIdx_val_of_single _ (cl := 1) rfl) (DotDims.rhsIdx_val_of_single _ (cr := 0) rfl)
    (fun j k => by simp [DotDims.rhsIdx, dot_S5000x64_S64x64_S5000x64_1_0_0_1_n_n]; rfl) _ _ j

theorem pay9_at (x0 : Vec Ideal S5000x64 .f32) (x1 : Vec Ideal S64x2 .f32) (j : S5000x2.Idx) :
    k9_pay1 (F := Ideal) x0 x1 j = ∑ k : Fin 64, x0 (ix2 (j 0) k) * x1 (ix2 k (j 1)) := by
  unfold k9_pay1
  simp only [shapeCast_self]
  exact mm_apply dot_S5000x64_S64x2_S5000x2_1_0_0_1_n_n rfl rfl
    (fun j k => by simp [DotDims.lhsIdx, dot_S5000x64_S64x2_S5000x2_1_0_0_1_n_n]; rfl)
    (DotDims.lhsIdx_val_of_single _ (cl := 1) rfl) (DotDims.rhsIdx_val_of_single _ (cr := 0) rfl)
    (fun j k => by simp [DotDims.rhsIdx, dot_S5000x64_S64x2_S5000x2_1_0_0_1_n_n]; rfl) _ _ j

-- the block product over blocks read from the whole arrays is the block of the whole product
theorem lin_blk {N K C : ℕ} (hN : N = 20) {i0 i1 i2 : Fin N → Fin 2 → ℕ} (hb : Mov i0 ∧ Fix i1 ∧ Mov i2) (t : Fin N)
    (A0 : FVec Ideal ⟨2, ![100000, K]⟩ .f32) (A1 : FVec Ideal ⟨2, ![K, C]⟩ .f32)
    {e0 : Ix 5000 K → Ix 100000 K} {e1 : Ix K C → Ix K C} {e2 : Ix 5000 C → Ix 100000 C}
    (h0 : Emb e0 (i0 t)) (h1 : Emb e1 (i1 t)) (h2 : Emb e2 (i2 t)) {x0 : Ix 5000 K → EReal} {x1 : Ix K C → EReal}
    (g0 : ∀ y, x0 y = A0 (e0 y)) (g1 : ∀ y, x1 y = A1 (e1 y)) (j : Ix 5000 C) :
    ∑ k : Fin K, x0 (ix2 (j 0) k) * x1 (ix2 k (j 1)) = toMat (lin (ofMat A0) (ofMat A1)) (e2 j) := by
  rw [mov_emb hb.2.2 hN t h2]
  refine Finset.sum_congr rfl fun k _ => ?_
  rw [g0, g1, mov_emb hb.1 hN t h0, fix_emb hb.2.1 t h1]
  rfl

end Cert.KernelIdeal.KV.BL

end
-- ==== Proof.KLin0.lean ====
import proofs.«426946_j20469814133009_2_alg».proof.Proof.Gen.KernelIdeal.Frame
import proofs.«426946_j20469814133009_2_alg».proof.Proof.KBnLinLib

noncomputable section

namespace Cert.KernelIdeal.KV

open Cert.KernelIdeal Cert.KernelIdeal.Gen Idealize.ShloMosaic Idealize.ShloMosaic.TcCoe

variable (V : (c : Dev nD) → (b : Ref sig .tc) → Buf (Elt Ideal) ((c : Thread nD τ).loc b))

theorem lin0_ix : BL.Mov win0_0.index ∧ BL.Fix win0_1.index ∧ BL.Mov win0_2.index := by decide +kernel

theorem lin0_out (c : Dev nD) (t : Fin cfg0.N) :
    (dat0 (F := Ideal) V c).flushed 2 t = k0_pay1 (iblk0 V c 0 t) (iblk0 V c 1 t) := by
  show (cfg0.win 2).cut (grid0.coords t) ((dat0 (F := Ideal) V c).after 2 t) = _
  rw [after0_2]
  unfold out0_2
  rw [View.canon_unit_zero BL.zeros]
  simp only [View.ld_unit_zero (S := S5000x128) BL.zeros, View.ld_unit_zero (S := S128x64) BL.zeros]
  rfl

-- block t of the output is block t of the whole matrix product, and the 20 blocks cover the rows
theorem arr0_2 (c : Dev nD) :
    (dat0 (F := Ideal) V c).arrAt 2 cfg0.N
      = Cert.Spec.toMat (Cert.Spec.lin (Cert.Spec.ofMat (V c (Pipeline.arrRef spec0 0))) (Cert.Spec.ofMat (V c (Pipeline.arrRef spec0 1)))) :=
  (dat0 (F := Ideal) V c).arrAt_eq_of_cover 2 _
    (fun t _ => (lin0_out V c t).trans (funext fun j => (BL.pay0_at _ _ j).trans (BL.lin_blk N_0 lin0_ix t _ _
      (win0_0.rect_emb_val t) (win0_1.rect_emb_val t) (win0_2.rect_emb_val t) (fun _ => rfl) (fun _ => rfl) j)))
    fun i => (BL.cover_pt N_0 lin0_ix.2.2 i).imp fun t h =>
      ⟨flush0_2 t, (BL.mem_slice_unit (Pipeline.arrRef spec0 2) _ i).2 h⟩

end Cert.KernelIdeal.KV

end
-- ==== Proof.KCombLib.lean ====
import proofs.«426946_j20469814133009_2_alg».proof.Proof.KBnLinLib

noncomputable section

open scoped BigOperators
open Idealize.ShloMosaic Idealize.ShloMosaic.ValueIdx

namespace Cert.KernelIdeal.KV.CombLib

open Cert.KernelIdeal Cert.KernelIdeal.Gen BL
open Cert.Spec (Tab ofMat toMat reluT combPre sumRow sqSumRow)

-- Broadcasting a column across the columns repeats its entry.
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

abbrev rowAt {N : ℕ} (hN : N = 20) (t : Fin N) (p : Fin 5000) : Fin 100000 := row hN t p

section Pay
variable (x0 x1 : Vec Ideal S5000x64 .f32) (x2 : Vec Ideal S5000x1 .f32) (x3 v : Vec Ideal S1x64 .f32)
  (p : Fin 5000) (u : Fin 1) (q : Fin 64)

theorem pay3_apply :
    k1_pay3 (F := Ideal) x0 x1 x2 x3 (ix2 p q)
      = max ((x0 (ix2 p q) + x1 (ix2 p q) * x2 (ix2 p (0 : Fin 1))) + x3 (ix2 (0 : Fin 1) q))
          (Ideal.ofBits .f32 0x00000000#32) := by
  unfold k1_pay3
  simp only [shapeCast_self]
  show max ((x0 (ix2 p q) + x1 (ix2 p q) * broadcastTo S5000x64 x2 broadcasts_S5000x1_S5000x64 (ix2 p q))
      + broadcastTo S5000x64 x3 broadcasts_S1x64_S5000x64 (ix2 p q)) (Ideal.ofBits .f32 0x00000000#32) = _
  rw [bcast_col_apply x2 broadcasts_S5000x1_S5000x64 p q, broadcastTo_1b_ab_apply x3 broadcasts_S1x64_S5000x64 p q]

-- A sum along the rows, read at column q, is the sum of the column's entries.
theorem colsum_apply (f : FVec Ideal S5000x64 .f32) :
    (shapeCast S1x64 (multiReduction (F := Ideal) .add [0] S64 f 0x00000000#32 reduces_S5000x64_S64 (.inl rfl) rfl)
      shapeCasts_S64_S1x64 : FVec Ideal S1x64 .f32) (ix2 u q) = ∑ p : Fin 5000, f (ix2 p q) := by
  refine (shapeCast_a_1a_apply _ shapeCasts_S64_S1x64 u q).trans ?_
  refine (Ideal.multiReduction_add_single f 0x00000000#32 reduces_S5000x64_S64 (.inl rfl) rfl (ix1 q)).trans ?_
  refine Finset.sum_congr rfl fun p _ => congrArg _ (funext fun a => Fin.ext ?_)
  match a with
  | ⟨0, _⟩ => rfl
  | ⟨1, _⟩ => rfl

theorem pay4_apply :
    k1_pay4 (F := Ideal) x0 x1 x2 x3 v (ix2 u q)
      = v (ix2 u q) + ∑ p : Fin 5000, k1_pay3 (F := Ideal) x0 x1 x2 x3 (ix2 p q) := by
  unfold k1_pay4
  simp only [shapeCast_self]
  exact congrArg (v (ix2 u q) + ·) (colsum_apply u q _)

theorem pay5_apply :
    k1_pay5 (F := Ideal) x0 x1 x2 x3 v (ix2 u q)
      = v (ix2 u q) + ∑ p : Fin 5000, k1_pay3 (F := Ideal) x0 x1 x2 x3 (ix2 p q) * k1_pay3 (F := Ideal) x0 x1 x2 x3 (ix2 p q) := by
  unfold k1_pay5
  simp only [shapeCast_self]
  exact congrArg (v (ix2 u q) + ·) (colsum_apply u q _)

end Pay

-- 100000 = 20 · 5000: a node is a quotient and a remainder.
theorem sum_rows (f : Fin 100000 → EReal) :
    ∑ n : Fin 100000, f n = ∑ t : Fin 20, ∑ p : Fin 5000, f (row rfl t p) := by
  rw [← Fintype.sum_prod_type']
  refine (Fintype.sum_equiv (finProdFinEquiv (m := 20) (n := 5000)) _ _ fun x => ?_).symm
  exact congrArg f (Fin.ext (by show 5000 * x.1.val + x.2.val = x.2.val + 5000 * x.1.val; omega))

-- A value that starts at b 0 and gains b n at point n is, after point n, the sum of b over 0 … n.
theorem fold_range {N : ℕ} (b : ℕ → EReal) (r : (n : ℕ) → n < N → EReal)
    (h0 : ∀ h, r 0 h = 0 + b 0) (hs : ∀ n h, r (n + 1) h = r n (Nat.lt_of_succ_lt h) + b (n + 1)) :
    ∀ n h, r n h = ∑ t ∈ Finset.range (n + 1), b t
  | 0, h => by rw [h0, zero_add, Finset.sum_range_one]
  | n + 1, h => by rw [hs, fold_range b r h0 hs n, Finset.sum_range_succ _ (n + 1)]

-- With b the block sums of f, that is the sum of f over all nodes.
theorem fold_total {N : ℕ} (hN : N = 20) (f : Fin 100000 → EReal) (r : (n : ℕ) → n < N → EReal)
    (h0 : ∀ h, r 0 h = 0 + ∑ p : Fin 5000, f (row hN ⟨0, h⟩ p))
    (hs : ∀ n h, r (n + 1) h = r n (Nat.lt_of_succ_lt h) + ∑ p : Fin 5000, f (row hN ⟨n + 1, h⟩ p))
    (h : 19 < N) : r 19 h = ∑ n : Fin 100000, f n := by
  subst hN
  rw [fold_range (fun t => if ht : t < 20 then ∑ p : Fin 5000, f (row rfl ⟨t, ht⟩ p) else 0) r
    (fun h => (h0 h).trans (congrArg (0 + ·) (by rw [dif_pos h])))
    (fun n h => (hs n h).trans (congrArg (r n _ + ·) (by rw [dif_pos h]))) 19 h, sum_rows, Finset.sum_range]
  exact Finset.sum_congr rfl fun t _ => dif_pos t.isLt

theorem lt19 {N : ℕ} (h : N = 20) : 19 < N := h ▸ by decide

theorem eq19 {N : ℕ} (h : N = 20) (t : Fin N) (ht : t.val % 20 = 19) : t.val = 19 := by have := t.isLt; omega

theorem cover_fix {N R C : ℕ} {ix : Fin N → Fin 2 → ℕ} (h : Fix ix) (t : Fin N) (i : Ix R C) :
    ∀ a : Fin 2, ix t a * (![R, C] : Fin 2 → ℕ) a ≤ i a ∧ (i a : ℕ) < ix t a * (![R, C] : Fin 2 → ℕ) a + (![R, C] : Fin 2 → ℕ) a
  | ⟨0, _⟩ => by show ix t 0 * R ≤ (i 0).val ∧ (i 0).val < ix t 0 * R + R; rw [(h t).1]; have : (i 0).val < R := (i 0).isLt; omega
  | ⟨1, _⟩ => by show ix t 1 * C ≤ (i 1).val ∧ (i 1).val < ix t 1 * C + C; rw [(h t).2]; have : (i 1).val < C := (i 1).isLt; omega

-- block contents that are rows 5000 t … of a table are what the block's view reads of the table
theorem read_mov {N C : ℕ} {ix : Fin N → Fin 2 → ℕ} (h : Mov ix) (hN : N = 20) (t : Fin N) {e : Ix 5000 C → Ix 100000 C}
    (he : Emb e (ix t)) {rd : (Ix 100000 C → EReal) → Ix 5000 C → EReal} (hrd : ∀ f y, rd f y = f (e y))
    {X : Ix 5000 C → EReal} {G : Tab 100000 C} (hX : ∀ p q, X (ix2 p q) = G (row hN t p) q) : X = rd (toMat G) :=
  funext fun y => (((congrArg X (eq_ix2 y)).trans (hX _ _)).trans
    (congrArg (toMat G) (mov_emb h hN t he y)).symm).trans (hrd _ y).symm

theorem read_fix {N R C : ℕ} {ix : Fin N → Fin 2 → ℕ} (h : Fix ix) (t : Fin N) {e : Ix R C → Ix R C} (he : Emb e (ix t))
    {rd : (Ix R C → EReal) → Ix R C → EReal} (hrd : ∀ f y, rd f y = f (e y)) {X : Ix R C → EReal} {G : Tab R C}
    (hX : ∀ p q, X (ix2 p q) = G p q) : X = rd (toMat G) :=
  funext fun y => (((congrArg X (eq_ix2 y)).trans (hX _ _)).trans
    (congrArg (toMat G) (fix_emb h t he y)).symm).trans (hrd _ y).symm

-- aggregate + layer output × the node's factor + bias, over blocks read from the whole arrays
theorem pre_apply {N C : ℕ} (hN : N = 20) {i0 i1 i2 i3 : Fin N → Fin 2 → ℕ} {P : Prop}
    (hb : Mov i0 ∧ Mov i1 ∧ Mov i2 ∧ Fix i3 ∧ P) (t : Fin N) (A H : FVec Ideal ⟨2, ![100000, C]⟩ .f32)
    (S : FVec Ideal ⟨2, ![100000, 1]⟩ .f32) (B : FVec Ideal ⟨2, ![1, C]⟩ .f32)
    {e0 e1 : Ix 5000 C → Ix 100000 C} {e2 : Ix 5000 1 → Ix 100000 1} {e3 : Ix 1 C → Ix 1 C}
    (h0 : Emb e0 (i0 t)) (h1 : Emb e1 (i1 t)) (h2 : Emb e2 (i2 t)) (h3 : Emb e3 (i3 t))
    {bA bH : Ix 5000 C → EReal} {bS : Ix 5000 1 → EReal} {bB : Ix 1 C → EReal}
    (gA : ∀ y, bA y = A (e0 y)) (gH : ∀ y, bH y = H (e1 y)) (gS : ∀ y, bS y = S (e2 y)) (gB : ∀ y, bB y = B (e3 y))
    (p : Fin 5000) (q : Fin C) :
    (bA (ix2 p q) + bH (ix2 p q) * bS (ix2 p (0 : Fin 1))) + bB (ix2 (0 : Fin 1) q)
      = combPre (ofMat A) (ofMat H) (ofMat S) (ofMat B) (row hN t p) q := by
  rw [gA, gH, gS, gB, mov_emb hb.1 hN t h0, mov_emb hb.2.1 hN t h1, mov_emb hb.2.2.1 hN t h2, fix_emb hb.2.2.2.1 t h3]
  rfl

/-- What one point leaves: the combined block and the two rows, from its four blocks and the rows before it. -/
def step (x0 x1 : Vec Ideal S5000x64 .f32) (x2 : Vec Ideal S5000x1 .f32) (x3 r s : Vec Ideal S1x64 .f32) :
    Vec Ideal S5000x64 .f32 × Vec Ideal S1x64 .f32 × Vec Ideal S1x64 .f32 :=
  (k1_pay3 x0 x1 x2 x3, k1_pay4 x0 x1 x2 x3 r, k1_pay5 x0 x1 x2 x3 s)

/-- A combine run: four arrays, their blocks at each of N points, and what each point leaves, the rows starting from zero. -/
structure Run (N : ℕ) where
  hN : N = 20
  A : FVec Ideal ⟨2, ![100000, 64]⟩ .f32
  H : FVec Ideal ⟨2, ![100000, 64]⟩ .f32
  S : FVec Ideal ⟨2, ![100000, 1]⟩ .f32
  B : FVec Ideal ⟨2, ![1, 64]⟩ .f32
  bA : Fin N → Vec Ideal S5000x64 .f32
  bH : Fin N → Vec Ideal S5000x64 .f32
  bS : Fin N → Vec Ideal S5000x1 .f32
  bB : Fin N → Vec Ideal S1x64 .f32
  hA : ∀ (t : Fin N) (p : Fin 5000) (q : Fin 64), bA t (ix2 p q) = A (ix2 (row hN t p) q)
  hH : ∀ (t : Fin N) (p : Fin 5000) (q : Fin 64), bH t (ix2 p q) = H (ix2 (row hN t p) q)
  hS : ∀ (t : Fin N) (p : Fin 5000) (u : Fin 1), bS t (ix2 p u) = S (ix2 (row hN t p) u)
  hB : ∀ (t : Fin N) (u : Fin 1) (q : Fin 64), bB t (ix2 u q) = B (ix2 u q)
  o : (n : ℕ) → n < N → Vec Ideal S5000x64 .f32 × Vec Ideal S1x64 .f32 × Vec Ideal S1x64 .f32
  o0 : ∀ h, o 0 h = step (bA ⟨0, h⟩) (bH ⟨0, h⟩) (bS ⟨0, h⟩) (bB ⟨0, h⟩) (k1_pay1 (F := Ideal)) (k1_pay2 (F := Ideal))
  oS : ∀ n h, o (n + 1) h = step (bA ⟨n + 1, h⟩) (bH ⟨n + 1, h⟩) (bS ⟨n + 1, h⟩) (bB ⟨n + 1, h⟩)
    (o n (Nat.lt_of_succ_lt h)).2.1 (o n (Nat.lt_of_succ_lt h)).2.2

/-- A run whose blocks are rows 5000 t … of three node tables, and the one bias row. -/
def Run.ofWin {N : ℕ} (hN : N = 20) {i0 i1 i2 i3 : Fin N → Fin 2 → ℕ} {P : Prop} (hb : Mov i0 ∧ Mov i1 ∧ Mov i2 ∧ Fix i3 ∧ P)
    (A H : FVec Ideal ⟨2, ![100000, 64]⟩ .f32) (S : FVec Ideal ⟨2, ![100000, 1]⟩ .f32) (B : FVec Ideal ⟨2, ![1, 64]⟩ .f32)
    {e0 e1 : Fin N → Ix 5000 64 → Ix 100000 64} {e2 : Fin N → Ix 5000 1 → Ix 100000 1} {e3 : Fin N → Ix 1 64 → Ix 1 64}
    (h0 : ∀ t, Emb (e0 t) (i0 t)) (h1 : ∀ t, Emb (e1 t) (i1 t)) (h2 : ∀ t, Emb (e2 t) (i2 t)) (h3 : ∀ t, Emb (e3 t) (i3 t))
    {bA bH : Fin N → Vec Ideal S5000x64 .f32} {bS : Fin N → Vec Ideal S5000x1 .f32} {bB : Fin N → Vec Ideal S1x64 .f32}
    (gA : ∀ t y, bA t y = A (e0 t y)) (gH : ∀ t y, bH t y = H (e1 t y)) (gS : ∀ t y, bS t y = S (e2 t y))
    (gB : ∀ t y, bB t y = B (e3 t y))
    (o : (n : ℕ) → n < N → Vec Ideal S5000x64 .f32 × Vec Ideal S1x64 .f32 × Vec Ideal S1x64 .f32)
    (o0 : ∀ h, o 0 h = step (bA ⟨0, h⟩) (bH ⟨0, h⟩) (bS ⟨0, h⟩) (bB ⟨0, h⟩) (k1_pay1 (F := Ideal)) (k1_pay2 (F := Ideal)))
    (oS : ∀ n h, o (n + 1) h = step (bA ⟨n + 1, h⟩) (bH ⟨n + 1, h⟩) (bS ⟨n + 1, h⟩) (bB ⟨n + 1, h⟩)
      (o n (Nat.lt_of_succ_lt h)).2.1 (o n (Nat.lt_of_succ_lt h)).2.2) : Run N :=
  ⟨hN, A, H, S, B, bA, bH, bS, bB, fun t _ _ => (gA t _).trans (congrArg A (mov_emb hb.1 hN t (h0 t) _)),
    fun t _ _ => (gH t _).trans (congrArg H (mov_emb hb.2.1 hN t (h1 t) _)),
    fun t _ _ => (gS t _).trans (congrArg S (mov_emb hb.2.2.1 hN t (h2 t) _)),
    fun t _ _ => (gB t _).trans (congrArg B (fix_emb hb.2.2.2.1 t (h3 t) _)), o, o0, oS⟩

namespace Run
variable {N : ℕ} (R : Run N)

/-- relu (A + H · s + b). -/
abbrev tab : Tab 100000 64 := reluT (combPre (ofMat R.A) (ofMat R.H) (ofMat R.S) (ofMat R.B))

abbrev blk (t : Fin N) : Vec Ideal S5000x64 .f32 := k1_pay3 (R.bA t) (R.bH t) (R.bS t) (R.bB t)

theorem blk_apply (t : Fin N) (p : Fin 5000) (q : Fin 64) : R.blk t (ix2 p q) = R.tab (row R.hN t p) q := by
  refine (pay3_apply _ _ _ _ p q).trans ?_
  rw [R.hA, R.hH, R.hS t p 0, R.hB t 0 q]
  rfl

theorem o_fst : ∀ t : Fin N, (R.o t.val t.isLt).1 = R.blk t
  | ⟨0, h⟩ => congrArg Prod.fst (R.o0 h)
  | ⟨n + 1, h⟩ => congrArg Prod.fst (R.oS n h)

-- Point t leaves rows 5000 t … 5000 t + 4999 of the table.
theorem tab_apply (t : Fin N) (p : Fin 5000) (q : Fin 64) : (R.o t.val t.isLt).1 (ix2 p q) = R.tab (row R.hN t p) q := by
  rw [R.o_fst t]; exact R.blk_apply t p q

-- The last point leaves the table's column sums in the first row,
theorem sum_apply (t : Fin N) (ht : t.val = 19) (u : Fin 1) (q : Fin 64) :
    (R.o t.val t.isLt).2.1 (ix2 u q) = sumRow R.tab u q := by
  obtain ⟨n, h⟩ := t
  obtain rfl : n = 19 := ht
  exact fold_total R.hN (fun n => R.tab n q) (fun n h => (R.o n h).2.1 (ix2 u q))
    (fun h => by
      rw [R.o0 h]
      refine (pay4_apply _ _ _ _ _ u q).trans ?_
      exact congrArg₂ (· + ·) Ideal.ofBits_zero_f32 (Finset.sum_congr rfl fun p _ => R.blk_apply ⟨0, h⟩ p q))
    (fun n h => by
      rw [R.oS n h]
      refine (pay4_apply _ _ _ _ _ u q).trans ?_
      exact congrArg (_ + ·) (Finset.sum_congr rfl fun p _ => R.blk_apply ⟨n + 1, h⟩ p q)) h

-- and those of its squares in the second.
theorem sq_apply (t : Fin N) (ht : t.val = 19) (u : Fin 1) (q : Fin 64) :
    (R.o t.val t.isLt).2.2 (ix2 u q) = sqSumRow R.tab u q := by
  obtain ⟨n, h⟩ := t
  obtain rfl : n = 19 := ht
  exact fold_total R.hN (fun n => R.tab n q * R.tab n q) (fun n h => (R.o n h).2.2 (ix2 u q))
    (fun h => by
      rw [R.o0 h]
      refine (pay5_apply _ _ _ _ _ u q).trans ?_
      exact congrArg₂ (· + ·) Ideal.ofBits_zero_f32
        (Finset.sum_congr rfl fun p _ => congrArg (fun z => z * z) (R.blk_apply ⟨0, h⟩ p q)))
    (fun n h => by
      rw [R.oS n h]
      refine (pay5_apply _ _ _ _ _ u q).trans ?_
      exact congrArg (_ + ·) (Finset.sum_congr rfl fun p _ => congrArg (fun z => z * z) (R.blk_apply ⟨n + 1, h⟩ p q))) h

end Run

end Cert.KernelIdeal.KV.CombLib

end
-- ==== Proof.KComb1.lean ====
import proofs.«426946_j20469814133009_2_alg».proof.Proof.Gen.KernelIdeal.Frame
import proofs.«426946_j20469814133009_2_alg».proof.Proof.KCombLib

noncomputable section

open Idealize.ShloMosaic Idealize.ShloMosaic.TcCoe Idealize.ShloMosaic.Tactic Idealize.ShloMosaic.ValueIdx

namespace Cert.KernelIdeal.KV.Comb1

open Cert.KernelIdeal Cert.KernelIdeal.Gen CombLib

section Pieces
variable {F : FTy → Type} [FloatOps F]
variable {c : Dev nD} {i : grid1.Coords}
  {a1 : Memref sig .tc .vmem S5000x64 .f32} {h1 : a1.IsWhole} {a2 : Memref sig .tc .vmem S5000x64 .f32} {h2 : a2.IsWhole}
  {a3 : Memref sig .tc .vmem S5000x1 .f32} {h3 : a3.IsWhole} {a4 : Memref sig .tc .vmem S1x64 .f32} {h4 : a4.IsWhole}
  {a5 : Memref sig .tc .vmem S5000x64 .f32} {h5 : a5.IsWhole} {a6 : Memref sig .tc .vmem S1x64 .f32} {h6 : a6.IsWhole}
  {a7 : Memref sig .tc .vmem S1x64 .f32} {h7 : a7.IsWhole}
  {x0 x1 : Vec F S5000x64 .f32} {x2 : Vec F S5000x1 .f32} {x3 xo5 xo6 : Vec F S1x64 .f32}

-- point 0 leaves the combined block, and in each row zero plus the block's column sums
theorem outA_eq (hc : cond1_0 i) :
    (out1_A_4 c i a1 h1 a2 h2 a3 h3 a4 h4 a5 h5 a6 h6 a7 h7 hc x0 x1 x2 x3, out1_A_5 c i a1 h1 a2 h2 a3 h3 a4 h4 a5 h5 a6 h6 a7 h7 hc x0 x1 x2 x3, out1_A_6 c i a1 h1 a2 h2 a3 h3 a4 h4 a5 h5 a6 h6 a7 h7 hc x0 x1 x2 x3)
      = (k1_pay3 x0 x1 x2 x3, k1_pay4 x0 x1 x2 x3 (k1_pay1 (F := F)), k1_pay5 x0 x1 x2 x3 (k1_pay2 (F := F))) := by
  unfold out1_A_4 out1_A_5 out1_A_6
  rw [View.read_writes_eq_canon _ _ _ (cover1_A_4 c i a1 h1 a2 h2 a3 h3 a4 h4 a5 h5 a6 h6 a7 h7 hc x0 x1 x2 x3), View.read_writes_eq_canon _ _ _ (cover1_A_5 c i a1 h1 a2 h2 a3 h3 a4 h4 a5 h5 a6 h6 a7 h7 hc x0 x1 x2 x3),
    View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_unit_zero BL.zeros, View.canon_cons_unit_zero (S := S1x64) BL.zeros, View.canon_cons_unit_zero (S := S1x64) BL.zeros]
  simp only [View.readAt_eq_ld, h1.read_unread, h2.read_unread, h3.read_unread, h4.read_unread, h6.read_unread, h7.read_unread,
    View.ld_unit_zero (S := S5000x64) BL.zeros, View.ld_unit_zero (S := S5000x1) BL.zeros, View.ld_unit_zero (S := S1x64) BL.zeros,
    View.readCov_unit_zero (S := S1x64) _ BL.zeros]

-- a later point leaves the combined block, and each row as it was plus the block's column sums
theorem outB_eq (hc : ¬cond1_0 i) :
    (out1_B_4 c i a1 h1 a2 h2 a3 h3 a4 h4 a5 h5 a6 h6 a7 h7 hc x0 x1 x2 x3 xo5 xo6, out1_B_5 c i a1 h1 a2 h2 a3 h3 a4 h4 a5 h5 a6 h6 a7 h7 hc x0 x1 x2 x3 xo5 xo6, out1_B_6 c i a1 h1 a2 h2 a3 h3 a4 h4 a5 h5 a6 h6 a7 h7 hc x0 x1 x2 x3 xo5 xo6)
      = (k1_pay3 x0 x1 x2 x3, k1_pay4 x0 x1 x2 x3 xo5, k1_pay5 x0 x1 x2 x3 xo6) := by
  unfold out1_B_4 out1_B_5 out1_B_6
  rw [View.read_writes_eq_canon _ _ _ (cover1_B_4 c i a1 h1 a2 h2 a3 h3 a4 h4 a5 h5 a6 h6 a7 h7 hc x0 x1 x2 x3 xo5 xo6), View.read_writes_eq_canon _ _ _ (cover1_B_5 c i a1 h1 a2 h2 a3 h3 a4 h4 a5 h5 a6 h6 a7 h7 hc x0 x1 x2 x3 xo5 xo6),
    View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero BL.zeros, View.canon_unit_zero BL.zeros, View.canon_unit_zero BL.zeros]
  simp only [View.readAt_eq_ld, h1.read_unread, h2.read_unread, h3.read_unread, h4.read_unread, h6.read_unread, h7.read_unread,
    View.ld_unit_zero (S := S5000x64) BL.zeros, View.ld_unit_zero (S := S5000x1) BL.zeros, View.ld_unit_zero (S := S1x64) BL.zeros]

end Pieces

variable (V : (c : Dev nD) → (b : Ref sig .tc) → Buf (Elt Ideal) ((c : Thread nD τ).loc b))

theorem ix : BL.Mov win1_0.index ∧ BL.Mov win1_1.index ∧ BL.Mov win1_2.index ∧ BL.Fix win1_3.index
    ∧ BL.Mov win1_4.index ∧ BL.Fix win1_5.index ∧ BL.Fix win1_6.index := by decide +kernel

-- the run is a step from zero rows, then steps
theorem outs0 (c : Dev nD) (h : 0 < cfg1.N) :
    outsAt1 V c 0 h = step (iblk1 V c 0 ⟨0, h⟩) (iblk1 V c 1 ⟨0, h⟩) (iblk1 V c 2 ⟨0, h⟩) (iblk1 V c 3 ⟨0, h⟩)
      (k1_pay1 (F := Ideal)) (k1_pay2 (F := Ideal)) := by
  exact (outsAt1_A V c ⟨0, h⟩ rfl).trans (outA_eq _)

theorem outsS (c : Dev nD) (n : ℕ) (h : n + 1 < cfg1.N) :
    outsAt1 V c (n + 1) h = step (iblk1 V c 0 ⟨n + 1, h⟩) (iblk1 V c 1 ⟨n + 1, h⟩) (iblk1 V c 2 ⟨n + 1, h⟩)
      (iblk1 V c 3 ⟨n + 1, h⟩) (outsAt1 V c n (Nat.lt_of_succ_lt h)).2.1 (outsAt1 V c n (Nat.lt_of_succ_lt h)).2.2 := by
  have hN : cfg1.N = 20 := N_1
  have hB : ¬(⟨n + 1, h⟩ : Fin cfg1.N).val % 20 = 0 := by dsimp only; omega
  exact (outsAt1_B V c ⟨n + 1, h⟩ hB).trans (outB_eq _)

abbrev arrA (c : Dev nD) : FVec Ideal ⟨2, ![100000, 64]⟩ .f32 := V c (Pipeline.arrRef spec1 0)
abbrev arrH (c : Dev nD) : FVec Ideal ⟨2, ![100000, 64]⟩ .f32 := V c (Pipeline.arrRef spec1 1)
abbrev arrS (c : Dev nD) : FVec Ideal ⟨2, ![100000, 1]⟩ .f32 := V c (Pipeline.arrRef spec1 2)
abbrev arrB (c : Dev nD) : FVec Ideal ⟨2, ![1, 64]⟩ .f32 := V c (Pipeline.arrRef spec1 3)

def run (c : Dev nD) : Run cfg1.N :=
  .ofWin N_1 ix (arrA V c) (arrH V c) (arrS V c) (arrB V c) win1_0.rect_emb_val win1_1.rect_emb_val win1_2.rect_emb_val win1_3.rect_emb_val
    (fun _ _ => rfl) (fun _ _ => rfl) (fun _ _ => rfl) (fun _ _ => rfl) (outsAt1 V c) (outs0 V c) (outsS V c)

abbrev tab (c : Dev nD) : Cert.Spec.Tab 100000 64 :=
  Cert.Spec.reluT (Cert.Spec.combPre (Cert.Spec.ofMat (arrA V c)) (Cert.Spec.ofMat (arrH V c)) (Cert.Spec.ofMat (arrS V c))
    (Cert.Spec.ofMat (arrB V c)))

-- point t returns its rows of the table,
theorem flushed4_eq (c : Dev nD) (t : Fin cfg1.N) :
    (dat1 (F := Ideal) V c).flushed 4 t = ((cfg1.win 4).blk t).view.read (Elt Ideal) (Cert.Spec.toMat (tab V c)) := by
  show (cfg1.win 4).cut (grid1.coords t) ((dat1 (F := Ideal) V c).after 4 t) = _
  rw [after1_4 V c t]
  exact read_mov ix.2.2.2.2.1 N_1 t (win1_4.rect_emb_val t) (fun _ _ => rfl) ((run V c).tab_apply t)

-- and the last point the table's column sums and those of its squares
theorem flushed5_eq (c : Dev nD) (t : Fin cfg1.N) (hf : (cfg1.win 5).flush t = true) :
    (dat1 (F := Ideal) V c).flushed 5 t
      = ((cfg1.win 5).blk t).view.read (Elt Ideal) (Cert.Spec.toMat (Cert.Spec.sumRow (tab V c))) := by
  show (cfg1.win 5).cut (grid1.coords t) ((dat1 (F := Ideal) V c).after 5 t) = _
  rw [after1_5 V c t]
  exact read_fix (rd := ((cfg1.win 5).blk t).view.read (Elt Ideal)) ix.2.2.2.2.2.1 t (win1_5.rect_emb_val t) (fun _ _ => rfl)
    ((run V c).sum_apply t (eq19 N_1 t ((flush1_5 t).mp hf)))

theorem flushed6_eq (c : Dev nD) (t : Fin cfg1.N) (hf : (cfg1.win 6).flush t = true) :
    (dat1 (F := Ideal) V c).flushed 6 t
      = ((cfg1.win 6).blk t).view.read (Elt Ideal) (Cert.Spec.toMat (Cert.Spec.sqSumRow (tab V c))) := by
  show (cfg1.win 6).cut (grid1.coords t) ((dat1 (F := Ideal) V c).after 6 t) = _
  rw [after1_6 V c t]
  exact read_fix (rd := ((cfg1.win 6).blk t).view.read (Elt Ideal)) ix.2.2.2.2.2.2 t (win1_6.rect_emb_val t) (fun _ _ => rfl)
    ((run V c).sq_apply t (eq19 N_1 t ((flush1_6 t).mp hf)))

end Cert.KernelIdeal.KV.Comb1

namespace Cert.KernelIdeal.KV

open Cert.KernelIdeal Cert.KernelIdeal.Gen CombLib

variable (V : (c : Dev nD) → (b : Ref sig .tc) → Buf (Elt Ideal) ((c : Thread nD τ).loc b))

theorem arr1_4 (c : Dev nD) :
    (dat1 (F := Ideal) V c).arrAt 4 cfg1.N = Cert.Spec.toMat (Comb1.tab V c) :=
  (dat1 (F := Ideal) V c).arrAt_eq_of_cover 4 _ (fun t _ => Comb1.flushed4_eq V c t) fun i =>
    (BL.cover_pt N_1 Comb1.ix.2.2.2.2.1 i).imp fun t h =>
      ⟨flush1_4 t, (BL.mem_slice_unit (Pipeline.arrRef spec1 4) _ i).2 h⟩

theorem arr1_5 (c : Dev nD) :
    (dat1 (F := Ideal) V c).arrAt 5 cfg1.N = Cert.Spec.toMat (Cert.Spec.sumRow (Comb1.tab V c)) :=
  (dat1 (F := Ideal) V c).arrAt_eq_of_cover 5 _ (Comb1.flushed5_eq V c) fun i =>
    ⟨⟨19, lt19 N_1⟩, (flush1_5 _).mpr rfl,
      (BL.mem_slice_unit (Pipeline.arrRef spec1 5) _ i).2 (cover_fix Comb1.ix.2.2.2.2.2.1 _ i)⟩

theorem arr1_6 (c : Dev nD) :
    (dat1 (F := Ideal) V c).arrAt 6 cfg1.N = Cert.Spec.toMat (Cert.Spec.sqSumRow (Comb1.tab V c)) :=
  (dat1 (F := Ideal) V c).arrAt_eq_of_cover 6 _ (Comb1.flushed6_eq V c) fun i =>
    ⟨⟨19, lt19 N_1⟩, (flush1_6 _).mpr rfl,
      (BL.mem_slice_unit (Pipeline.arrRef spec1 6) _ i).2 (cover_fix Comb1.ix.2.2.2.2.2.2 _ i)⟩

end Cert.KernelIdeal.KV

end
-- ==== Proof.KBn2.lean ====
import proofs.«426946_j20469814133009_2_alg».proof.Proof.Gen.KernelIdeal.Frame
import proofs.«426946_j20469814133009_2_alg».proof.Proof.KBnLinLib

noncomputable section

namespace Cert.KernelIdeal.KV

open Cert.KernelIdeal Cert.KernelIdeal.Gen Idealize.ShloMosaic Idealize.ShloMosaic.TcCoe

variable (V : (c : Dev nD) → (b : Ref sig .tc) → Buf (Elt Ideal) ((c : Thread nD τ).loc b))

theorem bn2_ix : BL.Mov win2_0.index ∧ BL.Fix win2_1.index ∧ BL.Fix win2_2.index ∧ BL.Fix win2_3.index
    ∧ BL.Fix win2_4.index ∧ BL.Mov win2_5.index ∧ BL.Mov win2_6.index := by decide +kernel

theorem bn2_out (c : Dev nD) (t : Fin cfg2.N) : (dat2 (F := Ideal) V c).flushed 6 t
    = k2_pay1 (iblk2 V c 0 t) (iblk2 V c 1 t) (iblk2 V c 2 t) (iblk2 V c 3 t) (iblk2 V c 4 t) (iblk2 V c 5 t) := by
  show (cfg2.win 6).cut (grid2.coords t) ((dat2 V c).after 6 t) = _
  rw [after2_6]
  unfold out2_6
  rw [View.canon_unit_zero BL.zeros]
  simp only [View.ld_unit_zero (S := S5000x64) BL.zeros, View.ld_unit_zero (S := S1x64) BL.zeros]
  rfl

-- block t of the output is block t of the normalise step of the whole tables, and the 20 blocks cover the rows
theorem arr2_6 (c : Dev nD) :
    (dat2 (F := Ideal) V c).arrAt 6 cfg2.N
      = Cert.Spec.toMat (Cert.Spec.bnKern
          (Cert.Spec.ofMat (R := 100000) (C := 64) (V c (Pipeline.arrRef spec2 0)))
          (Cert.Spec.ofMat (R := 1) (C := 64) (V c (Pipeline.arrRef spec2 1)))
          (Cert.Spec.ofMat (R := 1) (C := 64) (V c (Pipeline.arrRef spec2 2)))
          (Cert.Spec.ofMat (R := 1) (C := 64) (V c (Pipeline.arrRef spec2 3)))
          (Cert.Spec.ofMat (R := 1) (C := 64) (V c (Pipeline.arrRef spec2 4)))
          (Cert.Spec.ofMat (R := 100000) (C := 64) (V c (Pipeline.arrRef spec2 5)))) :=
  (dat2 (F := Ideal) V c).arrAt_eq_of_cover 6 _
    (fun t _ => (bn2_out V c t).trans (funext (BL.bn_blk N_2 bn2_ix t _ _ _ _ _ _ (win2_0.rect_emb_val t)
      (win2_1.rect_emb_val t) (win2_2.rect_emb_val t) (win2_3.rect_emb_val t) (win2_4.rect_emb_val t)
      (win2_5.rect_emb_val t) (win2_6.rect_emb_val t) (fun _ => rfl) (fun _ => rfl) (fun _ => rfl) (fun _ => rfl)
      (fun _ => rfl) fun _ => rfl)))
    fun i => (BL.cover_pt N_2 bn2_ix.2.2.2.2.2.2 i).imp fun t h =>
      ⟨flush2_6 t, (BL.mem_slice_unit (Pipeline.arrRef spec2 6) _ i).2 h⟩

end Cert.KernelIdeal.KV

end
-- ==== Proof.LibRows.lean ====
import Idealize.ShloMosaic.PureOps.Ideal
import Idealize.ShloMosaic.PureOps.ShapeOps
import Idealize.ShloMosaic.PureOps.Contract
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

theorem mem_kept {s : Shape} (axes : List (Fin s.rank)) (a : Fin s.rank) : a ∈ s.kept axes ↔ a ∉ axes := by
  simp [Shape.kept, List.mem_filter, List.mem_finRange]

theorem fin2_one_nmem : (1 : Fin 2) ∉ ([0] : List (Fin 2)) := by decide

section Scatter2
variable {N C E w : Nat} (d : ScatterDims ⟨2, ![N, C]⟩ ⟨2, ![E, 1]⟩ ⟨2, ![E, C]⟩)

theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

section Gather2
variable {N C E w : Nat} (d : GatherDims ⟨2, ![N, C]⟩ ⟨2, ![E, 1]⟩ ⟨2, ![E, C]⟩)

theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

theorem hostScatterAdd_eq {s si su : Shape} {w : Nat} (d : ScatterDims s si su) (x : FVec Ideal s .f32) (idx : IVec si w)
    (upd : FVec Ideal su .f32) : Host.scatterAdd d x idx upd = Ideal.hostScatterAdd d x idx upd := rfl

-- A vector laid out as a column keeps its entries.
theorem col_apply {α : Type} {E : Nat} (h : (⟨1, ![E]⟩ : Shape).BroadcastsInDim ⟨2, ![E, 1]⟩ ![0])
    (x : (⟨1, ![E]⟩ : Shape).Idx → α) (e : Fin E) (u : Fin 1) :
    broadcastInDim ⟨2, ![E, 1]⟩ ![0] h x (ix2 e u) = x (ix1 e) := by
  refine broadcastInDim_apply ![0] h x (ix2 e u) (ix1 e) ?_
  intro a
  match a with
  | ⟨0, _⟩ =>
    show e.val = if E = 1 then 0 else e.val
    split
    · have := e.isLt; omega
    · rfl

-- One row (or one slab) cut out of an array and recast: entry by entry it is the array's.
section Layout
variable {α : Type}

theorem rowSlice_apply {L C : Nat} (o : Nat) (x : (⟨2, ![L, C]⟩ : Shape).Idx → α)
    (hs : (⟨2, ![L, C]⟩ : Shape).Slices ![o, 0] ⟨2, ![1, C]⟩) (l : Fin L) (hl : l.val = o) (u : Fin 1) (j : Fin C) :
    extractStridedSlice ⟨2, ![1, C]⟩ ![o, 0] x hs (ix2 u j) = x (ix2 l j) :=
  slice2_axis0_apply o x hs u j l (by have := u.isLt; omega)

theorem rowVec_apply {L C : Nat} (o : Nat) (x : (⟨2, ![L, C]⟩ : Shape).Idx → α)
    (hs : (⟨2, ![L, C]⟩ : Shape).Slices ![o, 0] ⟨2, ![1, C]⟩) (h1 : (⟨2, ![1, C]⟩ : Shape).ShapeCasts ⟨1, ![C]⟩)
    (l : Fin L) (hl : l.val = o) (j : Fin C) :
    shapeCast ⟨1, ![C]⟩ (extractStridedSlice ⟨2, ![1, C]⟩ ![o, 0] x hs) h1 (ix1 j) = x (ix2 l j) := by
  rw [shapeCast_1a_a_apply]; exact rowSlice_apply o x hs l hl 0 j

theorem rowRow_apply {L C : Nat} (o : Nat) (x : (⟨2, ![L, C]⟩ : Shape).Idx → α)
    (hs : (⟨2, ![L, C]⟩ : Shape).Slices ![o, 0] ⟨2, ![1, C]⟩) (h1 : (⟨2, ![1, C]⟩ : Shape).ShapeCasts ⟨1, ![C]⟩)
    (h2 : (⟨1, ![C]⟩ : Shape).ShapeCasts ⟨2, ![1, C]⟩) (l : Fin L) (hl : l.val = o) (u : Fin 1) (j : Fin C) :
    shapeCast ⟨2, ![1, C]⟩ (shapeCast ⟨1, ![C]⟩ (extractStridedSlice ⟨2, ![1, C]⟩ ![o, 0] x hs) h1) h2 (ix2 u j)
      = x (ix2 l j) := by
  rw [shapeCast_a_1a_apply]; exact rowVec_apply o x hs h1 l hl j

theorem slab_apply {L R C : Nat} (o : Nat) (x : (⟨3, ![L, R, C]⟩ : Shape).Idx → α)
    (hs : (⟨3, ![L, R, C]⟩ : Shape).Slices ![o, 0, 0] ⟨3, ![1, R, C]⟩)
    (h1 : (⟨3, ![1, R, C]⟩ : Shape).ShapeCasts ⟨2, ![R, C]⟩) (l : Fin L) (hl : l.val = o) (k : Fin R) (j : Fin C) :
    shapeCast ⟨2, ![R, C]⟩ (extractStridedSlice ⟨3, ![1, R, C]⟩ ![o, 0, 0] x hs) h1 (ix2 k j) = x (ix3 l k j) := by
  rw [shapeCast_1ab_ab_apply]
  exact extractStridedSlice_apply _ x hs _ _ (fun ax => by
    match ax with
    | ⟨0, _⟩ => show l.val = o + 0; omega
    | ⟨1, _⟩ => exact (Nat.zero_add _).symm
    | ⟨2, _⟩ => exact (Nat.zero_add _).symm)

end Layout

end Cert.LibRows

end
-- ==== Proof.LibRows1.lean ====
import Idealize.ShloMosaic.PureOps.Ideal
import Idealize.ShloMosaic.PureOps.ShapeOps
import Idealize.ShloMosaic.PureOps.Contract
import Idealize.ShloMosaic.Lib.ValueIdx
import proofs.«426946_j20469814133009_2_alg».proof.Proof.LibRows

noncomputable section

open scoped BigOperators

namespace Cert.LibRows

open Idealize.ShloMosaic Idealize.ShloMosaic.ValueIdx

section Scatter1
variable {N E w : Nat} (d : ScatterDims ⟨1, ![N]⟩ ⟨2, ![E, 1]⟩ ⟨1, ![E]⟩)

theorem sc1_start0 (huw : d.updateWindowDims = []) (hsd : d.scatterDimsToOperandDims = [0])
    (hivd : d.indexVectorDim = 1) (idx : IVec ⟨2, ![E, 1]⟩ w) (j : (⟨1, ![E]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc1_window0 (hiw : d.insertedWindowDims = [0]) (j : (⟨1, ![E]⟩ : Shape).Idx) :
    d.window j 0 = 0 := by
  unfold ScatterDims.window
  rw [dif_neg (by rw [ScatterDims.sKept, mem_kept, hiw]; exact fun h => h (List.mem_singleton.mpr rfl))]

theorem sc1_resultIdx (huw : d.updateWindowDims = []) (hiw : d.insertedWindowDims = [0])
    (hsd : d.scatterDimsToOperandDims = [0]) (hivd : d.indexVectorDim = 1)
    (idx : IVec ⟨2, ![E, 1]⟩ w) (e : Fin E) (n : Fin N) :
    d.resultIdx? (ix1 e) idx = some (ix1 n) ↔ (idx (ix2 e (0 : Fin 1))).toInt = (n.val : Int) := by
  have hs0 : d.start (ix1 e) idx 0 = (idx (ix2 e (0 : Fin 1))).toInt := sc1_start0 d huw hsd hivd idx _
  have hw0 : d.window (ix1 e) 0 = 0 := sc1_window0 d hiw _
  generalize (idx (ix2 e (0 : Fin 1))).toInt = z at hs0 ⊢
  have hn := n.isLt
  unfold ScatterDims.resultIdx?
  split
  · next h =>
    rw [Option.some.injEq]
    constructor
    · intro hf
      have h0 : (d.start (ix1 e) idx 0 + (d.window (ix1 e) 0 : Int)).toNat = n.val :=
        congrArg (fun f : (⟨1, ![N]⟩ : Shape).Idx => (f 0).val) hf
      have h00 := (h 0).1
      rw [hs0, hw0] at h0 h00
      omega
    · intro hz
      funext a
      match a with
      | ⟨0, _⟩ =>
        refine Fin.ext ?_
        show (d.start (ix1 e) idx 0 + (d.window (ix1 e) 0 : Int)).toNat = n.val
        rw [hs0, hw0]; omega
  · next h =>
    constructor
    · intro hf; cases hf
    · intro hz
      refine absurd ?_ h
      intro a
      match a with
      | ⟨0, _⟩ =>
        show 0 ≤ d.start (ix1 e) idx 0 + (d.window (ix1 e) 0 : Int)
          ∧ d.start (ix1 e) idx 0 + (d.window (ix1 e) 0 : Int) < (N : Int)
        rw [hs0, hw0]; omega

theorem scatterAdd_rows1 (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n) = x (ix1 n)
      + ∑ e ∈ Finset.univ.filter (fun e : Fin E => (idx (ix2 e (0 : Fin 1))).toInt = (n.val : Int)), upd (ix1 e) := by
  unfold Ideal.hostScatterAdd
  congr 1
  refine Finset.sum_bij' (fun j _ => (j 0 : Fin E)) (fun e _ => ix1 e) ?_ ?_ ?_ ?_ ?_
  · intro j hj
    obtain ⟨e, rfl⟩ : ∃ e : Fin E, j = ix1 e := ⟨j 0, eq_ix1 j⟩
    exact Finset.mem_filter.2 ⟨Finset.mem_univ _,
      (sc1_resultIdx d huw hiw hsd hivd idx e n).1 (Finset.mem_filter.1 hj).2⟩
  · intro e he
    exact Finset.mem_filter.2 ⟨Finset.mem_univ _,
      (sc1_resultIdx d huw hiw hsd hivd idx e n).2 (Finset.mem_filter.1 he).2⟩
  · intro j _
    exact (eq_ix1 j).symm
  · intro e _
    rfl
  · intro j _
    exact congrArg upd (eq_ix1 j)

end Scatter1

section Gather1
variable {N E w : Nat} (d : GatherDims ⟨1, ![N]⟩ ⟨2, ![E, 1]⟩ ⟨1, ![E]⟩)

theorem g1_start0 (hoff : d.offsetDims = []) (hcoll : d.collapsedSliceDims = [0])
    (hsim : d.startIndexMap = [0]) (hivd : d.indexVectorDim = 1)
    (idx : IVec ⟨2, ![E, 1]⟩ w) (j : (⟨1, ![E]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

end Gather1

theorem gather_rows1 {α : Type} {N E w : Nat} (hN : 0 < N) (d : GatherDims ⟨1, ![N]⟩ ⟨2, ![E, 1]⟩ ⟨1, ![E]⟩)
    (hoff : d.offsetDims = []) (hcoll : d.collapsedSliceDims = [0])
    (hob : d.operandBatchingDims = []) (hsim : d.startIndexMap = [0]) (hivd : d.indexVectorDim = 1)
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  have hb : ∀ a, d.batchCoord (ix1 e) a = 0 := fun a =>
    d.batchCoord_eq_zero _ a (by rw [hob]; exact List.not_mem_nil)
  have ho : d.offCoord (ix1 e) 0 = 0 :=
    d.offCoord_eq_zero _ 0 fun h => ((d.mem_sKept 0).1 h).1 (by rw [hcoll]; exact List.mem_singleton.mpr rfl)
  unfold Host.gather
  congr 1
  funext a
  refine Fin.ext ?_
  match a with
  | ⟨0, _⟩ =>
    show d.start (ix1 e) idx 0 + d.batchCoord (ix1 e) 0 + d.offCoord (ix1 e) 0 = _
    rw [hb, ho, g1_start0 d hoff hcoll hsim hivd]
    rfl

end Cert.LibRows

end
-- ==== Proof.GraphRd.lean ====
import Idealize.ShloMosaic.PureOps.Ideal
import Idealize.ShloMosaic.PureOps.ShapeOps
import Idealize.ShloMosaic.PureOps.Contract
import Idealize.ShloMosaic.PureOps.Vector
import Idealize.ShloMosaic.Lib.ValueIdx
import Idealize.ShloMosaic.Lib.ValueLayout
import Idealize.ShloMosaic.Lib.Pipeline.Value
import proofs.«426946_j20469814133009_2_alg».proof.Proof.Spec
import proofs.«426946_j20469814133009_2_alg».proof.Proof.LibRows
import proofs.«426946_j20469814133009_2_alg».proof.Proof.LibRows1

noncomputable section

open scoped BigOperators

namespace Cert.GraphRd

open Idealize.ShloMosaic Idealize.ShloMosaic.ValueIdx Cert.Spec Cert.LibRows

theorem colCast_apply {α : Type} {n : Nat} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    omega)

theorem rowToCol_apply {α : Type} {n : Nat} (x : (⟨2, ![1, n]⟩ : Shape).Idx → α)
    (h : (⟨2, ![1, n]⟩ : Shape).ShapeCasts ⟨2, ![n, 1]⟩) (p : Fin n) (u : Fin 1) :
    shapeCast ⟨2, ![n, 1]⟩ x h (ix2 p u) = x (ix2 (0 : Fin 1) p) :=
  shapeCast_apply x h _ _ (by
    have hu : u.val = 0 := by omega
    rw [Shape.rowMajor_val_two, Shape.rowMajor_val_two]
    show 0 * n + p.val = p.val * 1 + u.val
    omega)

theorem colBcast_apply {α : Type} {a b : Nat} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  simp only [broadcastInDim]
  congr 1
  funext ax
  apply Fin.ext
  have hp := p.isLt
  match ax with
  | ⟨0, _⟩ =>
    split
    · next h1 => change a = 1 at h1; show (0 : Nat) = p.val; omega
    · rfl
  | ⟨1, _⟩ =>
    split
    · rfl
    · next h1 => exact absurd rfl h1

theorem bcastConst_apply (t : Shape) (h : (⟨0, ![]⟩ : Shape).BroadcastsInDim t (![] : Fin 0 → Fin t.rank))
    (w : BitVec 32) (j : t.Idx) :
    broadcastInDim t ![] h (constant (F := Ideal) ⟨0, ![]⟩ .f32 w) j = Ideal.ofBits .f32 w := rfl

theorem bcastConstI_apply (t : Shape) (h : (⟨0, ![]⟩ : Shape).BroadcastsInDim t (![] : Fin 0 → Fin t.rank))
    (w : BitVec 32) (j : t.Idx) :
    broadcastInDim t ![] h (constantI ⟨0, ![]⟩ 32 w) j = w := rfl

theorem edgeRow_apply (k : Fin 2) (o : Nat) (ho : o = k.val) (ei : IVec ⟨2, ![2, 1200000]⟩ 32)
    (hs : (⟨2, ![2, 1200000]⟩ : Shape).Slices ![o, 0] ⟨2, ![1, 1200000]⟩)
    (hc : (⟨2, ![1, 1200000]⟩ : Shape).ShapeCasts ⟨1, ![1200000]⟩) (e : Fin 1200000) :
    shapeCast ⟨1, ![1200000]⟩ (extractStridedSlice ⟨2, ![1, 1200000]⟩ ![o, 0] ei hs) hc (ix1 e) = ei (ix2 k e) := by
  rw [shapeCast_1a_a_apply]
  exact slice2_axis0_apply o ei hs 0 e k (by rw [ho]; rfl)

section Graph
variable (hs0 : (⟨2, ![2, 1200000]⟩ : Shape).Slices ![0, 0] ⟨2, ![1, 1200000]⟩)
  (hs1 : (⟨2, ![2, 1200000]⟩ : Shape).Slices ![1, 0] ⟨2, ![1, 1200000]⟩)
  (hc : (⟨2, ![1, 1200000]⟩ : Shape).ShapeCasts ⟨1, ![1200000]⟩)
  (hbN : (⟨0, ![]⟩ : Shape).BroadcastsInDim ⟨1, ![100000]⟩ (![] : Fin 0 → Fin 1))
  (hbE : (⟨0, ![]⟩ : Shape).BroadcastsInDim ⟨1, ![1200000]⟩ (![] : Fin 0 → Fin 1))
  (hcol : (⟨1, ![1200000]⟩ : Shape).BroadcastsInDim ⟨2, ![1200000, 1]⟩ ![0])
  (sc : ScatterDims ⟨1, ![100000]⟩ ⟨2, ![1200000, 1]⟩ ⟨1, ![1200000]⟩)
  (ga : GatherDims ⟨1, ![100000]⟩ ⟨2, ![1200000, 1]⟩ ⟨1, ![1200000]⟩)
  (ei : IVec ⟨2, ![2, 1200000]⟩ 32)

def srcF : IVec ⟨1, ![1200000]⟩ 32 :=
  shapeCast ⟨1, ![1200000]⟩ (extractStridedSlice ⟨2, ![1, 1200000]⟩ ![0, 0] ei hs0) hc

def dstF : IVec ⟨1, ![1200000]⟩ 32 :=
  shapeCast ⟨1, ![1200000]⟩ (extractStridedSlice ⟨2, ![1, 1200000]⟩ ![1, 0] ei hs1) hc

theorem srcF_apply (e : Fin 1200000) : srcF hs0 hc ei (ix1 e) = src ei e :=
  edgeRow_apply 0 0 rfl ei hs0 hc e
theorem dstF_apply (e : Fin 1200000) : dstF hs1 hc ei (ix1 e) = dst ei e :=
  edgeRow_apply 1 1 rfl ei hs1 hc e

def degF (dv : IVec ⟨1, ![1200000]⟩ 32) : FVec Ideal ⟨1, ![100000]⟩ .f32 :=
  addf (Host.scatterAdd (F := Ideal) sc
      (broadcastInDim ⟨1, ![100000]⟩ ![] hbN (constant (F := Ideal) ⟨0, ![]⟩ .f32 0x00000000#32))
      (broadcastInDim ⟨2, ![1200000, 1]⟩ ![0] hcol dv)
      (broadcastInDim ⟨1, ![1200000]⟩ ![] hbE (constant (F := Ideal) ⟨0, ![]⟩ .f32 0x3F800000#32)))
    (broadcastInDim ⟨1, ![100000]⟩ ![] hbN (constant (F := Ideal) ⟨0, ![]⟩ .f32 0x3F800000#32))

theorem degF_apply (huw : sc.updateWindowDims = []) (hiw : sc.insertedWindowDims = [0])
    (hsd : sc.scatterDimsToOperandDims = [0]) (hivd : sc.indexVectorDim = 1)
    (dv : IVec ⟨1, ![1200000]⟩ 32) (hdv : ∀ e, dv (ix1 e) = dst ei e) (n : Fin 100000) :
    degF hbN hbE hcol sc dv (ix1 n) = deg ei n := by
  unfold degF
  rw [addf_apply, hostScatterAdd_eq, scatterAdd_rows1 sc huw hiw hsd hivd, bcastConst_apply, bcastConst_apply]
  unfold deg inEdges zero one
  refine congrArg (· + Ideal.ofBits .f32 0x3F800000#32) ?_
  refine congrArg (Ideal.ofBits .f32 0x00000000#32 + ·) ?_
  refine Finset.sum_congr (Finset.filter_congr fun e _ => ?_) (fun e _ => ?_)
  · rw [col_apply, hdv]
  · rw [bcastConst_apply]

def dinvF (dg : FVec Ideal ⟨1, ![100000]⟩ .f32) : FVec Ideal ⟨1, ![100000]⟩ .f32 :=
  Host.powf (F := Ideal) dg (broadcastInDim ⟨1, ![100000]⟩ ![] hbN (constant (F := Ideal) ⟨0, ![]⟩ .f32 0xBF000000#32))

theorem dinvF_apply (dg : FVec Ideal ⟨1, ![100000]⟩ .f32) (hdg : ∀ n, dg (ix1 n) = deg ei n) (n : Fin 100000) :
    dinvF hbN dg (ix1 n) = dinv ei n := by
  unfold dinvF Host.powf
  show FloatOps.hostPowf (dg (ix1 n)) _ = _
  rw [Ideal.hostPowf_def, bcastConst_apply, hdg]
  rfl

def wrapColF (s : IVec ⟨1, ![1200000]⟩ 32) : IVec ⟨2, ![1200000, 1]⟩ 32 :=
  broadcastInDim ⟨2, ![1200000, 1]⟩ ![0] hcol
    (select (cmpi .slt s (broadcastInDim ⟨1, ![1200000]⟩ ![] hbE (constantI ⟨0, ![]⟩ 32 0#32)))
      (addi s (broadcastInDim ⟨1, ![1200000]⟩ ![] hbE (constantI ⟨0, ![]⟩ 32 100000#32))) s)

theorem wrapColF_apply (s : IVec ⟨1, ![1200000]⟩ 32) (e : Fin 1200000) (u : Fin 1) :
    wrapColF hbE hcol s (ix2 e u) = wrapped (s (ix1 e)) := by
  unfold wrapColF
  rw [col_apply, select_apply]
  show Scalar.select (IntOp.cmpi .slt (s (ix1 e)) _) (IntOp.addi (s (ix1 e)) _) (s (ix1 e)) = _
  rw [bcastConstI_apply, bcastConstI_apply]
  rfl

theorem gatherWrap_apply {α : Type} (hoff : ga.offsetDims = []) (hcoll : ga.collapsedSliceDims = [0])
    (hob : ga.operandBatchingDims = []) (hsim : ga.startIndexMap = [0]) (hivd : ga.indexVectorDim = 1)
    (x : (⟨1, ![100000]⟩ : Shape).Idx → α) (s : IVec ⟨1, ![1200000]⟩ 32) (e : Fin 1200000) :
    Host.gather ga x (wrapColF hbE hcol s) (ix1 e) = x (ix1 (rowOf (s (ix1 e)))) := by
  rw [gather_rows1 (by omega) ga hoff hcoll hob hsim hivd]
  refine congrArg (fun k : Fin 100000 => x (ix1 k)) (Fin.ext ?_)
  show min (wrapColF hbE hcol s (ix2 e (0 : Fin 1))).toInt.toNat (100000 - 1) = min (wrapped (s (ix1 e))).toInt.toNat (100000 - 1)
  rw [wrapColF_apply]

def normF (dv : FVec Ideal ⟨1, ![100000]⟩ .f32) (s1 d3 : IVec ⟨1, ![1200000]⟩ 32) : FVec Ideal ⟨1, ![1200000]⟩ .f32 :=
  mulf (Host.gather ga dv (wrapColF hbE hcol s1)) (Host.gather ga dv (wrapColF hbE hcol d3))

theorem normF_apply (hoff : ga.offsetDims = []) (hcoll : ga.collapsedSliceDims = [0])
    (hob : ga.operandBatchingDims = []) (hsim : ga.startIndexMap = [0]) (hivd : ga.indexVectorDim = 1)
    (dv : FVec Ideal ⟨1, ![100000]⟩ .f32) (hdv : ∀ n, dv (ix1 n) = dinv ei n)
    (s1 d3 : IVec ⟨1, ![1200000]⟩ 32) (hs : ∀ e, s1 (ix1 e) = src ei e) (hd : ∀ e, d3 (ix1 e) = dst ei e)
    (e : Fin 1200000) :
    normF hbE hcol ga dv s1 d3 (ix1 e) = enorm ei e := by
  unfold normF
  rw [mulf_apply, gatherWrap_apply hbE hcol ga hoff hcoll hob hsim hivd, gatherWrap_apply hbE hcol ga hoff hcoll hob hsim hivd,
    hdv, hdv, hs, hd]
  rfl

end Graph

section Pool
variable (hb62 : (⟨0, ![]⟩ : Shape).BroadcastsInDim ⟨2, ![64, 2]⟩ (![] : Fin 0 → Fin 2))
  (hbN : (⟨0, ![]⟩ : Shape).BroadcastsInDim ⟨1, ![100000]⟩ (![] : Fin 0 → Fin 1))
  (hb64 : (⟨0, ![]⟩ : Shape).BroadcastsInDim ⟨1, ![64]⟩ (![] : Fin 0 → Fin 1))
  (hcolN : (⟨1, ![100000]⟩ : Shape).BroadcastsInDim ⟨2, ![100000, 1]⟩ ![0])
  (hcol64 : (⟨1, ![64]⟩ : Shape).BroadcastsInDim ⟨2, ![64, 1]⟩ ![0])
  (hcb : (⟨2, ![64, 1]⟩ : Shape).BroadcastsInDim ⟨2, ![64, 2]⟩ ![0, 1])
  (sc2 : ScatterDims ⟨2, ![64, 2]⟩ ⟨2, ![100000, 1]⟩ ⟨2, ![100000, 2]⟩)
  (sc1 : ScatterDims ⟨1, ![64]⟩ ⟨2, ![100000, 1]⟩ ⟨1, ![100000]⟩)

def sumsF (h : FVec Ideal ⟨2, ![100000, 2]⟩ .f32) (bt : IVec ⟨1, ![100000]⟩ 32) : FVec Ideal ⟨2, ![64, 2]⟩ .f32 :=
  Host.scatterAdd (F := Ideal) sc2
    (broadcastInDim ⟨2, ![64, 2]⟩ ![] hb62 (constant (F := Ideal) ⟨0, ![]⟩ .f32 0x00000000#32))
    (broadcastInDim ⟨2, ![100000, 1]⟩ ![0] hcolN bt) h

theorem sumsF_apply (huw : sc2.updateWindowDims = [1]) (hiw : sc2.insertedWindowDims = [0])
    (hsd : sc2.scatterDimsToOperandDims = [0]) (hivd : sc2.indexVectorDim = 1)
    (h : FVec Ideal ⟨2, ![100000, 2]⟩ .f32) (bt : IVec ⟨1, ![100000]⟩ 32) (b : Fin 64) (d : Fin 2) :
    ofMat (sumsF hb62 hcolN sc2 h bt) b d = zero + ∑ n ∈ members bt b, h (ix2 n d) := by
  show sumsF hb62 hcolN sc2 h bt (ix2 b d) = _
  unfold sumsF
  rw [hostScatterAdd_eq, scatterAdd_rows2 sc2 huw hiw hsd hivd, bcastConst_apply]
  unfold members zero
  refine congrArg (Ideal.ofBits .f32 0x00000000#32 + ·) ?_
  refine Finset.sum_congr (Finset.filter_congr fun n _ => ?_) (fun _ _ => rfl)
  rw [col_apply]

def cntF (bt : IVec ⟨1, ![100000]⟩ 32) : FVec Ideal ⟨1, ![64]⟩ .f32 :=
  Host.scatterAdd (F := Ideal) sc1
    (broadcastInDim ⟨1, ![64]⟩ ![] hb64 (constant (F := Ideal) ⟨0, ![]⟩ .f32 0x00000000#32))
    (broadcastInDim ⟨2, ![100000, 1]⟩ ![0] hcolN bt)
    (broadcastInDim ⟨1, ![100000]⟩ ![] hbN (constant (F := Ideal) ⟨0, ![]⟩ .f32 0x3F800000#32))

theorem cntF_apply (huw : sc1.updateWindowDims = []) (hiw : sc1.insertedWindowDims = [0])
    (hsd : sc1.scatterDimsToOperandDims = [0]) (hivd : sc1.indexVectorDim = 1)
    (bt : IVec ⟨1, ![100000]⟩ 32) (b : Fin 64) :
    cntF hbN hb64 hcolN sc1 bt (ix1 b) = zero + ∑ _n ∈ members bt b, one := by
  unfold cntF
  rw [hostScatterAdd_eq, scatterAdd_rows1 sc1 huw hiw hsd hivd, bcastConst_apply]
  unfold members zero one
  refine congrArg (Ideal.ofBits .f32 0x00000000#32 + ·) ?_
  refine Finset.sum_congr (Finset.filter_congr fun n _ => ?_) (fun n _ => ?_)
  · rw [col_apply]
  · rw [bcastConst_apply]

def outF (s : FVec Ideal ⟨2, ![64, 2]⟩ .f32) (c : FVec Ideal ⟨1, ![64]⟩ .f32) : FVec Ideal ⟨2, ![64, 2]⟩ .f32 :=
  Host.divf (F := Ideal) s
    (broadcastInDim ⟨2, ![64, 2]⟩ ![0, 1] hcb
      (broadcastInDim ⟨2, ![64, 1]⟩ ![0] hcol64
        (maximumf c (broadcastInDim ⟨1, ![64]⟩ ![] hb64 (constant (F := Ideal) ⟨0, ![]⟩ .f32 0x3F800000#32)))))

theorem outF_apply (s : FVec Ideal ⟨2, ![64, 2]⟩ .f32) (c : FVec Ideal ⟨1, ![64]⟩ .f32) (b : Fin 64) (d : Fin 2) :
    ofMat (outF hb64 hcol64 hcb s c) b d = Ideal.div (s (ix2 b d)) (max (c (ix1 b)) one) := by
  show outF hb64 hcol64 hcb s c (ix2 b d) = _
  unfold outF Host.divf
  show FloatOps.hostDivf (s (ix2 b d)) _ = _
  rw [Ideal.hostDivf_def, colBcast_apply, col_apply, maximumf_apply, bcastConst_apply]
  rfl

end Pool

end Cert.GraphRd

end
-- ==== Proof.KG.lean ====
import Idealize.ShloMosaic.Lib.StableHlo.Run
import proofs.«426946_j20469814133009_2_alg».proof.Proof.Gen.KernelIdeal.Launch
import proofs.«426946_j20469814133009_2_alg».proof.Proof.Spec
import proofs.«426946_j20469814133009_2_alg».proof.Proof.GraphRd

set_option maxRecDepth 1684

noncomputable section

open scoped BigOperators

namespace Cert.KernelIdeal.KV

open Idealize.ShloMosaic Idealize.ShloMosaic.ValueIdx Idealize.ShloMosaic.StableHlo
open Cert.KernelIdeal Cert.KernelIdeal.Facts₀ Cert.KernelIdeal.Facts
open Cert.GraphRd

variable (W : Valuation τ sig (Elt Ideal))

theorem v1_eq : (StableHlo.after (Gen.hostOps0 (F := Ideal)) W (Proc.devRef .tc main_v1) : IVec S1200000 32)
    = srcF slices_S2x1200000_S1x1200000_0_0 shapeCasts_S1x1200000_S1200000 (W (Proc.devRef .tc main_arg9)) := by
  after_results; unfold srcF; rfl

theorem v3_eq : (StableHlo.after (Gen.hostOps0 (F := Ideal)) W (Proc.devRef .tc main_v3) : IVec S1200000 32)
    = dstF slices_S2x1200000_S1x1200000_1_0 shapeCasts_S1x1200000_S1200000 (W (Proc.devRef .tc main_arg9)) := by
  after_results; unfold dstF; rfl

theorem v4_eq : (StableHlo.after (Gen.hostOps0 (F := Ideal)) W (Proc.devRef .tc main_v4) : IVec S100000x1 32)
    = shapeCast S100000x1 (W (Proc.devRef .tc main_arg10) : IVec S100000 32) shapeCasts_S100000_S100000x1 := by
  after_results; rfl

def dinvK : FVec Ideal S100000 .f32 :=
  dinvF bcast_S_S100000
    (degF bcast_S_S100000 bcast_S_S1200000 bcast_S1200000_S1200000x1_0 scatter_S100000_S1200000x1_S1200000_n_0_0_1
      (dstF slices_S2x1200000_S1x1200000_1_0 shapeCasts_S1x1200000_S1200000 (W (Proc.devRef .tc main_arg9))))

theorem dinvK_apply (n : Fin 100000) : dinvK W (ix1 n) = Cert.Spec.dinv (W (Proc.devRef .tc main_arg9)) n :=
  dinvF_apply _ _ _ (fun n => degF_apply _ _ _ _ _ rfl rfl rfl rfl _ (fun e => dstF_apply _ _ _ e) n) n

set_option maxHeartbeats 1000000 in
theorem v14_eq : (StableHlo.after (Gen.hostOps0 (F := Ideal)) W (Proc.devRef .tc main_v14) : FVec Ideal S100000x1 .f32)
    = shapeCast S100000x1 (mulf (dinvK W) (dinvK W)) shapeCasts_S100000_S100000x1 := by
  after_results; unfold dinvK dinvF degF dstF; rfl

set_option maxHeartbeats 1000000 in
theorem v30_eq : (StableHlo.after (Gen.hostOps0 (F := Ideal)) W (Proc.devRef .tc main_v30) : FVec Ideal S1200000x1 .f32)
    = shapeCast S1200000x1
        (normF bcast_S_S1200000 bcast_S1200000_S1200000x1_0 gather_S100000_S1200000x1_S1200000_n_0_n_n_0_1_1 (dinvK W)
          (srcF slices_S2x1200000_S1x1200000_0_0 shapeCasts_S1x1200000_S1200000 (W (Proc.devRef .tc main_arg9)))
          (dstF slices_S2x1200000_S1x1200000_1_0 shapeCasts_S1x1200000_S1200000 (W (Proc.devRef .tc main_arg9))))
        shapeCasts_S1200000_S1200000x1 := by
  after_results_simp
  unfold normF wrapColF dinvK dinvF degF dstF srcF
  rfl

theorem st0_v1 (e : Fin 1200000) :
    (StableHlo.after (Gen.hostOps0 (F := Ideal)) W (Proc.devRef .tc main_v1) : IVec S1200000 32) (ix1 e)
      = Cert.Spec.src (W (Proc.devRef .tc main_arg9)) e :=
  (congrFun (v1_eq W) (ix1 e)).trans (srcF_apply _ _ _ e)

theorem st0_v3 (e : Fin 1200000) :
    (StableHlo.after (Gen.hostOps0 (F := Ideal)) W (Proc.devRef .tc main_v3) : IVec S1200000 32) (ix1 e)
      = Cert.Spec.dst (W (Proc.devRef .tc main_arg9)) e :=
  (congrFun (v3_eq W) (ix1 e)).trans (dstF_apply _ _ _ e)

theorem st0_v4 (n : Fin 100000) :
    (StableHlo.after (Gen.hostOps0 (F := Ideal)) W (Proc.devRef .tc main_v4) : IVec S100000x1 32) (ix2 n (0 : Fin 1))
      = (W (Proc.devRef .tc main_arg10) : IVec S100000 32) (ix1 n) :=
  (congrFun (v4_eq W) (ix2 n (0 : Fin 1))).trans (colCast_apply _ _ n 0)

theorem st0_v14 (n : Fin 100000) :
    (StableHlo.after (Gen.hostOps0 (F := Ideal)) W (Proc.devRef .tc main_v14) : FVec Ideal S100000x1 .f32) (ix2 n (0 : Fin 1))
      = Cert.Spec.dinv (W (Proc.devRef .tc main_arg9)) n * Cert.Spec.dinv (W (Proc.devRef .tc main_arg9)) n := by
  refine (congrFun (v14_eq W) (ix2 n (0 : Fin 1))).trans ?_
  refine (colCast_apply _ _ n 0).trans ?_
  refine (mulf_apply _ _ _).trans ?_
  exact congrArg₂ (fun x y : EReal => x * y) (dinvK_apply W n) (dinvK_apply W n)

theorem st0_v30 (e : Fin 1200000) :
    (StableHlo.after (Gen.hostOps0 (F := Ideal)) W (Proc.devRef .tc main_v30) : FVec Ideal S1200000x1 .f32) (ix2 e (0 : Fin 1))
      = Cert.Spec.enorm (W (Proc.devRef .tc main_arg9)) e := by
  refine (congrFun (v30_eq W) (ix2 e (0 : Fin 1))).trans ?_
  refine (colCast_apply _ _ e 0).trans ?_
  exact normF_apply _ _ _ _ rfl rfl rfl rfl rfl _ (dinvK_apply W) _ _ (fun e => srcF_apply _ _ _ e)
    (fun e => dstF_apply _ _ _ e) e

theorem ofMat_entry {R C : Nat} (x : FVec Ideal ⟨2, ![R, C]⟩ .f32) (n : Fin R) (j : Fin C) :
    Cert.Spec.ofMat x n j = x (ix2 n j) := rfl

theorem hostDivf_apply {s : Shape} (a b : FVec Ideal s .f32) (i : s.Idx) :
    Host.divf (F := Ideal) a b i = Ideal.div (a i) (b i) := rfl

theorem v144_eq : (StableHlo.after (Gen.hostOps12 (F := Ideal)) W (Proc.devRef .tc main_v144) : FVec Ideal S64x2 .f32)
    = Host.divf (F := Ideal) (W (Proc.devRef .tc main_v139_0) : FVec Ideal S64x2 .f32)
        (broadcastInDim S64x2 ![0, 1] bcast_S64x1_S64x2_0_1
          (shapeCast S64x1
            (maximumf (W (Proc.devRef .tc main_v139_1) : FVec Ideal S1x64 .f32)
              (broadcastInDim S1x64 ![] bcast_S_S1x64 (constant (F := Ideal) S_ .f32 0x3F800000#32)))
            shapeCasts_S1x64_S64x1)) := by
  after_results; rfl

theorem st12_v144 (b : Fin 64) (d : Fin 2) :
    Cert.Spec.ofMat (StableHlo.after (Gen.hostOps12 (F := Ideal)) W (Proc.devRef .tc main_v144) : FVec Ideal S64x2 .f32) b d
      = Ideal.div ((W (Proc.devRef .tc main_v139_0) : FVec Ideal S64x2 .f32) (ix2 b d))
          (max ((W (Proc.devRef .tc main_v139_1) : FVec Ideal S1x64 .f32) (ix2 (0 : Fin 1) b)) Cert.Spec.one) := by
  refine (ofMat_entry _ b d).trans ?_
  refine (congrFun (v144_eq W) (ix2 b d)).trans ?_
  refine (hostDivf_apply _ _ _).trans ?_
  refine congrArg (Ideal.div _) ?_
  refine (colBcast_apply _ _ b d).trans ?_
  refine (rowToCol_apply _ _ b 0).trans ?_
  refine (maximumf_apply _ _ _).trans ?_
  exact congrArg (max _) (bcastConst_apply _ _ _ _)

end Cert.KernelIdeal.KV

end
-- ==== Proof.ConvLib.lean ====
import proofs.«426946_j20469814133009_2_alg».proof.Proof.Spec
import proofs.«426946_j20469814133009_2_alg».proof.Proof.LibRows
import Idealize.ShloMosaic.PureOps.Ideal
import Idealize.ShloMosaic.PureOps.ShapeOps
import Idealize.ShloMosaic.PureOps.Contract
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ConvLib

open Idealize.ShloMosaic Idealize.ShloMosaic.ValueIdx Cert.LibRows

theorem colStretch_apply {α : Type} {E C : Nat} (h : (⟨2, ![E, 1]⟩ : Shape).BroadcastsInDim ⟨2, ![E, C]⟩ ![0, 1])
    (x : (⟨2, ![E, 1]⟩ : Shape).Idx → α) (e : Fin E) (c : Fin C) :
    broadcastInDim ⟨2, ![E, C]⟩ ![0, 1] h x (ix2 e c) = x (ix2 e (0 : Fin 1)) := by
  refine broadcastInDim_apply ![0, 1] h x (ix2 e c) (ix2 e (0 : Fin 1)) ?_
  intro a
  match a with
  | ⟨0, _⟩ =>
    show e.val = if E = 1 then 0 else e.val
    split
    · have := e.isLt; omega
    · rfl
  | ⟨1, _⟩ =>
    show (0 : Nat) = if (1 : Nat) = 1 then 0 else c.val
    rw [if_pos rfl]

theorem row_apply {α : Type} {C : Nat} (h : (⟨1, ![C]⟩ : Shape).BroadcastsInDim ⟨2, ![1, C]⟩ ![1])
    (x : (⟨1, ![C]⟩ : Shape).Idx → α) (u : Fin 1) (c : Fin C) :
    broadcastInDim ⟨2, ![1, C]⟩ ![1] h x (ix2 u c) = x (ix1 c) := by
  refine broadcastInDim_apply ![1] h x (ix2 u c) (ix1 c) ?_
  intro a
  match a with
  | ⟨0, _⟩ =>
    show c.val = if C = 1 then 0 else c.val
    split
    · have := c.isLt; omega
    · rfl

theorem rowStretch_apply {α : Type} {N C : Nat} (h : (⟨2, ![1, C]⟩ : Shape).BroadcastsInDim ⟨2, ![N, C]⟩ ![0, 1])
    (x : (⟨2, ![1, C]⟩ : Shape).Idx → α) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) ?_
  intro a
  match a with
  | ⟨0, _⟩ =>
    show (0 : Nat) = if (1 : Nat) = 1 then 0 else n.val
    rw [if_pos rfl]
  | ⟨1, _⟩ =>
    show c.val = if C = 1 then 0 else c.val
    split
    · have := c.isLt; omega
    · rfl

theorem ofMat_apply {R C : Nat} (x : FVec Ideal ⟨2, ![R, C]⟩ .f32) (n : Fin R) (j : Fin C) :
    Cert.Spec.ofMat x n j = x (ix2 n j) := rfl

theorem zero_eq : Ideal.ofBits .f32 0x00000000#32 = Cert.Spec.zero := rfl

def wrapW (b0 : (⟨0, ![]⟩ : Shape).BroadcastsInDim ⟨1, ![1200000]⟩ ![]) (s : IVec ⟨1, ![1200000]⟩ 32) : IVec ⟨1, ![1200000]⟩ 32 :=
  select (cmpi .slt s (broadcastInDim ⟨1, ![1200000]⟩ ![] b0 (constantI ⟨0, ![]⟩ 32 0#32)))
    (addi s (broadcastInDim ⟨1, ![1200000]⟩ ![] b0 (constantI ⟨0, ![]⟩ 32 100000#32))) s

theorem wrapW_apply (b0 : (⟨0, ![]⟩ : Shape).BroadcastsInDim ⟨1, ![1200000]⟩ ![]) (s : IVec ⟨1, ![1200000]⟩ 32) (i : (⟨1, ![1200000]⟩ : Shape).Idx) :
    wrapW b0 s i = Cert.Spec.wrapped (s i) := by
  unfold wrapW Cert.Spec.wrapped
  rw [select_apply]
  rfl

section Agg
variable {C : Nat}
  (gd : GatherDims ⟨2, ![100000, C]⟩ ⟨2, ![1200000, 1]⟩ ⟨2, ![1200000, C]⟩)
  (sd : ScatterDims ⟨2, ![100000, C]⟩ ⟨2, ![1200000, 1]⟩ ⟨2, ![1200000, C]⟩)
  (b0 : (⟨0, ![]⟩ : Shape).BroadcastsInDim ⟨1, ![1200000]⟩ ![])
  (b1 : (⟨1, ![1200000]⟩ : Shape).BroadcastsInDim ⟨2, ![1200000, 1]⟩ ![0])
  (b2 : (⟨2, ![1200000, 1]⟩ : Shape).BroadcastsInDim ⟨2, ![1200000, C]⟩ ![0, 1])
  (b3 : (⟨0, ![]⟩ : Shape).BroadcastsInDim ⟨2, ![100000, C]⟩ ![])

abbrev aggG (hl : FVec Ideal ⟨2, ![100000, C]⟩ .f32) (s d : IVec ⟨1, ![1200000]⟩ 32) (en : FVec Ideal ⟨2, ![1200000, 1]⟩ .f32) :
    FVec Ideal ⟨2, ![100000, C]⟩ .f32 :=
  Host.scatterAdd sd
    (broadcastInDim ⟨2, ![100000, C]⟩ ![] b3 (constant (F := Ideal) ⟨0, ![]⟩ .f32 0x00000000#32))
    (broadcastInDim ⟨2, ![1200000, 1]⟩ ![0] b1 d)
    (mulf (Host.gather gd hl (broadcastInDim ⟨2, ![1200000, 1]⟩ ![0] b1 (wrapW b0 s)))
      (broadcastInDim ⟨2, ![1200000, C]⟩ ![0, 1] b2 en))

theorem msg_apply (hoff : gd.offsetDims = [1]) (hcoll : gd.collapsedSliceDims = [0])
    (hob : gd.operandBatchingDims = []) (hsim : gd.startIndexMap = [0]) (hgivd : gd.indexVectorDim = 1)
    (hl : FVec Ideal ⟨2, ![100000, C]⟩ .f32) (s : IVec ⟨1, ![1200000]⟩ 32) (en : FVec Ideal ⟨2, ![1200000, 1]⟩ .f32)
    (e : Fin 1200000) (j : Fin C) :
    mulf (Host.gather gd hl (broadcastInDim ⟨2, ![1200000, 1]⟩ ![0] b1 (wrapW b0 s)))
        (broadcastInDim ⟨2, ![1200000, C]⟩ ![0, 1] b2 en) (ix2 e j)
      = Cert.Spec.ofMat hl (Cert.Spec.rowOf (s (ix1 e))) j * en (ix2 e (0 : Fin 1)) := by
  have hw : (broadcastInDim ⟨2, ![1200000, 1]⟩ ![0] b1 (wrapW b0 s)) (ix2 e (0 : Fin 1)) = Cert.Spec.wrapped (s (ix1 e)) :=
    (col_apply b1 (wrapW b0 s) e 0).trans (wrapW_apply b0 s (ix1 e))
  refine (mulf_apply _ _ _).trans ?_
  refine congrArg₂ (fun a b : EReal => a * b) ?_ (colStretch_apply b2 en e j)
  refine (Cert.LibRows.gather_rows2 (by omega) gd hoff hcoll hob hsim hgivd hl _ e j).trans ?_
  refine (congrArg (fun r : Fin 100000 => hl (ix2 r j)) (Fin.ext ?_)).trans (ofMat_apply hl _ j).symm
  show min (broadcastInDim ⟨2, ![1200000, 1]⟩ ![0] b1 (wrapW b0 s) (ix2 e (0 : Fin 1))).toInt.toNat (100000 - 1)
    = (Cert.Spec.rowOf (s (ix1 e))).val
  rw [hw]
  rfl

theorem aggG_apply (hoff : gd.offsetDims = [1]) (hcoll : gd.collapsedSliceDims = [0])
    (hob : gd.operandBatchingDims = []) (hsim : gd.startIndexMap = [0]) (hgivd : gd.indexVectorDim = 1)
    (huw : sd.updateWindowDims = [1]) (hiw : sd.insertedWindowDims = [0])
    (hsd : sd.scatterDimsToOperandDims = [0]) (hivd : sd.indexVectorDim = 1)
    (hl : FVec Ideal ⟨2, ![100000, C]⟩ .f32) (s d : IVec ⟨1, ![1200000]⟩ 32) (en : FVec Ideal ⟨2, ![1200000, 1]⟩ .f32)
    (n : Fin 100000) (j : Fin C) :
    aggG gd sd b0 b1 b2 b3 hl s d en (ix2 n j)
      = Cert.Spec.zero + ∑ e ∈ Finset.univ.filter (fun e : Fin 1200000 => (d (ix1 e)).toInt = (n.val : Int)),
          Cert.Spec.ofMat hl (Cert.Spec.rowOf (s (ix1 e))) j * en (ix2 e (0 : Fin 1)) := by
  refine (congrFun (hostScatterAdd_eq sd _ _ _) (ix2 n j)).trans ?_
  refine (Cert.LibRows.scatterAdd_rows2 sd huw hiw hsd hivd _ _ _ n j).trans ?_
  refine congrArg₂ (fun a b : EReal => a + b)
    ((broadcastInDim_scalar_apply b3 _ _).trans ((constant_apply _ _).trans zero_eq)) ?_
  refine Finset.sum_congr (Finset.filter_congr fun e _ => by rw [col_apply]) fun e _ => ?_
  exact msg_apply gd b0 b1 b2 hoff hcoll hob hsim hgivd hl s en e j

variable (b4 : (⟨1, ![100000]⟩ : Shape).BroadcastsInDim ⟨2, ![100000, 1]⟩ ![0])
  (b5 : (⟨2, ![100000, 1]⟩ : Shape).BroadcastsInDim ⟨2, ![100000, C]⟩ ![0, 1])
  (b6 : (⟨1, ![C]⟩ : Shape).BroadcastsInDim ⟨2, ![1, C]⟩ ![1])
  (b7 : (⟨2, ![1, C]⟩ : Shape).BroadcastsInDim ⟨2, ![100000, C]⟩ ![0, 1])

abbrev convG (hl : FVec Ideal ⟨2, ![100000, C]⟩ .f32) (s d : IVec ⟨1, ![1200000]⟩ 32) (nrm : FVec Ideal ⟨1, ![1200000]⟩ .f32)
    (dv : FVec Ideal ⟨1, ![100000]⟩ .f32) (b : FVec Ideal ⟨1, ![C]⟩ .f32) : FVec Ideal ⟨2, ![100000, C]⟩ .f32 :=
  addf
    (addf (aggG gd sd b0 b1 b2 b3 hl s d (broadcastInDim ⟨2, ![1200000, 1]⟩ ![0] b1 nrm))
      (mulf hl (broadcastInDim ⟨2, ![100000, C]⟩ ![0, 1] b5 (broadcastInDim ⟨2, ![100000, 1]⟩ ![0] b4 (mulf dv dv)))))
    (broadcastInDim ⟨2, ![100000, C]⟩ ![0, 1] b7 (broadcastInDim ⟨2, ![1, C]⟩ ![1] b6 b))

theorem convG_apply (hoff : gd.offsetDims = [1]) (hcoll : gd.collapsedSliceDims = [0])
    (hob : gd.operandBatchingDims = []) (hsim : gd.startIndexMap = [0]) (hgivd : gd.indexVectorDim = 1)
    (huw : sd.updateWindowDims = [1]) (hiw : sd.insertedWindowDims = [0])
    (hsd : sd.scatterDimsToOperandDims = [0]) (hivd : sd.indexVectorDim = 1)
    (hl : FVec Ideal ⟨2, ![100000, C]⟩ .f32) (s d : IVec ⟨1, ![1200000]⟩ 32) (nrm : FVec Ideal ⟨1, ![1200000]⟩ .f32)
    (dv : FVec Ideal ⟨1, ![100000]⟩ .f32) (b : FVec Ideal ⟨1, ![C]⟩ .f32) (n : Fin 100000) (j : Fin C) :
    convG gd sd b0 b1 b2 b3 b4 b5 b6 b7 hl s d nrm dv b (ix2 n j)
      = ((Cert.Spec.zero + ∑ e ∈ Finset.univ.filter (fun e : Fin 1200000 => (d (ix1 e)).toInt = (n.val : Int)),
            Cert.Spec.ofMat hl (Cert.Spec.rowOf (s (ix1 e))) j * nrm (ix1 e))
          + Cert.Spec.ofMat hl n j * (dv (ix1 n) * dv (ix1 n))) + b (ix1 j) := by
  refine (addf_apply _ _ _).trans ?_
  refine congrArg₂ (fun a b : EReal => a + b) ?_ ((rowStretch_apply b7 _ n j).trans (row_apply b6 b 0 j))
  refine (addf_apply _ _ _).trans ?_
  refine congrArg₂ (fun a b : EReal => a + b) ?_ ?_
  · refine (aggG_apply gd sd b0 b1 b2 b3 hoff hcoll hob hsim hgivd huw hiw hsd hivd hl s d _ n j).trans ?_
    refine congrArg (fun t : EReal => Cert.Spec.zero + t) (Finset.sum_congr rfl fun e _ => ?_)
    exact congrArg (fun t : EReal => Cert.Spec.ofMat hl (Cert.Spec.rowOf (s (ix1 e))) j * t) (col_apply b1 nrm e 0)
  · refine (mulf_apply _ _ _).trans ?_
    refine congrArg₂ (fun a t : EReal => a * t) (ofMat_apply hl n j).symm ?_
    exact (colStretch_apply b5 _ n j).trans ((col_apply b4 _ n 0).trans (mulf_apply dv dv (ix1 n)))
end Agg

end Cert.ConvLib
end
-- ==== Proof.KConv.lean ====
import proofs.«426946_j20469814133009_2_alg».proof.Proof.Gen.KernelIdeal.Launch
import proofs.«426946_j20469814133009_2_alg».proof.Proof.Spec
import proofs.«426946_j20469814133009_2_alg».proof.Proof.LibRows
import proofs.«426946_j20469814133009_2_alg».proof.Proof.ConvLib
import Idealize.ShloMosaic.PureOps.Ideal
import Idealize.ShloMosaic.Lib.ValueIdx
import Idealize.ShloMosaic.Lib.ValueLayout
import Idealize.ShloMosaic.Lib.StableHlo.Run

noncomputable section

open scoped BigOperators

namespace Cert.KernelIdeal.KV

open Idealize.ShloMosaic Idealize.ShloMosaic.ValueIdx Idealize.ShloMosaic.StableHlo
open Cert.KernelIdeal Cert.KernelIdeal.Gen

abbrev agg64 (hl : FVec Ideal S100000x64 .f32) (s d : IVec S1200000 32) (en : FVec Ideal S1200000x1 .f32) :
    FVec Ideal S100000x64 .f32 :=
  Cert.ConvLib.aggG gather_S100000x64_S1200000x1_S1200000x64_1_0_n_n_0_1_164 scatter_S100000x64_S1200000x1_S1200000x64_1_0_0_1
    bcast_S_S1200000 bcast_S1200000_S1200000x1_0 bcast_S1200000x1_S1200000x64_0_1 bcast_S_S100000x64 hl s d en

theorem agg64_apply (hl : FVec Ideal S100000x64 .f32) (s d : IVec S1200000 32) (en : FVec Ideal S1200000x1 .f32)
    (n : Fin 100000) (j : Fin 64) :
    agg64 hl s d en (ix2 n j)
      = Cert.Spec.zero + ∑ e ∈ Finset.univ.filter (fun e : Fin 1200000 => (d (ix1 e)).toInt = (n.val : Int)),
          Cert.Spec.ofMat hl (Cert.Spec.rowOf (s (ix1 e))) j * en (ix2 e (0 : Fin 1)) :=
  Cert.ConvLib.aggG_apply gather_S100000x64_S1200000x1_S1200000x64_1_0_n_n_0_1_164 scatter_S100000x64_S1200000x1_S1200000x64_1_0_0_1
    bcast_S_S1200000 bcast_S1200000_S1200000x1_0 bcast_S1200000x1_S1200000x64_0_1 bcast_S_S100000x64
    rfl rfl rfl rfl rfl rfl rfl rfl rfl hl s d en n j

abbrev agg2 (hl : FVec Ideal S100000x2 .f32) (s d : IVec S1200000 32) (en : FVec Ideal S1200000x1 .f32) :
    FVec Ideal S100000x2 .f32 :=
  Cert.ConvLib.aggG gather_S100000x2_S1200000x1_S1200000x2_1_0_n_n_0_1_12 scatter_S100000x2_S1200000x1_S1200000x2_1_0_0_1
    bcast_S_S1200000 bcast_S1200000_S1200000x1_0 bcast_S1200000x1_S1200000x2_0_1 bcast_S_S100000x2 hl s d en

theorem agg2_apply (hl : FVec Ideal S100000x2 .f32) (s d : IVec S1200000 32) (en : FVec Ideal S1200000x1 .f32)
    (n : Fin 100000) (j : Fin 2) :
    agg2 hl s d en (ix2 n j)
      = Cert.Spec.zero + ∑ e ∈ Finset.univ.filter (fun e : Fin 1200000 => (d (ix1 e)).toInt = (n.val : Int)),
          Cert.Spec.ofMat hl (Cert.Spec.rowOf (s (ix1 e))) j * en (ix2 e (0 : Fin 1)) :=
  Cert.ConvLib.aggG_apply gather_S100000x2_S1200000x1_S1200000x2_1_0_n_n_0_1_12 scatter_S100000x2_S1200000x1_S1200000x2_1_0_0_1
    bcast_S_S1200000 bcast_S1200000_S1200000x1_0 bcast_S1200000x1_S1200000x2_0_1 bcast_S_S100000x2
    rfl rfl rfl rfl rfl rfl rfl rfl rfl hl s d en n j

-- Whichever buffer holds the aggregate, its entry (n, j) is the sum over the edges into n.
theorem agg64_read {T hl : FVec Ideal S100000x64 .f32} {s d : IVec S1200000 32} {en : FVec Ideal S1200000x1 .f32}
    (h : T = agg64 hl s d en) (n : Fin 100000) (j : Fin 64) :
    Cert.Spec.ofMat T n j
      = Cert.Spec.zero + ∑ e ∈ Finset.univ.filter (fun e : Fin 1200000 => (d (ix1 e)).toInt = (n.val : Int)),
          Cert.Spec.ofMat hl (Cert.Spec.rowOf (s (ix1 e))) j * en (ix2 e (0 : Fin 1)) :=
  h ▸ agg64_apply hl s d en n j

theorem agg2_read {T hl : FVec Ideal S100000x2 .f32} {s d : IVec S1200000 32} {en : FVec Ideal S1200000x1 .f32}
    (h : T = agg2 hl s d en) (n : Fin 100000) (j : Fin 2) :
    Cert.Spec.ofMat T n j
      = Cert.Spec.zero + ∑ e ∈ Finset.univ.filter (fun e : Fin 1200000 => (d (ix1 e)).toInt = (n.val : Int)),
          Cert.Spec.ofMat hl (Cert.Spec.rowOf (s (ix1 e))) j * en (ix2 e (0 : Fin 1)) :=
  h ▸ agg2_apply hl s d en n j

-- A vector recast as a one-row matrix keeps its entries.
theorem row_read {C : Nat} {T : FVec Ideal ⟨2, ![1, C]⟩ .f32} {v : FVec Ideal ⟨1, ![C]⟩ .f32}
    {hc : (⟨1, ![C]⟩ : Shape).ShapeCasts ⟨2, ![1, C]⟩} (h : T = shapeCast ⟨2, ![1, C]⟩ v hc) (j : Fin C) :
    Cert.Spec.ofMat T 0 j = v (ix1 j) :=
  h ▸ shapeCast_a_1a_apply v hc 0 j

set_option maxHeartbeats 4000000 in
theorem st1_v43_term (W : Valuation τ sig (Elt Ideal)) :
    (StableHlo.after (hostOps1 (F := Ideal)) W (Proc.devRef .tc main_v43) : FVec Ideal S100000x64 .f32)
      = agg64 (W (Proc.devRef .tc main_v31)) (W (Proc.devRef .tc main_v1)) (W (Proc.devRef .tc main_v3))
          (W (Proc.devRef .tc main_v30)) := by
  after_results
  rfl

theorem st1_v44_term (W : Valuation τ sig (Elt Ideal)) :
    (StableHlo.after (hostOps1 (F := Ideal)) W (Proc.devRef .tc main_v44) : FVec Ideal S1x64 .f32)
      = shapeCast S1x64 (W (Proc.devRef .tc main_arg2) : FVec Ideal S64 .f32) shapeCasts_S64_S1x64 := by
  after_results
  rfl

set_option maxHeartbeats 4000000 in
theorem st4_v76_term (W : Valuation τ sig (Elt Ideal)) :
    (StableHlo.after (hostOps4 (F := Ideal)) W (Proc.devRef .tc main_v76) : FVec Ideal S100000x64 .f32)
      = agg64 (W (Proc.devRef .tc main_v64)) (W (Proc.devRef .tc main_v1)) (W (Proc.devRef .tc main_v3))
          (W (Proc.devRef .tc main_v30)) := by
  after_results
  rfl

theorem st4_v77_term (W : Valuation τ sig (Elt Ideal)) :
    (StableHlo.after (hostOps4 (F := Ideal)) W (Proc.devRef .tc main_v77) : FVec Ideal S1x64 .f32)
      = shapeCast S1x64 (W (Proc.devRef .tc main_v63) : FVec Ideal S64 .f32) shapeCasts_S64_S1x64 := by
  after_results
  rfl

set_option maxHeartbeats 4000000 in
theorem st7_v108_term (W : Valuation τ sig (Elt Ideal)) :
    (StableHlo.after (hostOps7 (F := Ideal)) W (Proc.devRef .tc main_v108) : FVec Ideal S100000x64 .f32)
      = agg64 (W (Proc.devRef .tc main_v96)) (W (Proc.devRef .tc main_v1)) (W (Proc.devRef .tc main_v3))
          (W (Proc.devRef .tc main_v30)) := by
  after_results
  rfl

theorem st7_v109_term (W : Valuation τ sig (Elt Ideal)) :
    (StableHlo.after (hostOps7 (F := Ideal)) W (Proc.devRef .tc main_v109) : FVec Ideal S1x64 .f32)
      = shapeCast S1x64 (W (Proc.devRef .tc main_v95) : FVec Ideal S64 .f32) shapeCasts_S64_S1x64 := by
  after_results
  rfl

set_option maxHeartbeats 4000000 in
theorem st10_v136_term (W : Valuation τ sig (Elt Ideal)) :
    (StableHlo.after (hostOps10 (F := Ideal)) W (Proc.devRef .tc main_v136) : FVec Ideal S100000x2 .f32)
      = agg2 (W (Proc.devRef .tc main_v124)) (W (Proc.devRef .tc main_v1)) (W (Proc.devRef .tc main_v3))
          (W (Proc.devRef .tc main_v30)) := by
  after_results
  rfl

theorem st10_v137_term (W : Valuation τ sig (Elt Ideal)) :
    (StableHlo.after (hostOps10 (F := Ideal)) W (Proc.devRef .tc main_v137) : FVec Ideal S1x2 .f32)
      = shapeCast S1x2 (W (Proc.devRef .tc main_arg6) : FVec Ideal S2 .f32) shapeCasts_S2_S1x2 := by
  after_results
  rfl

end Cert.KernelIdeal.KV

end
-- ==== Proof.KBnH.lean ====
import proofs.«426946_j20469814133009_2_alg».proof.Proof.Gen.KernelIdeal.Launch
import proofs.«426946_j20469814133009_2_alg».proof.Proof.Spec
import proofs.«426946_j20469814133009_2_alg».proof.Proof.LibRows
import Idealize.ShloMosaic.Lib.StableHlo.Run
import Idealize.ShloMosaic.Lib.ValueLayout
import Idealize.ShloMosaic.PureOps.Ideal

noncomputable section

open scoped BigOperators

namespace Cert.KernelIdeal.KV

open Idealize.ShloMosaic Idealize.ShloMosaic.ValueIdx Idealize.ShloMosaic.StableHlo
open Cert.KernelIdeal Cert.KernelIdeal.Gen Cert.LibRows

section Stretch2
variable (W : Valuation τ sig (Elt Ideal))

theorem st2_mean (j : Fin 64) :
    Cert.Spec.ofMat (StableHlo.after (hostOps2 (F := Ideal)) W (Proc.devRef .tc main_v47)) 0 j
      = Ideal.div (Cert.Spec.ofMat (W (Proc.devRef .tc main_v45_1)) 0 j) Cert.Spec.nNodes := by
  show (StableHlo.after (hostOps2 (F := Ideal)) W (Proc.devRef .tc main_v47) : S1x64.Idx → EReal) (ix2 0 j) = _
  after_results <;> rfl

theorem st2_var (j : Fin 64) :
    Cert.Spec.ofMat (StableHlo.after (hostOps2 (F := Ideal)) W (Proc.devRef .tc main_v51)) 0 j
      = Ideal.div (Cert.Spec.ofMat (W (Proc.devRef .tc main_v45_2)) 0 j) Cert.Spec.nNodes
        - Ideal.div (Cert.Spec.ofMat (W (Proc.devRef .tc main_v45_1)) 0 j) Cert.Spec.nNodes
          * Ideal.div (Cert.Spec.ofMat (W (Proc.devRef .tc main_v45_1)) 0 j) Cert.Spec.nNodes := by
  show (StableHlo.after (hostOps2 (F := Ideal)) W (Proc.devRef .tc main_v51) : S1x64.Idx → EReal) (ix2 0 j) = _
  after_results <;> rfl

theorem st2_zero (i : S100000x64.Idx) :
    (StableHlo.after (hostOps2 (F := Ideal)) W (Proc.devRef .tc main_v52) : S100000x64.Idx → EReal) i = Cert.Spec.zero := by
  after_results <;> rfl

theorem st2_g (j : Fin 64) :
    Cert.Spec.ofMat (StableHlo.after (hostOps2 (F := Ideal)) W (Proc.devRef .tc main_v55)) 0 j
      = Cert.Spec.rowOfMat (W (Proc.devRef .tc main_arg7)) 0 j := by
  show (StableHlo.after (hostOps2 (F := Ideal)) W (Proc.devRef .tc main_v55) : S1x64.Idx → EReal) (ix2 0 j) = _
  after_results
  exact rowRow_apply 0 _ _ _ _ 0 rfl 0 j

theorem st2_b (j : Fin 64) :
    Cert.Spec.ofMat (StableHlo.after (hostOps2 (F := Ideal)) W (Proc.devRef .tc main_v58)) 0 j
      = Cert.Spec.rowOfMat (W (Proc.devRef .tc main_arg8)) 0 j := by
  show (StableHlo.after (hostOps2 (F := Ideal)) W (Proc.devRef .tc main_v58) : S1x64.Idx → EReal) (ix2 0 j) = _
  after_results
  exact rowRow_apply 0 _ _ _ _ 0 rfl 0 j

end Stretch2

section Stretch3
variable (W : Valuation τ sig (Elt Ideal))

theorem st3_w :
    Cert.Spec.ofMat (StableHlo.after (hostOps3 (F := Ideal)) W (Proc.devRef .tc main_v61))
      = Cert.Spec.ofCube (W (Proc.devRef .tc main_arg3)) 0 := by
  funext k j
  show (StableHlo.after (hostOps3 (F := Ideal)) W (Proc.devRef .tc main_v61) : S64x64.Idx → EReal) (ix2 k j) = _
  after_results
  exact slab_apply 0 _ _ _ 0 rfl k j

theorem st3_b :
    Cert.Spec.ofVec (StableHlo.after (hostOps3 (F := Ideal)) W (Proc.devRef .tc main_v63))
      = Cert.Spec.rowOfMat (W (Proc.devRef .tc main_arg4)) 0 := by
  funext j
  show (StableHlo.after (hostOps3 (F := Ideal)) W (Proc.devRef .tc main_v63) : S64.Idx → EReal) (ix1 j) = _
  after_results
  exact rowVec_apply 0 _ _ _ 0 rfl j

end Stretch3

section Stretch5
variable (W : Valuation τ sig (Elt Ideal))

theorem st5_mean (j : Fin 64) :
    Cert.Spec.ofMat (StableHlo.after (hostOps5 (F := Ideal)) W (Proc.devRef .tc main_v80)) 0 j
      = Ideal.div (Cert.Spec.ofMat (W (Proc.devRef .tc main_v78_1)) 0 j) Cert.Spec.nNodes := by
  show (StableHlo.after (hostOps5 (F := Ideal)) W (Proc.devRef .tc main_v80) : S1x64.Idx → EReal) (ix2 0 j) = _
  after_results <;> rfl

theorem st5_var (j : Fin 64) :
    Cert.Spec.ofMat (StableHlo.after (hostOps5 (F := Ideal)) W (Proc.devRef .tc main_v84)) 0 j
      = Ideal.div (Cert.Spec.ofMat (W (Proc.devRef .tc main_v78_2)) 0 j) Cert.Spec.nNodes
        - Ideal.div (Cert.Spec.ofMat (W (Proc.devRef .tc main_v78_1)) 0 j) Cert.Spec.nNodes
          * Ideal.div (Cert.Spec.ofMat (W (Proc.devRef .tc main_v78_1)) 0 j) Cert.Spec.nNodes := by
  show (StableHlo.after (hostOps5 (F := Ideal)) W (Proc.devRef .tc main_v84) : S1x64.Idx → EReal) (ix2 0 j) = _
  after_results <;> rfl

theorem st5_g (j : Fin 64) :
    Cert.Spec.ofMat (StableHlo.after (hostOps5 (F := Ideal)) W (Proc.devRef .tc main_v87)) 0 j
      = Cert.Spec.rowOfMat (W (Proc.devRef .tc main_arg7)) 1 j := by
  show (StableHlo.after (hostOps5 (F := Ideal)) W (Proc.devRef .tc main_v87) : S1x64.Idx → EReal) (ix2 0 j) = _
  after_results
  exact rowRow_apply 1 _ _ _ _ 1 rfl 0 j

theorem st5_b (j : Fin 64) :
    Cert.Spec.ofMat (StableHlo.after (hostOps5 (F := Ideal)) W (Proc.devRef .tc main_v90)) 0 j
      = Cert.Spec.rowOfMat (W (Proc.devRef .tc main_arg8)) 1 j := by
  show (StableHlo.after (hostOps5 (F := Ideal)) W (Proc.devRef .tc main_v90) : S1x64.Idx → EReal) (ix2 0 j) = _
  after_results
  exact rowRow_apply 1 _ _ _ _ 1 rfl 0 j

end Stretch5

section Stretch6
variable (W : Valuation τ sig (Elt Ideal))

theorem st6_w :
    Cert.Spec.ofMat (StableHlo.after (hostOps6 (F := Ideal)) W (Proc.devRef .tc main_v93))
      = Cert.Spec.ofCube (W (Proc.devRef .tc main_arg3)) 1 := by
  funext k j
  show (StableHlo.after (hostOps6 (F := Ideal)) W (Proc.devRef .tc main_v93) : S64x64.Idx → EReal) (ix2 k j) = _
  after_results
  exact slab_apply 1 _ _ _ 1 rfl k j

theorem st6_b :
    Cert.Spec.ofVec (StableHlo.after (hostOps6 (F := Ideal)) W (Proc.devRef .tc main_v95))
      = Cert.Spec.rowOfMat (W (Proc.devRef .tc main_arg4)) 1 := by
  funext j
  show (StableHlo.after (hostOps6 (F := Ideal)) W (Proc.devRef .tc main_v95) : S64.Idx → EReal) (ix1 j) = _
  after_results
  exact rowVec_apply 1 _ _ _ 1 rfl j

end Stretch6

section Stretch8
variable (W : Valuation τ sig (Elt Ideal))

theorem st8_mean (j : Fin 64) :
    Cert.Spec.ofMat (StableHlo.after (hostOps8 (F := Ideal)) W (Proc.devRef .tc main_v112)) 0 j
      = Ideal.div (Cert.Spec.ofMat (W (Proc.devRef .tc main_v110_1)) 0 j) Cert.Spec.nNodes := by
  show (StableHlo.after (hostOps8 (F := Ideal)) W (Proc.devRef .tc main_v112) : S1x64.Idx → EReal) (ix2 0 j) = _
  after_results <;> rfl

theorem st8_var (j : Fin 64) :
    Cert.Spec.ofMat (StableHlo.after (hostOps8 (F := Ideal)) W (Proc.devRef .tc main_v116)) 0 j
      = Ideal.div (Cert.Spec.ofMat (W (Proc.devRef .tc main_v110_2)) 0 j) Cert.Spec.nNodes
        - Ideal.div (Cert.Spec.ofMat (W (Proc.devRef .tc main_v110_1)) 0 j) Cert.Spec.nNodes
          * Ideal.div (Cert.Spec.ofMat (W (Proc.devRef .tc main_v110_1)) 0 j) Cert.Spec.nNodes := by
  show (StableHlo.after (hostOps8 (F := Ideal)) W (Proc.devRef .tc main_v116) : S1x64.Idx → EReal) (ix2 0 j) = _
  after_results <;> rfl

theorem st8_g (j : Fin 64) :
    Cert.Spec.ofMat (StableHlo.after (hostOps8 (F := Ideal)) W (Proc.devRef .tc main_v119)) 0 j
      = Cert.Spec.rowOfMat (W (Proc.devRef .tc main_arg7)) 2 j := by
  show (StableHlo.after (hostOps8 (F := Ideal)) W (Proc.devRef .tc main_v119) : S1x64.Idx → EReal) (ix2 0 j) = _
  after_results
  exact rowRow_apply 2 _ _ _ _ 2 rfl 0 j

theorem st8_b (j : Fin 64) :
    Cert.Spec.ofMat (StableHlo.after (hostOps8 (F := Ideal)) W (Proc.devRef .tc main_v122)) 0 j
      = Cert.Spec.rowOfMat (W (Proc.devRef .tc main_arg8)) 2 j := by
  show (StableHlo.after (hostOps8 (F := Ideal)) W (Proc.devRef .tc main_v122) : S1x64.Idx → EReal) (ix2 0 j) = _
  after_results
  exact rowRow_apply 2 _ _ _ _ 2 rfl 0 j

end Stretch8

end Cert.KernelIdeal.KV
-- ==== Proof.KChainL0.lean ====
import proofs.«426946_j20469814133009_2_alg».proof.Proof.Gen.KernelIdeal.Frame
import proofs.«426946_j20469814133009_2_alg».proof.Proof.KSpec
import proofs.«426946_j20469814133009_2_alg».proof.Proof.KChainAlg
import proofs.«426946_j20469814133009_2_alg».proof.Proof.KChainC0
import proofs.«426946_j20469814133009_2_alg».proof.Proof.KLin0
import proofs.«426946_j20469814133009_2_alg».proof.Proof.KComb1
import proofs.«426946_j20469814133009_2_alg».proof.Proof.KBn2
import proofs.«426946_j20469814133009_2_alg».proof.Proof.KG
import proofs.«426946_j20469814133009_2_alg».proof.Proof.KConv
import proofs.«426946_j20469814133009_2_alg».proof.Proof.KBnH

noncomputable section

open scoped BigOperators

namespace Cert.KernelIdeal.KV

open Idealize.ShloMosaic Idealize.ShloMosaic.TcCoe Idealize.ShloMosaic.ValueIdx Cert.KernelIdeal Cert.KernelIdeal.Gen Cert.Spec

variable (m : (ℓ : Loc nD τ sig) → Buf (Elt Ideal) ℓ) (ρ : Dev nD → PrngReg)

theorem graph1 (c : Dev nD) (ei : IVec S2x1200000 32) (bt : IVec S100000 32)
    (ha9 : (W0 m ρ c (Proc.devRef .tc main_arg9) : IVec S2x1200000 32) = ei) (ha10 : (W0 m ρ c (Proc.devRef .tc main_arg10) : IVec S100000 32) = bt) :
    (∀ e, (W1 m ρ c (Proc.devRef .tc main_v1) : IVec S1200000 32) (ix1 e) = src ei e) ∧ (∀ e, (W1 m ρ c (Proc.devRef .tc main_v3) : IVec S1200000 32) (ix1 e) = dst ei e)
      ∧ (∀ n, (W1 m ρ c (Proc.devRef .tc main_v4) : IVec S100000x1 32) (ix2 n (0 : Fin 1)) = bt (ix1 n))
      ∧ (∀ n, (W1 m ρ c (Proc.devRef .tc main_v14) : FVec Ideal S100000x1 .f32) (ix2 n (0 : Fin 1)) = dinv ei n * dinv ei n)
      ∧ (∀ e, (W1 m ρ c (Proc.devRef .tc main_v30) : FVec Ideal S1200000x1 .f32) (ix2 e (0 : Fin 1)) = enorm ei e) := by
  subst ha9 ha10
  exact ⟨st0_v1 (W0 m ρ c), st0_v3 (W0 m ρ c), st0_v4 (W0 m ρ c), st0_v14 (W0 m ρ c), st0_v30 (W0 m ρ c)⟩

set_option maxHeartbeats 4000000 in
theorem layer0 (c : Dev nD) (ei : IVec S2x1200000 32)
    (x : FVec Ideal S100000x128 .f32) (Win : FVec Ideal S128x64 .f32) (bin : FVec Ideal S64 .f32) (g be : FVec Ideal S3x64 .f32)
    (h1 : ∀ e, (W1 m ρ c (Proc.devRef .tc main_v1) : IVec S1200000 32) (ix1 e) = src ei e)
    (h3 : ∀ e, (W1 m ρ c (Proc.devRef .tc main_v3) : IVec S1200000 32) (ix1 e) = dst ei e)
    (h14 : ∀ n, (W1 m ρ c (Proc.devRef .tc main_v14) : FVec Ideal S100000x1 .f32) (ix2 n (0 : Fin 1)) = dinv ei n * dinv ei n)
    (h30 : ∀ e, (W1 m ρ c (Proc.devRef .tc main_v30) : FVec Ideal S1200000x1 .f32) (ix2 e (0 : Fin 1)) = enorm ei e)
    (ha0 : (W0 m ρ c (Proc.devRef .tc main_arg0) : FVec Ideal S100000x128 .f32) = x) (ha1 : (W0 m ρ c (Proc.devRef .tc main_arg1) : FVec Ideal S128x64 .f32) = Win) (ha2 : (W0 m ρ c (Proc.devRef .tc main_arg2) : FVec Ideal S64 .f32) = bin)
    (ha7 : (W0 m ρ c (Proc.devRef .tc main_arg7) : FVec Ideal S3x64 .f32) = g) (ha8 : (W0 m ρ c (Proc.devRef .tc main_arg8) : FVec Ideal S3x64 .f32) = be) :
    ofMat (W6 m ρ c (Proc.devRef .tc main_v59) : FVec Ideal S100000x64 .f32)
      = addT (bnWith (varK (reluT (conv ei (lin (ofMat x) (ofMat Win)) (ofVec bin)))) (reluT (conv ei (lin (ofMat x) (ofMat Win)) (ofVec bin))) (rowOfMat g 0) (rowOfMat be 0)) (fun _ _ => zero) := by

  have hL : ofMat (W2 m ρ c (Proc.devRef .tc main_v31) : FVec Ideal S100000x64 .f32) = lin (ofMat x) (ofMat Win) := by
    have e : (W2 m ρ c (Proc.devRef .tc main_v31) : FVec Ideal S100000x64 .f32) = toMat (lin (ofMat (W1 m ρ c (Proc.devRef .tc main_arg0) : FVec Ideal S100000x128 .f32)) (ofMat (W1 m ρ c (Proc.devRef .tc main_arg1) : FVec Ideal S128x64 .f32))) :=
      (W2_arr m ρ c 2).trans (arr0_2 (V1 m ρ) c)
    rw [e, ofMat_toMat, s1 m ρ c main_arg0 (by decide), s1 m ρ c main_arg1 (by decide), ha0, ha1]
  have hbs : ∀ j, (W2 m ρ c (Proc.devRef .tc main_arg2) : FVec Ideal S64 .f32) (ix1 j) = ofVec bin j := fun j => by
    rw [c0_2 m ρ c main_arg2 (by decide), ha2]; rfl
  generalize lin (ofMat x) (ofMat Win) = L at hL ⊢
  generalize ofVec bin = bias at hbs ⊢

  have hA : ofMat (W3 m ρ c (Proc.devRef .tc main_v43) : FVec Ideal S100000x64 .f32) = agg ei L := by
    funext n j
    refine (agg64_read (st1_v43_term (W2 m ρ c)) n j).trans ?_
    simp only [s2 m ρ c main_v3 (by decide), s2 m ρ c main_v1 (by decide), s2 m ρ c main_v30 (by decide), h3, h1, h30, hL, agg, inEdges]
  have hb : ∀ j, ofMat (W3 m ρ c (Proc.devRef .tc main_v44) : FVec Ideal S1x64 .f32) 0 j = bias j := fun j =>
    (row_read (st1_v44_term (W2 m ρ c)) j).trans (hbs j)

  have hL' : ofMat (W3 m ρ c (Proc.devRef .tc main_v31) : FVec Ideal S100000x64 .f32) = L := by rw [s3 m ρ c main_v31 (by decide)]; exact hL
  have hsn : ∀ n, ofMat (W3 m ρ c (Proc.devRef .tc main_v14) : FVec Ideal S100000x1 .f32) n 0 = dinv ei n * dinv ei n := fun n => by
    show (W3 m ρ c (Proc.devRef .tc main_v14) : FVec Ideal S100000x1 .f32) (ix2 n (0 : Fin 1)) = _
    rw [c1_3 m ρ c main_v14 (by decide)]; exact h14 n
  have hcomb : Comb1.tab (V3 m ρ) c = reluT (conv ei L bias) :=
    congrArg reluT (combPre_eq_conv ei _ _ _ _ L bias hL' hA hsn hb)
  have hT0 : ofMat (W4 m ρ c (Proc.devRef .tc main_v45_0) : FVec Ideal S100000x64 .f32) = reluT (conv ei L bias) := by
    have e : (W4 m ρ c (Proc.devRef .tc main_v45_0) : FVec Ideal S100000x64 .f32) = toMat (Comb1.tab (V3 m ρ) c) :=
      (W4_arr m ρ c 4).trans (arr1_4 (V3 m ρ) c)
    rw [e, ofMat_toMat, hcomb]
  have hT1 : ofMat (W4 m ρ c (Proc.devRef .tc main_v45_1) : FVec Ideal S1x64 .f32) = sumRow (reluT (conv ei L bias)) := by
    have e : (W4 m ρ c (Proc.devRef .tc main_v45_1) : FVec Ideal S1x64 .f32) = toMat (sumRow (Comb1.tab (V3 m ρ) c)) :=
      (W4_arr m ρ c 5).trans (arr1_5 (V3 m ρ) c)
    rw [e, ofMat_toMat, hcomb]
  have hT2 : ofMat (W4 m ρ c (Proc.devRef .tc main_v45_2) : FVec Ideal S1x64 .f32) = sqSumRow (reluT (conv ei L bias)) := by
    have e : (W4 m ρ c (Proc.devRef .tc main_v45_2) : FVec Ideal S1x64 .f32) = toMat (sqSumRow (Comb1.tab (V3 m ρ) c)) :=
      (W4_arr m ρ c 6).trans (arr1_6 (V3 m ρ) c)
    rw [e, ofMat_toMat, hcomb]

  have hM : ∀ j, ofMat (W5 m ρ c (Proc.devRef .tc main_v47) : FVec Ideal S1x64 .f32) 0 j = Ideal.div (sumRow (reluT (conv ei L bias)) 0 j) nNodes := fun j => by
    refine (st2_mean (W4 m ρ c) j).trans ?_
    rw [hT1]
  have hV : ∀ j, ofMat (W5 m ρ c (Proc.devRef .tc main_v51) : FVec Ideal S1x64 .f32) 0 j = Ideal.div (sqSumRow (reluT (conv ei L bias)) 0 j) nNodes
      - Ideal.div (sumRow (reluT (conv ei L bias)) 0 j) nNodes * Ideal.div (sumRow (reluT (conv ei L bias)) 0 j) nNodes := fun j => by
    refine (st2_var (W4 m ρ c) j).trans ?_
    rw [hT1, hT2]
  have hG : ∀ j, ofMat (W5 m ρ c (Proc.devRef .tc main_v55) : FVec Ideal S1x64 .f32) 0 j = rowOfMat g 0 j := fun j => by
    refine (st2_g (W4 m ρ c) j).trans ?_
    rw [c0_4 m ρ c main_arg7 (by decide), ha7]
  have hB : ∀ j, ofMat (W5 m ρ c (Proc.devRef .tc main_v58) : FVec Ideal S1x64 .f32) 0 j = rowOfMat be 0 j := fun j => by
    refine (st2_b (W4 m ρ c) j).trans ?_
    rw [c0_4 m ρ c main_arg8 (by decide), ha8]

  have hT' : ofMat (W5 m ρ c (Proc.devRef .tc main_v45_0) : FVec Ideal S100000x64 .f32) = reluT (conv ei L bias) := by rw [s5 m ρ c main_v45_0 (by decide)]; exact hT0
  have hR : ofMat (W5 m ρ c (Proc.devRef .tc main_v52) : FVec Ideal S100000x64 .f32) = (fun _ _ => zero) := funext fun n => funext fun j => st2_zero (W4 m ρ c) (ix2 n j)
  have e : (W6 m ρ c (Proc.devRef .tc main_v59) : FVec Ideal S100000x64 .f32) = toMat (bnKern (ofMat (W5 m ρ c (Proc.devRef .tc main_v45_0) : FVec Ideal S100000x64 .f32)) (ofMat (W5 m ρ c (Proc.devRef .tc main_v47) : FVec Ideal S1x64 .f32)) (ofMat (W5 m ρ c (Proc.devRef .tc main_v51) : FVec Ideal S1x64 .f32))
      (ofMat (W5 m ρ c (Proc.devRef .tc main_v55) : FVec Ideal S1x64 .f32)) (ofMat (W5 m ρ c (Proc.devRef .tc main_v58) : FVec Ideal S1x64 .f32)) (ofMat (W5 m ρ c (Proc.devRef .tc main_v52) : FVec Ideal S100000x64 .f32))) :=
    (W6_arr m ρ c 6).trans (arr2_6 (V5 m ρ) c)
  rw [e, ofMat_toMat, hT', hR]
  exact bnKern_eq _ _ _ _ _ _ (rowOfMat g 0) (rowOfMat be 0) hM hV hG hB

end Cert.KernelIdeal.KV

end
-- ==== Proof.KLin3.lean ====
import proofs.«426946_j20469814133009_2_alg».proof.Proof.Gen.KernelIdeal.Frame
import proofs.«426946_j20469814133009_2_alg».proof.Proof.KBnLinLib

noncomputable section

namespace Cert.KernelIdeal.KV

open Cert.KernelIdeal Cert.KernelIdeal.Gen Idealize.ShloMosaic Idealize.ShloMosaic.TcCoe

variable (V : (c : Dev nD) → (b : Ref sig .tc) → Buf (Elt Ideal) ((c : Thread nD τ).loc b))

theorem lin3_ix : BL.Mov win3_0.index ∧ BL.Fix win3_1.index ∧ BL.Mov win3_2.index := by decide +kernel

theorem lin3_out (c : Dev nD) (t : Fin cfg3.N) :
    (dat3 (F := Ideal) V c).flushed 2 t = k3_pay1 (iblk3 V c 0 t) (iblk3 V c 1 t) := by
  show (cfg3.win 2).cut (grid3.coords t) ((dat3 (F := Ideal) V c).after 2 t) = _
  rw [after3_2]
  unfold out3_2
  rw [View.canon_unit_zero BL.zeros]
  simp only [View.ld_unit_zero (S := S5000x64) BL.zeros, View.ld_unit_zero (S := S64x64) BL.zeros]
  rfl

-- block t of the output is block t of the whole matrix product, and the 20 blocks cover the rows
theorem arr3_2 (c : Dev nD) :
    (dat3 (F := Ideal) V c).arrAt 2 cfg3.N
      = Cert.Spec.toMat (Cert.Spec.lin (Cert.Spec.ofMat (V c (Pipeline.arrRef spec3 0))) (Cert.Spec.ofMat (V c (Pipeline.arrRef spec3 1)))) :=
  (dat3 (F := Ideal) V c).arrAt_eq_of_cover 2 _
    (fun t _ => (lin3_out V c t).trans (funext fun j => (BL.pay3_at _ _ j).trans (BL.lin_blk N_3 lin3_ix t _ _
      (win3_0.rect_emb_val t) (win3_1.rect_emb_val t) (win3_2.rect_emb_val t) (fun _ => rfl) (fun _ => rfl) j)))
    fun i => (BL.cover_pt N_3 lin3_ix.2.2 i).imp fun t h =>
      ⟨flush3_2 t, (BL.mem_slice_unit (Pipeline.arrRef spec3 2) _ i).2 h⟩

end Cert.KernelIdeal.KV

end
-- ==== Proof.KComb4.lean ====
import proofs.«426946_j20469814133009_2_alg».proof.Proof.Gen.KernelIdeal.Frame
import proofs.«426946_j20469814133009_2_alg».proof.Proof.KCombLib

noncomputable section

open Idealize.ShloMosaic Idealize.ShloMosaic.TcCoe Idealize.ShloMosaic.Tactic Idealize.ShloMosaic.ValueIdx

namespace Cert.KernelIdeal.KV.Comb4

open Cert.KernelIdeal Cert.KernelIdeal.Gen CombLib

section Pieces
variable {F : FTy → Type} [FloatOps F]
variable {c : Dev nD} {i : grid4.Coords}
  {a1 : Memref sig .tc .vmem S5000x64 .f32} {h1 : a1.IsWhole} {a2 : Memref sig .tc .vmem S5000x64 .f32} {h2 : a2.IsWhole}
  {a3 : Memref sig .tc .vmem S5000x1 .f32} {h3 : a3.IsWhole} {a4 : Memref sig .tc .vmem S1x64 .f32} {h4 : a4.IsWhole}
  {a5 : Memref sig .tc .vmem S5000x64 .f32} {h5 : a5.IsWhole} {a6 : Memref sig .tc .vmem S1x64 .f32} {h6 : a6.IsWhole}
  {a7 : Memref sig .tc .vmem S1x64 .f32} {h7 : a7.IsWhole}
  {x0 x1 : Vec F S5000x64 .f32} {x2 : Vec F S5000x1 .f32} {x3 xo5 xo6 : Vec F S1x64 .f32}

-- point 0 leaves the combined block, and in each row zero plus the block's column sums
theorem outA_eq (hc : cond4_0 i) :
    (out4_A_4 c i a1 h1 a2 h2 a3 h3 a4 h4 a5 h5 a6 h6 a7 h7 hc x0 x1 x2 x3, out4_A_5 c i a1 h1 a2 h2 a3 h3 a4 h4 a5 h5 a6 h6 a7 h7 hc x0 x1 x2 x3, out4_A_6 c i a1 h1 a2 h2 a3 h3 a4 h4 a5 h5 a6 h6 a7 h7 hc x0 x1 x2 x3)
      = (k4_pay3 x0 x1 x2 x3, k4_pay4 x0 x1 x2 x3 (k4_pay1 (F := F)), k4_pay5 x0 x1 x2 x3 (k4_pay2 (F := F))) := by
  unfold out4_A_4 out4_A_5 out4_A_6
  rw [View.read_writes_eq_canon _ _ _ (cover4_A_4 c i a1 h1 a2 h2 a3 h3 a4 h4 a5 h5 a6 h6 a7 h7 hc x0 x1 x2 x3), View.read_writes_eq_canon _ _ _ (cover4_A_5 c i a1 h1 a2 h2 a3 h3 a4 h4 a5 h5 a6 h6 a7 h7 hc x0 x1 x2 x3),
    View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_unit_zero BL.zeros, View.canon_cons_unit_zero (S := S1x64) BL.zeros, View.canon_cons_unit_zero (S := S1x64) BL.zeros]
  simp only [View.readAt_eq_ld, h1.read_unread, h2.read_unread, h3.read_unread, h4.read_unread, h6.read_unread, h7.read_unread,
    View.ld_unit_zero (S := S5000x64) BL.zeros, View.ld_unit_zero (S := S5000x1) BL.zeros, View.ld_unit_zero (S := S1x64) BL.zeros,
    View.readCov_unit_zero (S := S1x64) _ BL.zeros]

-- a later point leaves the combined block, and each row as it was plus the block's column sums
theorem outB_eq (hc : ¬cond4_0 i) :
    (out4_B_4 c i a1 h1 a2 h2 a3 h3 a4 h4 a5 h5 a6 h6 a7 h7 hc x0 x1 x2 x3 xo5 xo6, out4_B_5 c i a1 h1 a2 h2 a3 h3 a4 h4 a5 h5 a6 h6 a7 h7 hc x0 x1 x2 x3 xo5 xo6, out4_B_6 c i a1 h1 a2 h2 a3 h3 a4 h4 a5 h5 a6 h6 a7 h7 hc x0 x1 x2 x3 xo5 xo6)
      = (k4_pay3 x0 x1 x2 x3, k4_pay4 x0 x1 x2 x3 xo5, k4_pay5 x0 x1 x2 x3 xo6) := by
  unfold out4_B_4 out4_B_5 out4_B_6
  rw [View.read_writes_eq_canon _ _ _ (cover4_B_4 c i a1 h1 a2 h2 a3 h3 a4 h4 a5 h5 a6 h6 a7 h7 hc x0 x1 x2 x3 xo5 xo6), View.read_writes_eq_canon _ _ _ (cover4_B_5 c i a1 h1 a2 h2 a3 h3 a4 h4 a5 h5 a6 h6 a7 h7 hc x0 x1 x2 x3 xo5 xo6),
    View.read_writes_eq_canon _ _ _ (cover4_B_6 c i a1 h1 a2 h2 a3 h3 a4 h4 a5 h5 a6 h6 a7 h7 hc x0 x1 x2 x3 xo5 xo6)]
  unfold kernelRun4_B
  dsimp only
  sl_unfold_words
  rw [View.canon_unit_zero BL.zeros, View.canon_unit_zero BL.zeros, View.canon_unit_zero BL.zeros]
  simp only [View.readAt_eq_ld, h1.read_unread, h2.read_unread, h3.read_unread, h4.read_unread, h6.read_unread, h7.read_unread,
    View.ld_unit_zero (S := S5000x64) BL.zeros, View.ld_unit_zero (S := S5000x1) BL.zeros, View.ld_unit_zero (S := S1x64) BL.zeros]

end Pieces

variable (V : (c : Dev nD) → (b : Ref sig .tc) → Buf (Elt Ideal) ((c : Thread nD τ).loc b))

theorem ix : BL.Mov win4_0.index ∧ BL.Mov win4_1.index ∧ BL.Mov win4_2.index ∧ BL.Fix win4_3.index
    ∧ BL.Mov win4_4.index ∧ BL.Fix win4_5.index ∧ BL.Fix win4_6.index := by decide +kernel

-- the run is a step from zero rows, then steps
theorem outs0 (c : Dev nD) (h : 0 < cfg4.N) :
    outsAt4 V c 0 h = step (iblk4 V c 0 ⟨0, h⟩) (iblk4 V c 1 ⟨0, h⟩) (iblk4 V c 2 ⟨0, h⟩) (iblk4 V c 3 ⟨0, h⟩)
      (k4_pay1 (F := Ideal)) (k4_pay2 (F := Ideal)) := by
  exact (outsAt4_A V c ⟨0, h⟩ rfl).trans (outA_eq _)

theorem outsS (c : Dev nD) (n : ℕ) (h : n + 1 < cfg4.N) :
    outsAt4 V c (n + 1) h = step (iblk4 V c 0 ⟨n + 1, h⟩) (iblk4 V c 1 ⟨n + 1, h⟩) (iblk4 V c 2 ⟨n + 1, h⟩)
      (iblk4 V c 3 ⟨n + 1, h⟩) (outsAt4 V c n (Nat.lt_of_succ_lt h)).2.1 (outsAt4 V c n (Nat.lt_of_succ_lt h)).2.2 := by
  have hN : cfg4.N = 20 := N_4
  have hB : ¬(⟨n + 1, h⟩ : Fin cfg4.N).val % 20 = 0 := by dsimp only; omega
  exact (outsAt4_B V c ⟨n + 1, h⟩ hB).trans (outB_eq _)

abbrev arrA (c : Dev nD) : FVec Ideal ⟨2, ![100000, 64]⟩ .f32 := V c (Pipeline.arrRef spec4 0)
abbrev arrH (c : Dev nD) : FVec Ideal ⟨2, ![100000, 64]⟩ .f32 := V c (Pipeline.arrRef spec4 1)
abbrev arrS (c : Dev nD) : FVec Ideal ⟨2, ![100000, 1]⟩ .f32 := V c (Pipeline.arrRef spec4 2)
abbrev arrB (c : Dev nD) : FVec Ideal ⟨2, ![1, 64]⟩ .f32 := V c (Pipeline.arrRef spec4 3)

def run (c : Dev nD) : Run cfg4.N :=
  .ofWin N_4 ix (arrA V c) (arrH V c) (arrS V c) (arrB V c) win4_0.rect_emb_val win4_1.rect_emb_val win4_2.rect_emb_val win4_3.rect_emb_val
    (fun _ _ => rfl) (fun _ _ => rfl) (fun _ _ => rfl) (fun _ _ => rfl) (outsAt4 V c) (outs0 V c) (outsS V c)

abbrev tab (c : Dev nD) : Cert.Spec.Tab 100000 64 :=
  Cert.Spec.reluT (Cert.Spec.combPre (Cert.Spec.ofMat (arrA V c)) (Cert.Spec.ofMat (arrH V c)) (Cert.Spec.ofMat (arrS V c))
    (Cert.Spec.ofMat (arrB V c)))

-- point t returns its rows of the table,
theorem flushed4_eq (c : Dev nD) (t : Fin cfg4.N) :
    (dat4 (F := Ideal) V c).flushed 4 t = ((cfg4.win 4).blk t).view.read (Elt Ideal) (Cert.Spec.toMat (tab V c)) := by
  show (cfg4.win 4).cut (grid4.coords t) ((dat4 (F := Ideal) V c).after 4 t) = _
  rw [after4_4 V c t]
  exact read_mov ix.2.2.2.2.1 N_4 t (win4_4.rect_emb_val t) (fun _ _ => rfl) ((run V c).tab_apply t)

-- and the last point the table's column sums and those of its squares
theorem flushed5_eq (c : Dev nD) (t : Fin cfg4.N) (hf : (cfg4.win 5).flush t = true) :
    (dat4 (F := Ideal) V c).flushed 5 t
      = ((cfg4.win 5).blk t).view.read (Elt Ideal) (Cert.Spec.toMat (Cert.Spec.sumRow (tab V c))) := by
  show (cfg4.win 5).cut (grid4.coords t) ((dat4 (F := Ideal) V c).after 5 t) = _
  rw [after4_5 V c t]
  exact read_fix (rd := ((cfg4.win 5).blk t).view.read (Elt Ideal)) ix.2.2.2.2.2.1 t (win4_5.rect_emb_val t) (fun _ _ => rfl)
    ((run V c).sum_apply t (eq19 N_4 t ((flush4_5 t).mp hf)))

theorem flushed6_eq (c : Dev nD) (t : Fin cfg4.N) (hf : (cfg4.win 6).flush t = true) :
    (dat4 (F := Ideal) V c).flushed 6 t
      = ((cfg4.win 6).blk t).view.read (Elt Ideal) (Cert.Spec.toMat (Cert.Spec.sqSumRow (tab V c))) := by
  show (cfg4.win 6).cut (grid4.coords t) ((dat4 (F := Ideal) V c).after 6 t) = _
  rw [after4_6 V c t]
  exact read_fix (rd := ((cfg4.win 6).blk t).view.read (Elt Ideal)) ix.2.2.2.2.2.2 t (win4_6.rect_emb_val t) (fun _ _ => rfl)
    ((run V c).sq_apply t (eq19 N_4 t ((flush4_6 t).mp hf)))

end Cert.KernelIdeal.KV.Comb4

namespace Cert.KernelIdeal.KV

open Cert.KernelIdeal Cert.KernelIdeal.Gen CombLib

variable (V : (c : Dev nD) → (b : Ref sig .tc) → Buf (Elt Ideal) ((c : Thread nD τ).loc b))

theorem arr4_4 (c : Dev nD) :
    (dat4 (F := Ideal) V c).arrAt 4 cfg4.N = Cert.Spec.toMat (Comb4.tab V c) :=
  (dat4 (F := Ideal) V c).arrAt_eq_of_cover 4 _ (fun t _ => Comb4.flushed4_eq V c t) fun i =>
    (BL.cover_pt N_4 Comb4.ix.2.2.2.2.1 i).imp fun t h =>
      ⟨flush4_4 t, (BL.mem_slice_unit (Pipeline.arrRef spec4 4) _ i).2 h⟩

theorem arr4_5 (c : Dev nD) :
    (dat4 (F := Ideal) V c).arrAt 5 cfg4.N = Cert.Spec.toMat (Cert.Spec.sumRow (Comb4.tab V c)) :=
  (dat4 (F := Ideal) V c).arrAt_eq_of_cover 5 _ (Comb4.flushed5_eq V c) fun i =>
    ⟨⟨19, lt19 N_4⟩, (flush4_5 _).mpr rfl,
      (BL.mem_slice_unit (Pipeline.arrRef spec4 5) _ i).2 (cover_fix Comb4.ix.2.2.2.2.2.1 _ i)⟩

theorem arr4_6 (c : Dev nD) :
    (dat4 (F := Ideal) V c).arrAt 6 cfg4.N = Cert.Spec.toMat (Cert.Spec.sqSumRow (Comb4.tab V c)) :=
  (dat4 (F := Ideal) V c).arrAt_eq_of_cover 6 _ (Comb4.flushed6_eq V c) fun i =>
    ⟨⟨19, lt19 N_4⟩, (flush4_6 _).mpr rfl,
      (BL.mem_slice_unit (Pipeline.arrRef spec4 6) _ i).2 (cover_fix Comb4.ix.2.2.2.2.2.2 _ i)⟩

end Cert.KernelIdeal.KV

end
-- ==== Proof.KBn5.lean ====
import proofs.«426946_j20469814133009_2_alg».proof.Proof.Gen.KernelIdeal.Frame
import proofs.«426946_j20469814133009_2_alg».proof.Proof.KBnLinLib

noncomputable section

namespace Cert.KernelIdeal.KV

open Cert.KernelIdeal Cert.KernelIdeal.Gen Idealize.ShloMosaic Idealize.ShloMosaic.TcCoe

variable (V : (c : Dev nD) → (b : Ref sig .tc) → Buf (Elt Ideal) ((c : Thread nD τ).loc b))

theorem bn5_ix : BL.Mov win5_0.index ∧ BL.Fix win5_1.index ∧ BL.Fix win5_2.index ∧ BL.Fix win5_3.index
    ∧ BL.Fix win5_4.index ∧ BL.Mov win5_5.index ∧ BL.Mov win5_6.index := by decide +kernel

theorem bn5_out (c : Dev nD) (t : Fin cfg5.N) : (dat5 (F := Ideal) V c).flushed 6 t
    = k5_pay1 (iblk5 V c 0 t) (iblk5 V c 1 t) (iblk5 V c 2 t) (iblk5 V c 3 t) (iblk5 V c 4 t) (iblk5 V c 5 t) := by
  show (cfg5.win 6).cut (grid5.coords t) ((dat5 V c).after 6 t) = _
  rw [after5_6]
  unfold out5_6
  rw [View.canon_unit_zero BL.zeros]
  simp only [View.ld_unit_zero (S := S5000x64) BL.zeros, View.ld_unit_zero (S := S1x64) BL.zeros]
  rfl

-- block t of the output is block t of the normalise step of the whole tables, and the 20 blocks cover the rows
theorem arr5_6 (c : Dev nD) :
    (dat5 (F := Ideal) V c).arrAt 6 cfg5.N
      = Cert.Spec.toMat (Cert.Spec.bnKern
          (Cert.Spec.ofMat (R := 100000) (C := 64) (V c (Pipeline.arrRef spec5 0)))
          (Cert.Spec.ofMat (R := 1) (C := 64) (V c (Pipeline.arrRef spec5 1)))
          (Cert.Spec.ofMat (R := 1) (C := 64) (V c (Pipeline.arrRef spec5 2)))
          (Cert.Spec.ofMat (R := 1) (C := 64) (V c (Pipeline.arrRef spec5 3)))
          (Cert.Spec.ofMat (R := 1) (C := 64) (V c (Pipeline.arrRef spec5 4)))
          (Cert.Spec.ofMat (R := 100000) (C := 64) (V c (Pipeline.arrRef spec5 5)))) :=
  (dat5 (F := Ideal) V c).arrAt_eq_of_cover 6 _
    (fun t _ => (bn5_out V c t).trans (funext (BL.bn_blk N_5 bn5_ix t _ _ _ _ _ _ (win5_0.rect_emb_val t)
      (win5_1.rect_emb_val t) (win5_2.rect_emb_val t) (win5_3.rect_emb_val t) (win5_4.rect_emb_val t)
      (win5_5.rect_emb_val t) (win5_6.rect_emb_val t) (fun _ => rfl) (fun _ => rfl) (fun _ => rfl) (fun _ => rfl)
      (fun _ => rfl) fun _ => rfl)))
    fun i => (BL.cover_pt N_5 bn5_ix.2.2.2.2.2.2 i).imp fun t h =>
      ⟨flush5_6 t, (BL.mem_slice_unit (Pipeline.arrRef spec5 6) _ i).2 h⟩

end Cert.KernelIdeal.KV

end
-- ==== Proof.KChainL1.lean ====
import proofs.«426946_j20469814133009_2_alg».proof.Proof.Gen.KernelIdeal.Frame
import proofs.«426946_j20469814133009_2_alg».proof.Proof.KSpec
import proofs.«426946_j20469814133009_2_alg».proof.Proof.KChainAlg
import proofs.«426946_j20469814133009_2_alg».proof.Proof.KChainC1
import proofs.«426946_j20469814133009_2_alg».proof.Proof.KLin3
import proofs.«426946_j20469814133009_2_alg».proof.Proof.KComb4
import proofs.«426946_j20469814133009_2_alg».proof.Proof.KBn5
import proofs.«426946_j20469814133009_2_alg».proof.Proof.KConv
import proofs.«426946_j20469814133009_2_alg».proof.Proof.KBnH

noncomputable section

open scoped BigOperators

namespace Cert.KernelIdeal.KV

open Idealize.ShloMosaic Idealize.ShloMosaic.TcCoe Idealize.ShloMosaic.ValueIdx Cert.KernelIdeal Cert.KernelIdeal.Gen Cert.Spec

variable (m : (ℓ : Loc nD τ sig) → Buf (Elt Ideal) ℓ) (ρ : Dev nD → PrngReg)

set_option maxHeartbeats 4000000 in
theorem layer1 (c : Dev nD) (ei : IVec S2x1200000 32) (H : Tab 100000 64)
    (Wh : FVec Ideal S2x64x64 .f32) (bh : FVec Ideal S2x64 .f32) (g be : FVec Ideal S3x64 .f32)
    (hH : ofMat (W6 m ρ c (Proc.devRef .tc main_v59) : FVec Ideal S100000x64 .f32) = H)
    (h1 : ∀ e, (W6 m ρ c (Proc.devRef .tc main_v1) : IVec S1200000 32) (ix1 e) = src ei e)
    (h3 : ∀ e, (W6 m ρ c (Proc.devRef .tc main_v3) : IVec S1200000 32) (ix1 e) = dst ei e)
    (h14 : ∀ n, (W6 m ρ c (Proc.devRef .tc main_v14) : FVec Ideal S100000x1 .f32) (ix2 n (0 : Fin 1)) = dinv ei n * dinv ei n)
    (h30 : ∀ e, (W6 m ρ c (Proc.devRef .tc main_v30) : FVec Ideal S1200000x1 .f32) (ix2 e (0 : Fin 1)) = enorm ei e)
    (ha3 : (W6 m ρ c (Proc.devRef .tc main_arg3) : FVec Ideal S2x64x64 .f32) = Wh) (ha4 : (W6 m ρ c (Proc.devRef .tc main_arg4) : FVec Ideal S2x64 .f32) = bh)
    (ha7 : (W6 m ρ c (Proc.devRef .tc main_arg7) : FVec Ideal S3x64 .f32) = g) (ha8 : (W6 m ρ c (Proc.devRef .tc main_arg8) : FVec Ideal S3x64 .f32) = be) :
    ofMat (W12 m ρ c (Proc.devRef .tc main_v91) : FVec Ideal S100000x64 .f32)
      = addT (bnWith (varK (reluT (conv ei (lin H (ofCube Wh 0)) (rowOfMat bh 0)))) (reluT (conv ei (lin H (ofCube Wh 0)) (rowOfMat bh 0))) (rowOfMat g 1) (rowOfMat be 1)) H := by

  have hw : ofMat (W7 m ρ c (Proc.devRef .tc main_v61) : FVec Ideal S64x64 .f32) = ofCube Wh 0 := by
    have := st3_w (W6 m ρ c); rw [ha3] at this; exact this
  have hbv : ofVec (W7 m ρ c (Proc.devRef .tc main_v63) : FVec Ideal S64 .f32) = rowOfMat bh 0 := by
    have := st3_b (W6 m ρ c); rw [ha4] at this; exact this

  have hL : ofMat (W8 m ρ c (Proc.devRef .tc main_v64) : FVec Ideal S100000x64 .f32) = lin H (ofCube Wh 0) := by
    have e : (W8 m ρ c (Proc.devRef .tc main_v64) : FVec Ideal S100000x64 .f32) = toMat (lin (ofMat (W7 m ρ c (Proc.devRef .tc main_v59) : FVec Ideal S100000x64 .f32)) (ofMat (W7 m ρ c (Proc.devRef .tc main_v61) : FVec Ideal S64x64 .f32))) :=
      (W8_arr m ρ c 2).trans (arr3_2 (V7 m ρ) c)
    rw [e, ofMat_toMat, s7 m ρ c main_v59 (by decide), hH, hw]
  have hbs : ∀ j, (W8 m ρ c (Proc.devRef .tc main_v63) : FVec Ideal S64 .f32) (ix1 j) = rowOfMat bh 0 j := fun j => by
    rw [s8 m ρ c main_v63 (by decide)]; exact congrFun hbv j
  generalize lin H (ofCube Wh 0) = L at hL ⊢
  generalize rowOfMat bh 0 = bias at hbs ⊢

  have hA : ofMat (W9 m ρ c (Proc.devRef .tc main_v76) : FVec Ideal S100000x64 .f32) = agg ei L := by
    funext n j
    refine (agg64_read (st4_v76_term (W8 m ρ c)) n j).trans ?_
    simp only [c6_8 m ρ c main_v3 (by decide), c6_8 m ρ c main_v1 (by decide), c6_8 m ρ c main_v30 (by decide), h3, h1, h30, hL, agg, inEdges]
  have hb : ∀ j, ofMat (W9 m ρ c (Proc.devRef .tc main_v77) : FVec Ideal S1x64 .f32) 0 j = bias j := fun j =>
    (row_read (st4_v77_term (W8 m ρ c)) j).trans (hbs j)

  have hL' : ofMat (W9 m ρ c (Proc.devRef .tc main_v64) : FVec Ideal S100000x64 .f32) = L := by rw [s9 m ρ c main_v64 (by decide)]; exact hL
  have hsn : ∀ n, ofMat (W9 m ρ c (Proc.devRef .tc main_v14) : FVec Ideal S100000x1 .f32) n 0 = dinv ei n * dinv ei n := fun n => by
    show (W9 m ρ c (Proc.devRef .tc main_v14) : FVec Ideal S100000x1 .f32) (ix2 n (0 : Fin 1)) = _
    rw [c6_9 m ρ c main_v14 (by decide)]; exact h14 n
  have hcomb : Comb4.tab (V9 m ρ) c = reluT (conv ei L bias) :=
    congrArg reluT (combPre_eq_conv ei _ _ _ _ L bias hL' hA hsn hb)
  have hT0 : ofMat (W10 m ρ c (Proc.devRef .tc main_v78_0) : FVec Ideal S100000x64 .f32) = reluT (conv ei L bias) := by
    have e : (W10 m ρ c (Proc.devRef .tc main_v78_0) : FVec Ideal S100000x64 .f32) = toMat (Comb4.tab (V9 m ρ) c) :=
      (W10_arr m ρ c 4).trans (arr4_4 (V9 m ρ) c)
    rw [e, ofMat_toMat, hcomb]
  have hT1 : ofMat (W10 m ρ c (Proc.devRef .tc main_v78_1) : FVec Ideal S1x64 .f32) = sumRow (reluT (conv ei L bias)) := by
    have e : (W10 m ρ c (Proc.devRef .tc main_v78_1) : FVec Ideal S1x64 .f32) = toMat (sumRow (Comb4.tab (V9 m ρ) c)) :=
      (W10_arr m ρ c 5).trans (arr4_5 (V9 m ρ) c)
    rw [e, ofMat_toMat, hcomb]
  have hT2 : ofMat (W10 m ρ c (Proc.devRef .tc main_v78_2) : FVec Ideal S1x64 .f32) = sqSumRow (reluT (conv ei L bias)) := by
    have e : (W10 m ρ c (Proc.devRef .tc main_v78_2) : FVec Ideal S1x64 .f32) = toMat (sqSumRow (Comb4.tab (V9 m ρ) c)) :=
      (W10_arr m ρ c 6).trans (arr4_6 (V9 m ρ) c)
    rw [e, ofMat_toMat, hcomb]

  have hM : ∀ j, ofMat (W11 m ρ c (Proc.devRef .tc main_v80) : FVec Ideal S1x64 .f32) 0 j = Ideal.div (sumRow (reluT (conv ei L bias)) 0 j) nNodes := fun j => by
    refine (st5_mean (W10 m ρ c) j).trans ?_
    rw [hT1]
  have hV : ∀ j, ofMat (W11 m ρ c (Proc.devRef .tc main_v84) : FVec Ideal S1x64 .f32) 0 j = Ideal.div (sqSumRow (reluT (conv ei L bias)) 0 j) nNodes
      - Ideal.div (sumRow (reluT (conv ei L bias)) 0 j) nNodes * Ideal.div (sumRow (reluT (conv ei L bias)) 0 j) nNodes := fun j => by
    refine (st5_var (W10 m ρ c) j).trans ?_
    rw [hT1, hT2]
  have hG : ∀ j, ofMat (W11 m ρ c (Proc.devRef .tc main_v87) : FVec Ideal S1x64 .f32) 0 j = rowOfMat g 1 j := fun j => by
    refine (st5_g (W10 m ρ c) j).trans ?_
    rw [c6_10 m ρ c main_arg7 (by decide), ha7]
  have hB : ∀ j, ofMat (W11 m ρ c (Proc.devRef .tc main_v90) : FVec Ideal S1x64 .f32) 0 j = rowOfMat be 1 j := fun j => by
    refine (st5_b (W10 m ρ c) j).trans ?_
    rw [c6_10 m ρ c main_arg8 (by decide), ha8]

  have hT' : ofMat (W11 m ρ c (Proc.devRef .tc main_v78_0) : FVec Ideal S100000x64 .f32) = reluT (conv ei L bias) := by rw [s11 m ρ c main_v78_0 (by decide)]; exact hT0
  have hR : ofMat (W11 m ρ c (Proc.devRef .tc main_v59) : FVec Ideal S100000x64 .f32) = H := by rw [c6_11 m ρ c main_v59 (by decide)]; exact hH
  have e : (W12 m ρ c (Proc.devRef .tc main_v91) : FVec Ideal S100000x64 .f32) = toMat (bnKern (ofMat (W11 m ρ c (Proc.devRef .tc main_v78_0) : FVec Ideal S100000x64 .f32)) (ofMat (W11 m ρ c (Proc.devRef .tc main_v80) : FVec Ideal S1x64 .f32)) (ofMat (W11 m ρ c (Proc.devRef .tc main_v84) : FVec Ideal S1x64 .f32))
      (ofMat (W11 m ρ c (Proc.devRef .tc main_v87) : FVec Ideal S1x64 .f32)) (ofMat (W11 m ρ c (Proc.devRef .tc main_v90) : FVec Ideal S1x64 .f32)) (ofMat (W11 m ρ c (Proc.devRef .tc main_v59) : FVec Ideal S100000x64 .f32))) :=
    (W12_arr m ρ c 6).trans (arr5_6 (V11 m ρ) c)
  rw [e, ofMat_toMat, hT', hR]
  exact bnKern_eq _ _ _ _ _ _ (rowOfMat g 1) (rowOfMat be 1) hM hV hG hB

end Cert.KernelIdeal.KV

end
-- ==== Proof.KLin6.lean ====
import proofs.«426946_j20469814133009_2_alg».proof.Proof.Gen.KernelIdeal.Frame
import proofs.«426946_j20469814133009_2_alg».proof.Proof.KBnLinLib

noncomputable section

namespace Cert.KernelIdeal.KV

open Cert.KernelIdeal Cert.KernelIdeal.Gen Idealize.ShloMosaic Idealize.ShloMosaic.TcCoe

variable (V : (c : Dev nD) → (b : Ref sig .tc) → Buf (Elt Ideal) ((c : Thread nD τ).loc b))

theorem lin6_ix : BL.Mov win6_0.index ∧ BL.Fix win6_1.index ∧ BL.Mov win6_2.index := by decide +kernel

theorem lin6_out (c : Dev nD) (t : Fin cfg6.N) :
    (dat6 (F := Ideal) V c).flushed 2 t = k6_pay1 (iblk6 V c 0 t) (iblk6 V c 1 t) := by
  show (cfg6.win 2).cut (grid6.coords t) ((dat6 (F := Ideal) V c).after 2 t) = _
  rw [after6_2]
  unfold out6_2
  rw [View.canon_unit_zero BL.zeros]
  simp only [View.ld_unit_zero (S := S5000x64) BL.zeros, View.ld_unit_zero (S := S64x64) BL.zeros]
  rfl

-- block t of the output is block t of the whole matrix product, and the 20 blocks cover the rows
theorem arr6_2 (c : Dev nD) :
    (dat6 (F := Ideal) V c).arrAt 2 cfg6.N
      = Cert.Spec.toMat (Cert.Spec.lin (Cert.Spec.ofMat (V c (Pipeline.arrRef spec6 0))) (Cert.Spec.ofMat (V c (Pipeline.arrRef spec6 1)))) :=
  (dat6 (F := Ideal) V c).arrAt_eq_of_cover 2 _
    (fun t _ => (lin6_out V c t).trans (funext fun j => (BL.pay3_at _ _ j).trans (BL.lin_blk N_6 lin6_ix t _ _
      (win6_0.rect_emb_val t) (win6_1.rect_emb_val t) (win6_2.rect_emb_val t) (fun _ => rfl) (fun _ => rfl) j)))
    fun i => (BL.cover_pt N_6 lin6_ix.2.2 i).imp fun t h =>
      ⟨flush6_2 t, (BL.mem_slice_unit (Pipeline.arrRef spec6 2) _ i).2 h⟩

end Cert.KernelIdeal.KV

end
-- ==== Proof.KComb7.lean ====
import proofs.«426946_j20469814133009_2_alg».proof.Proof.Gen.KernelIdeal.Frame
import proofs.«426946_j20469814133009_2_alg».proof.Proof.KCombLib

noncomputable section

open Idealize.ShloMosaic Idealize.ShloMosaic.TcCoe Idealize.ShloMosaic.Tactic Idealize.ShloMosaic.ValueIdx

namespace Cert.KernelIdeal.KV.Comb7

open Cert.KernelIdeal Cert.KernelIdeal.Gen CombLib

section Pieces
variable {F : FTy → Type} [FloatOps F]
variable {c : Dev nD} {i : grid7.Coords}
  {a1 : Memref sig .tc .vmem S5000x64 .f32} {h1 : a1.IsWhole} {a2 : Memref sig .tc .vmem S5000x64 .f32} {h2 : a2.IsWhole}
  {a3 : Memref sig .tc .vmem S5000x1 .f32} {h3 : a3.IsWhole} {a4 : Memref sig .tc .vmem S1x64 .f32} {h4 : a4.IsWhole}
  {a5 : Memref sig .tc .vmem S5000x64 .f32} {h5 : a5.IsWhole} {a6 : Memref sig .tc .vmem S1x64 .f32} {h6 : a6.IsWhole}
  {a7 : Memref sig .tc .vmem S1x64 .f32} {h7 : a7.IsWhole}
  {x0 x1 : Vec F S5000x64 .f32} {x2 : Vec F S5000x1 .f32} {x3 xo5 xo6 : Vec F S1x64 .f32}

-- point 0 leaves the combined block, and in each row zero plus the block's column sums
theorem outA_eq (hc : cond7_0 i) :
    (out7_A_4 c i a1 h1 a2 h2 a3 h3 a4 h4 a5 h5 a6 h6 a7 h7 hc x0 x1 x2 x3, out7_A_5 c i a1 h1 a2 h2 a3 h3 a4 h4 a5 h5 a6 h6 a7 h7 hc x0 x1 x2 x3, out7_A_6 c i a1 h1 a2 h2 a3 h3 a4 h4 a5 h5 a6 h6 a7 h7 hc x0 x1 x2 x3)
      = (k7_pay3 x0 x1 x2 x3, k7_pay4 x0 x1 x2 x3 (k7_pay1 (F := F)), k7_pay5 x0 x1 x2 x3 (k7_pay2 (F := F))) := by
  unfold out7_A_4 out7_A_5 out7_A_6
  rw [View.read_writes_eq_canon _ _ _ (cover7_A_4 c i a1 h1 a2 h2 a3 h3 a4 h4 a5 h5 a6 h6 a7 h7 hc x0 x1 x2 x3), View.read_writes_eq_canon _ _ _ (cover7_A_5 c i a1 h1 a2 h2 a3 h3 a4 h4 a5 h5 a6 h6 a7 h7 hc x0 x1 x2 x3),
    View.read_writes_eq_canon _ _ _ (cover7_A_6 c i a1 h1 a2 h2 a3 h3 a4 h4 a5 h5 a6 h6 a7 h7 hc x0 x1 x2 x3)]
  unfold kernelRun7_A
  dsimp only
  sl_unfold_words
  rw [View.canon_unit_zero BL.zeros, View.canon_cons_unit_zero (S := S1x64) BL.zeros, View.canon_cons_unit_zero (S := S1x64) BL.zeros]
  simp only [View.readAt_eq_ld, h1.read_unread, h2.read_unread, h3.read_unread, h4.read_unread, h6.read_unread, h7.read_unread,
    View.ld_unit_zero (S := S5000x64) BL.zeros, View.ld_unit_zero (S := S5000x1) BL.zeros, View.ld_unit_zero (S := S1x64) BL.zeros,
    View.readCov_unit_zero (S := S1x64) _ BL.zeros]

-- a later point leaves the combined block, and each row as it was plus the block's column sums
theorem outB_eq (hc : ¬cond7_0 i) :
    (out7_B_4 c i a1 h1 a2 h2 a3 h3 a4 h4 a5 h5 a6 h6 a7 h7 hc x0 x1 x2 x3 xo5 xo6, out7_B_5 c i a1 h1 a2 h2 a3 h3 a4 h4 a5 h5 a6 h6 a7 h7 hc x0 x1 x2 x3 xo5 xo6, out7_B_6 c i a1 h1 a2 h2 a3 h3 a4 h4 a5 h5 a6 h6 a7 h7 hc x0 x1 x2 x3 xo5 xo6)
      = (k7_pay3 x0 x1 x2 x3, k7_pay4 x0 x1 x2 x3 xo5, k7_pay5 x0 x1 x2 x3 xo6) := by
  unfold out7_B_4 out7_B_5 out7_B_6
  rw [View.read_writes_eq_canon _ _ _ (cover7_B_4 c i a1 h1 a2 h2 a3 h3 a4 h4 a5 h5 a6 h6 a7 h7 hc x0 x1 x2 x3 xo5 xo6), View.read_writes_eq_canon _ _ _ (cover7_B_5 c i a1 h1 a2 h2 a3 h3 a4 h4 a5 h5 a6 h6 a7 h7 hc x0 x1 x2 x3 xo5 xo6),
    View.read_writes_eq_canon _ _ _ (cover7_B_6 c i a1 h1 a2 h2 a3 h3 a4 h4 a5 h5 a6 h6 a7 h7 hc x0 x1 x2 x3 xo5 xo6)]
  unfold kernelRun7_B
  dsimp only
  sl_unfold_words
  rw [View.canon_unit_zero BL.zeros, View.canon_unit_zero BL.zeros, View.canon_unit_zero BL.zeros]
  simp only [View.readAt_eq_ld, h1.read_unread, h2.read_unread, h3.read_unread, h4.read_unread, h6.read_unread, h7.read_unread,
    View.ld_unit_zero (S := S5000x64) BL.zeros, View.ld_unit_zero (S := S5000x1) BL.zeros, View.ld_unit_zero (S := S1x64) BL.zeros]

end Pieces

variable (V : (c : Dev nD) → (b : Ref sig .tc) → Buf (Elt Ideal) ((c : Thread nD τ).loc b))

theorem ix : BL.Mov win7_0.index ∧ BL.Mov win7_1.index ∧ BL.Mov win7_2.index ∧ BL.Fix win7_3.index
    ∧ BL.Mov win7_4.index ∧ BL.Fix win7_5.index ∧ BL.Fix win7_6.index := by decide +kernel

-- the run is a step from zero rows, then steps
theorem outs0 (c : Dev nD) (h : 0 < cfg7.N) :
    outsAt7 V c 0 h = step (iblk7 V c 0 ⟨0, h⟩) (iblk7 V c 1 ⟨0, h⟩) (iblk7 V c 2 ⟨0, h⟩) (iblk7 V c 3 ⟨0, h⟩)
      (k7_pay1 (F := Ideal)) (k7_pay2 (F := Ideal)) := by
  exact (outsAt7_A V c ⟨0, h⟩ rfl).trans (outA_eq _)

theorem outsS (c : Dev nD) (n : ℕ) (h : n + 1 < cfg7.N) :
    outsAt7 V c (n + 1) h = step (iblk7 V c 0 ⟨n + 1, h⟩) (iblk7 V c 1 ⟨n + 1, h⟩) (iblk7 V c 2 ⟨n + 1, h⟩)
      (iblk7 V c 3 ⟨n + 1, h⟩) (outsAt7 V c n (Nat.lt_of_succ_lt h)).2.1 (outsAt7 V c n (Nat.lt_of_succ_lt h)).2.2 := by
  have hN : cfg7.N = 20 := N_7
  have hB : ¬(⟨n + 1, h⟩ : Fin cfg7.N).val % 20 = 0 := by dsimp only; omega
  exact (outsAt7_B V c ⟨n + 1, h⟩ hB).trans (outB_eq _)

abbrev arrA (c : Dev nD) : FVec Ideal ⟨2, ![100000, 64]⟩ .f32 := V c (Pipeline.arrRef spec7 0)
abbrev arrH (c : Dev nD) : FVec Ideal ⟨2, ![100000, 64]⟩ .f32 := V c (Pipeline.arrRef spec7 1)
abbrev arrS (c : Dev nD) : FVec Ideal ⟨2, ![100000, 1]⟩ .f32 := V c (Pipeline.arrRef spec7 2)
abbrev arrB (c : Dev nD) : FVec Ideal ⟨2, ![1, 64]⟩ .f32 := V c (Pipeline.arrRef spec7 3)

def run (c : Dev nD) : Run cfg7.N :=
  .ofWin N_7 ix (arrA V c) (arrH V c) (arrS V c) (arrB V c) win7_0.rect_emb_val win7_1.rect_emb_val win7_2.rect_emb_val win7_3.rect_emb_val
    (fun _ _ => rfl) (fun _ _ => rfl) (fun _ _ => rfl) (fun _ _ => rfl) (outsAt7 V c) (outs0 V c) (outsS V c)

abbrev tab (c : Dev nD) : Cert.Spec.Tab 100000 64 :=
  Cert.Spec.reluT (Cert.Spec.combPre (Cert.Spec.ofMat (arrA V c)) (Cert.Spec.ofMat (arrH V c)) (Cert.Spec.ofMat (arrS V c))
    (Cert.Spec.ofMat (arrB V c)))

-- point t returns its rows of the table,
theorem flushed4_eq (c : Dev nD) (t : Fin cfg7.N) :
    (dat7 (F := Ideal) V c).flushed 4 t = ((cfg7.win 4).blk t).view.read (Elt Ideal) (Cert.Spec.toMat (tab V c)) := by
  show (cfg7.win 4).cut (grid7.coords t) ((dat7 (F := Ideal) V c).after 4 t) = _
  rw [after7_4 V c t]
  exact read_mov ix.2.2.2.2.1 N_7 t (win7_4.rect_emb_val t) (fun _ _ => rfl) ((run V c).tab_apply t)

-- and the last point the table's column sums and those of its squares
theorem flushed5_eq (c : Dev nD) (t : Fin cfg7.N) (hf : (cfg7.win 5).flush t = true) :
    (dat7 (F := Ideal) V c).flushed 5 t
      = ((cfg7.win 5).blk t).view.read (Elt Ideal) (Cert.Spec.toMat (Cert.Spec.sumRow (tab V c))) := by
  show (cfg7.win 5).cut (grid7.coords t) ((dat7 (F := Ideal) V c).after 5 t) = _
  rw [after7_5 V c t]
  exact read_fix (rd := ((cfg7.win 5).blk t).view.read (Elt Ideal)) ix.2.2.2.2.2.1 t (win7_5.rect_emb_val t) (fun _ _ => rfl)
    ((run V c).sum_apply t (eq19 N_7 t ((flush7_5 t).mp hf)))

theorem flushed6_eq (c : Dev nD) (t : Fin cfg7.N) (hf : (cfg7.win 6).flush t = true) :
    (dat7 (F := Ideal) V c).flushed 6 t
      = ((cfg7.win 6).blk t).view.read (Elt Ideal) (Cert.Spec.toMat (Cert.Spec.sqSumRow (tab V c))) := by
  show (cfg7.win 6).cut (grid7.coords t) ((dat7 (F := Ideal) V c).after 6 t) = _
  rw [after7_6 V c t]
  exact read_fix (rd := ((cfg7.win 6).blk t).view.read (Elt Ideal)) ix.2.2.2.2.2.2 t (win7_6.rect_emb_val t) (fun _ _ => rfl)
    ((run V c).sq_apply t (eq19 N_7 t ((flush7_6 t).mp hf)))

end Cert.KernelIdeal.KV.Comb7

namespace Cert.KernelIdeal.KV

open Cert.KernelIdeal Cert.KernelIdeal.Gen CombLib

variable (V : (c : Dev nD) → (b : Ref sig .tc) → Buf (Elt Ideal) ((c : Thread nD τ).loc b))

theorem arr7_4 (c : Dev nD) :
    (dat7 (F := Ideal) V c).arrAt 4 cfg7.N = Cert.Spec.toMat (Comb7.tab V c) :=
  (dat7 (F := Ideal) V c).arrAt_eq_of_cover 4 _ (fun t _ => Comb7.flushed4_eq V c t) fun i =>
    (BL.cover_pt N_7 Comb7.ix.2.2.2.2.1 i).imp fun t h =>
      ⟨flush7_4 t, (BL.mem_slice_unit (Pipeline.arrRef spec7 4) _ i).2 h⟩

theorem arr7_5 (c : Dev nD) :
    (dat7 (F := Ideal) V c).arrAt 5 cfg7.N = Cert.Spec.toMat (Cert.Spec.sumRow (Comb7.tab V c)) :=
  (dat7 (F := Ideal) V c).arrAt_eq_of_cover 5 _ (Comb7.flushed5_eq V c) fun i =>
    ⟨⟨19, lt19 N_7⟩, (flush7_5 _).mpr rfl,
      (BL.mem_slice_unit (Pipeline.arrRef spec7 5) _ i).2 (cover_fix Comb7.ix.2.2.2.2.2.1 _ i)⟩

theorem arr7_6 (c : Dev nD) :
    (dat7 (F := Ideal) V c).arrAt 6 cfg7.N = Cert.Spec.toMat (Cert.Spec.sqSumRow (Comb7.tab V c)) :=
  (dat7 (F := Ideal) V c).arrAt_eq_of_cover 6 _ (Comb7.flushed6_eq V c) fun i =>
    ⟨⟨19, lt19 N_7⟩, (flush7_6 _).mpr rfl,
      (BL.mem_slice_unit (Pipeline.arrRef spec7 6) _ i).2 (cover_fix Comb7.ix.2.2.2.2.2.2 _ i)⟩

end Cert.KernelIdeal.KV

end
-- ==== Proof.KBn8.lean ====
import proofs.«426946_j20469814133009_2_alg».proof.Proof.Gen.KernelIdeal.Frame
import proofs.«426946_j20469814133009_2_alg».proof.Proof.KBnLinLib

noncomputable section

namespace Cert.KernelIdeal.KV

open Cert.KernelIdeal Cert.KernelIdeal.Gen Idealize.ShloMosaic Idealize.ShloMosaic.TcCoe

variable (V : (c : Dev nD) → (b : Ref sig .tc) → Buf (Elt Ideal) ((c : Thread nD τ).loc b))

theorem bn8_ix : BL.Mov win8_0.index ∧ BL.Fix win8_1.index ∧ BL.Fix win8_2.index ∧ BL.Fix win8_3.index
    ∧ BL.Fix win8_4.index ∧ BL.Mov win8_5.index ∧ BL.Mov win8_6.index := by decide +kernel

theorem bn8_out (c : Dev nD) (t : Fin cfg8.N) : (dat8 (F := Ideal) V c).flushed 6 t
    = k8_pay1 (iblk8 V c 0 t) (iblk8 V c 1 t) (iblk8 V c 2 t) (iblk8 V c 3 t) (iblk8 V c 4 t) (iblk8 V c 5 t) := by
  show (cfg8.win 6).cut (grid8.coords t) ((dat8 V c).after 6 t) = _
  rw [after8_6]
  unfold out8_6
  rw [View.canon_unit_zero BL.zeros]
  simp only [View.ld_unit_zero (S := S5000x64) BL.zeros, View.ld_unit_zero (S := S1x64) BL.zeros]
  rfl

-- block t of the output is block t of the normalise step of the whole tables, and the 20 blocks cover the rows
theorem arr8_6 (c : Dev nD) :
    (dat8 (F := Ideal) V c).arrAt 6 cfg8.N
      = Cert.Spec.toMat (Cert.Spec.bnKern
          (Cert.Spec.ofMat (R := 100000) (C := 64) (V c (Pipeline.arrRef spec8 0)))
          (Cert.Spec.ofMat (R := 1) (C := 64) (V c (Pipeline.arrRef spec8 1)))
          (Cert.Spec.ofMat (R := 1) (C := 64) (V c (Pipeline.arrRef spec8 2)))
          (Cert.Spec.ofMat (R := 1) (C := 64) (V c (Pipeline.arrRef spec8 3)))
          (Cert.Spec.ofMat (R := 1) (C := 64) (V c (Pipeline.arrRef spec8 4)))
          (Cert.Spec.ofMat (R := 100000) (C := 64) (V c (Pipeline.arrRef spec8 5)))) :=
  (dat8 (F := Ideal) V c).arrAt_eq_of_cover 6 _
    (fun t _ => (bn8_out V c t).trans (funext (BL.bn_blk N_8 bn8_ix t _ _ _ _ _ _ (win8_0.rect_emb_val t)
      (win8_1.rect_emb_val t) (win8_2.rect_emb_val t) (win8_3.rect_emb_val t) (win8_4.rect_emb_val t)
      (win8_5.rect_emb_val t) (win8_6.rect_emb_val t) (fun _ => rfl) (fun _ => rfl) (fun _ => rfl) (fun _ => rfl)
      (fun _ => rfl) fun _ => rfl)))
    fun i => (BL.cover_pt N_8 bn8_ix.2.2.2.2.2.2 i).imp fun t h =>
      ⟨flush8_6 t, (BL.mem_slice_unit (Pipeline.arrRef spec8 6) _ i).2 h⟩

end Cert.KernelIdeal.KV

end
-- ==== Proof.KChainL2.lean ====
import proofs.«426946_j20469814133009_2_alg».proof.Proof.Gen.KernelIdeal.Frame
import proofs.«426946_j20469814133009_2_alg».proof.Proof.KSpec
import proofs.«426946_j20469814133009_2_alg».proof.Proof.KChainAlg
import proofs.«426946_j20469814133009_2_alg».proof.Proof.KChainC2
import proofs.«426946_j20469814133009_2_alg».proof.Proof.KLin6
import proofs.«426946_j20469814133009_2_alg».proof.Proof.KComb7
import proofs.«426946_j20469814133009_2_alg».proof.Proof.KBn8
import proofs.«426946_j20469814133009_2_alg».proof.Proof.KConv
import proofs.«426946_j20469814133009_2_alg».proof.Proof.KBnH

noncomputable section

open scoped BigOperators

namespace Cert.KernelIdeal.KV

open Idealize.ShloMosaic Idealize.ShloMosaic.TcCoe Idealize.ShloMosaic.ValueIdx Cert.KernelIdeal Cert.KernelIdeal.Gen Cert.Spec

variable (m : (ℓ : Loc nD τ sig) → Buf (Elt Ideal) ℓ) (ρ : Dev nD → PrngReg)

set_option maxHeartbeats 4000000 in
theorem layer2 (c : Dev nD) (ei : IVec S2x1200000 32) (H : Tab 100000 64)
    (Wh : FVec Ideal S2x64x64 .f32) (bh : FVec Ideal S2x64 .f32) (g be : FVec Ideal S3x64 .f32)
    (hH : ofMat (W12 m ρ c (Proc.devRef .tc main_v91) : FVec Ideal S100000x64 .f32) = H)
    (h1 : ∀ e, (W12 m ρ c (Proc.devRef .tc main_v1) : IVec S1200000 32) (ix1 e) = src ei e)
    (h3 : ∀ e, (W12 m ρ c (Proc.devRef .tc main_v3) : IVec S1200000 32) (ix1 e) = dst ei e)
    (h14 : ∀ n, (W12 m ρ c (Proc.devRef .tc main_v14) : FVec Ideal S100000x1 .f32) (ix2 n (0 : Fin 1)) = dinv ei n * dinv ei n)
    (h30 : ∀ e, (W12 m ρ c (Proc.devRef .tc main_v30) : FVec Ideal S1200000x1 .f32) (ix2 e (0 : Fin 1)) = enorm ei e)
    (ha3 : (W12 m ρ c (Proc.devRef .tc main_arg3) : FVec Ideal S2x64x64 .f32) = Wh) (ha4 : (W12 m ρ c (Proc.devRef .tc main_arg4) : FVec Ideal S2x64 .f32) = bh)
    (ha7 : (W12 m ρ c (Proc.devRef .tc main_arg7) : FVec Ideal S3x64 .f32) = g) (ha8 : (W12 m ρ c (Proc.devRef .tc main_arg8) : FVec Ideal S3x64 .f32) = be) :
    ofMat (W18 m ρ c (Proc.devRef .tc main_v123) : FVec Ideal S100000x64 .f32)
      = addT (bnWith (varK (reluT (conv ei (lin H (ofCube Wh 1)) (rowOfMat bh 1)))) (reluT (conv ei (lin H (ofCube Wh 1)) (rowOfMat bh 1))) (rowOfMat g 2) (rowOfMat be 2)) H := by

  have hw : ofMat (W13 m ρ c (Proc.devRef .tc main_v93) : FVec Ideal S64x64 .f32) = ofCube Wh 1 := by
    have := st6_w (W12 m ρ c); rw [ha3] at this; exact this
  have hbv : ofVec (W13 m ρ c (Proc.devRef .tc main_v95) : FVec Ideal S64 .f32) = rowOfMat bh 1 := by
    have := st6_b (W12 m ρ c); rw [ha4] at this; exact this

  have hL : ofMat (W14 m ρ c (Proc.devRef .tc main_v96) : FVec Ideal S100000x64 .f32) = lin H (ofCube Wh 1) := by
    have e : (W14 m ρ c (Proc.devRef .tc main_v96) : FVec Ideal S100000x64 .f32) = toMat (lin (ofMat (W13 m ρ c (Proc.devRef .tc main_v91) : FVec Ideal S100000x64 .f32)) (ofMat (W13 m ρ c (Proc.devRef .tc main_v93) : FVec Ideal S64x64 .f32))) :=
      (W14_arr m ρ c 2).trans (arr6_2 (V13 m ρ) c)
    rw [e, ofMat_toMat, s13 m ρ c main_v91 (by decide), hH, hw]
  have hbs : ∀ j, (W14 m ρ c (Proc.devRef .tc main_v95) : FVec Ideal S64 .f32) (ix1 j) = rowOfMat bh 1 j := fun j => by
    rw [s14 m ρ c main_v95 (by decide)]; exact congrFun hbv j
  generalize lin H (ofCube Wh 1) = L at hL ⊢
  generalize rowOfMat bh 1 = bias at hbs ⊢

  have hA : ofMat (W15 m ρ c (Proc.devRef .tc main_v108) : FVec Ideal S100000x64 .f32) = agg ei L := by
    funext n j
    refine (agg64_read (st7_v108_term (W14 m ρ c)) n j).trans ?_
    simp only [c12_14 m ρ c main_v3 (by decide), c12_14 m ρ c main_v1 (by decide), c12_14 m ρ c main_v30 (by decide), h3, h1, h30, hL, agg, inEdges]
  have hb : ∀ j, ofMat (W15 m ρ c (Proc.devRef .tc main_v109) : FVec Ideal S1x64 .f32) 0 j = bias j := fun j =>
    (row_read (st7_v109_term (W14 m ρ c)) j).trans (hbs j)

  have hL' : ofMat (W15 m ρ c (Proc.devRef .tc main_v96) : FVec Ideal S100000x64 .f32) = L := by rw [s15 m ρ c main_v96 (by decide)]; exact hL
  have hsn : ∀ n, ofMat (W15 m ρ c (Proc.devRef .tc main_v14) : FVec Ideal S100000x1 .f32) n 0 = dinv ei n * dinv ei n := fun n => by
    show (W15 m ρ c (Proc.devRef .tc main_v14) : FVec Ideal S100000x1 .f32) (ix2 n (0 : Fin 1)) = _
    rw [c12_15 m ρ c main_v14 (by decide)]; exact h14 n
  have hcomb : Comb7.tab (V15 m ρ) c = reluT (conv ei L bias) :=
    congrArg reluT (combPre_eq_conv ei _ _ _ _ L bias hL' hA hsn hb)
  have hT0 : ofMat (W16 m ρ c (Proc.devRef .tc main_v110_0) : FVec Ideal S100000x64 .f32) = reluT (conv ei L bias) := by
    have e : (W16 m ρ c (Proc.devRef .tc main_v110_0) : FVec Ideal S100000x64 .f32) = toMat (Comb7.tab (V15 m ρ) c) :=
      (W16_arr m ρ c 4).trans (arr7_4 (V15 m ρ) c)
    rw [e, ofMat_toMat, hcomb]
  have hT1 : ofMat (W16 m ρ c (Proc.devRef .tc main_v110_1) : FVec Ideal S1x64 .f32) = sumRow (reluT (conv ei L bias)) := by
    have e : (W16 m ρ c (Proc.devRef .tc main_v110_1) : FVec Ideal S1x64 .f32) = toMat (sumRow (Comb7.tab (V15 m ρ) c)) :=
      (W16_arr m ρ c 5).trans (arr7_5 (V15 m ρ) c)
    rw [e, ofMat_toMat, hcomb]
  have hT2 : ofMat (W16 m ρ c (Proc.devRef .tc main_v110_2) : FVec Ideal S1x64 .f32) = sqSumRow (reluT (conv ei L bias)) := by
    have e : (W16 m ρ c (Proc.devRef .tc main_v110_2) : FVec Ideal S1x64 .f32) = toMat (sqSumRow (Comb7.tab (V15 m ρ) c)) :=
      (W16_arr m ρ c 6).trans (arr7_6 (V15 m ρ) c)
    rw [e, ofMat_toMat, hcomb]

  have hM : ∀ j, ofMat (W17 m ρ c (Proc.devRef .tc main_v112) : FVec Ideal S1x64 .f32) 0 j = Ideal.div (sumRow (reluT (conv ei L bias)) 0 j) nNodes := fun j => by
    refine (st8_mean (W16 m ρ c) j).trans ?_
    rw [hT1]
  have hV : ∀ j, ofMat (W17 m ρ c (Proc.devRef .tc main_v116) : FVec Ideal S1x64 .f32) 0 j = Ideal.div (sqSumRow (reluT (conv ei L bias)) 0 j) nNodes
      - Ideal.div (sumRow (reluT (conv ei L bias)) 0 j) nNodes * Ideal.div (sumRow (reluT (conv ei L bias)) 0 j) nNodes := fun j => by
    refine (st8_var (W16 m ρ c) j).trans ?_
    rw [hT1, hT2]
  have hG : ∀ j, ofMat (W17 m ρ c (Proc.devRef .tc main_v119) : FVec Ideal S1x64 .f32) 0 j = rowOfMat g 2 j := fun j => by
    refine (st8_g (W16 m ρ c) j).trans ?_
    rw [c12_16 m ρ c main_arg7 (by decide), ha7]
  have hB : ∀ j, ofMat (W17 m ρ c (Proc.devRef .tc main_v122) : FVec Ideal S1x64 .f32) 0 j = rowOfMat be 2 j := fun j => by
    refine (st8_b (W16 m ρ c) j).trans ?_
    rw [c12_16 m ρ c main_arg8 (by decide), ha8]

  have hT' : ofMat (W17 m ρ c (Proc.devRef .tc main_v110_0) : FVec Ideal S100000x64 .f32) = reluT (conv ei L bias) := by rw [s17 m ρ c main_v110_0 (by decide)]; exact hT0
  have hR : ofMat (W17 m ρ c (Proc.devRef .tc main_v91) : FVec Ideal S100000x64 .f32) = H := by rw [c12_17 m ρ c main_v91 (by decide)]; exact hH
  have e : (W18 m ρ c (Proc.devRef .tc main_v123) : FVec Ideal S100000x64 .f32) = toMat (bnKern (ofMat (W17 m ρ c (Proc.devRef .tc main_v110_0) : FVec Ideal S100000x64 .f32)) (ofMat (W17 m ρ c (Proc.devRef .tc main_v112) : FVec Ideal S1x64 .f32)) (ofMat (W17 m ρ c (Proc.devRef .tc main_v116) : FVec Ideal S1x64 .f32))
      (ofMat (W17 m ρ c (Proc.devRef .tc main_v119) : FVec Ideal S1x64 .f32)) (ofMat (W17 m ρ c (Proc.devRef .tc main_v122) : FVec Ideal S1x64 .f32)) (ofMat (W17 m ρ c (Proc.devRef .tc main_v91) : FVec Ideal S100000x64 .f32))) :=
    (W18_arr m ρ c 6).trans (arr8_6 (V17 m ρ) c)
  rw [e, ofMat_toMat, hT', hR]
  exact bnKern_eq _ _ _ _ _ _ (rowOfMat g 2) (rowOfMat be 2) hM hV hG hB

end Cert.KernelIdeal.KV

end
-- ==== Proof.KLin9.lean ====
import proofs.«426946_j20469814133009_2_alg».proof.Proof.Gen.KernelIdeal.Frame
import proofs.«426946_j20469814133009_2_alg».proof.Proof.KBnLinLib

noncomputable section

namespace Cert.KernelIdeal.KV

open Cert.KernelIdeal Cert.KernelIdeal.Gen Idealize.ShloMosaic Idealize.ShloMosaic.TcCoe

variable (V : (c : Dev nD) → (b : Ref sig .tc) → Buf (Elt Ideal) ((c : Thread nD τ).loc b))

theorem lin9_ix : BL.Mov win9_0.index ∧ BL.Fix win9_1.index ∧ BL.Mov win9_2.index := by decide +kernel

theorem lin9_out (c : Dev nD) (t : Fin cfg9.N) :
    (dat9 (F := Ideal) V c).flushed 2 t = k9_pay1 (iblk9 V c 0 t) (iblk9 V c 1 t) := by
  show (cfg9.win 2).cut (grid9.coords t) ((dat9 (F := Ideal) V c).after 2 t) = _
  rw [after9_2]
  unfold out9_2
  rw [View.canon_unit_zero BL.zeros]
  simp only [View.ld_unit_zero (S := S5000x64) BL.zeros, View.ld_unit_zero (S := S64x2) BL.zeros]
  rfl

-- block t of the output is block t of the whole matrix product, and the 20 blocks cover the rows
theorem arr9_2 (c : Dev nD) :
    (dat9 (F := Ideal) V c).arrAt 2 cfg9.N
      = Cert.Spec.toMat (Cert.Spec.lin (Cert.Spec.ofMat (V c (Pipeline.arrRef spec9 0))) (Cert.Spec.ofMat (V c (Pipeline.arrRef spec9 1)))) :=
  (dat9 (F := Ideal) V c).arrAt_eq_of_cover 2 _
    (fun t _ => (lin9_out V c t).trans (funext fun j => (BL.pay9_at _ _ j).trans (BL.lin_blk N_9 lin9_ix t _ _
      (win9_0.rect_emb_val t) (win9_1.rect_emb_val t) (win9_2.rect_emb_val t) (fun _ => rfl) (fun _ => rfl) j)))
    fun i => (BL.cover_pt N_9 lin9_ix.2.2 i).imp fun t h =>
      ⟨flush9_2 t, (BL.mem_slice_unit (Pipeline.arrRef spec9 2) _ i).2 h⟩

end Cert.KernelIdeal.KV

end
-- ==== Proof.KComb10.lean ====
import proofs.«426946_j20469814133009_2_alg».proof.Proof.Gen.KernelIdeal.Frame
import proofs.«426946_j20469814133009_2_alg».proof.Proof.KCombLib

noncomputable section

open Idealize.ShloMosaic Idealize.ShloMosaic.TcCoe Idealize.ShloMosaic.Tactic Idealize.ShloMosaic.ValueIdx

namespace Cert.KernelIdeal.KV.Comb10

open Cert.KernelIdeal Cert.KernelIdeal.Gen CombLib

section Pieces
variable {F : FTy → Type} [FloatOps F]
variable {c : Dev nD} {i : grid10.Coords}
  {a1 : Memref sig .tc .vmem S5000x2 .f32} {h1 : a1.IsWhole} {a2 : Memref sig .tc .vmem S5000x2 .f32} {h2 : a2.IsWhole}
  {a3 : Memref sig .tc .vmem S5000x1 .f32} {h3 : a3.IsWhole} {a4 : Memref sig .tc .vmem S1x2 .f32} {h4 : a4.IsWhole}
  {a5 : Memref sig .tc .vmem S5000x2 .f32} {h5 : a5.IsWhole} {a6 : Memref sig .tc .vmem S1x2 .f32} {h6 : a6.IsWhole}
  {a7 : Memref sig .tc .vmem S1x2 .f32} {h7 : a7.IsWhole}
  {x0 x1 : Vec F S5000x2 .f32} {x2 : Vec F S5000x1 .f32} {x3 xo5 xo6 : Vec F S1x2 .f32}

-- Every point leaves the combined block.
theorem outA4_eq (hc : cond10_0 i) :
    out10_A_4 c i a1 h1 a2 h2 a3 h3 a4 h4 a5 h5 a6 h6 a7 h7 hc x0 x1 x2 x3 = k10_pay3 x0 x1 x2 x3 := by
  unfold out10_A_4
  rw [View.read_writes_eq_canon _ _ _ (cover10_A_4 c i a1 h1 a2 h2 a3 h3 a4 h4 a5 h5 a6 h6 a7 h7 hc x0 x1 x2 x3)]
  unfold kernelRun10_A
  dsimp only
  sl_unfold_words
  rw [View.canon_unit_zero BL.zeros]
  simp only [View.readAt_eq_ld, h1.read_unread, h2.read_unread, h3.read_unread, h4.read_unread, h6.read_unread, h7.read_unread,
    View.ld_unit_zero (S := S5000x2) BL.zeros, View.ld_unit_zero (S := S5000x1) BL.zeros, View.ld_unit_zero (S := S1x2) BL.zeros]

theorem outB4_eq (hc : ¬cond10_0 i) :
    out10_B_4 c i a1 h1 a2 h2 a3 h3 a4 h4 a5 h5 a6 h6 a7 h7 hc x0 x1 x2 x3 xo5 xo6 = k10_pay3 x0 x1 x2 x3 := by
  unfold out10_B_4
  rw [View.read_writes_eq_canon _ _ _ (cover10_B_4 c i a1 h1 a2 h2 a3 h3 a4 h4 a5 h5 a6 h6 a7 h7 hc x0 x1 x2 x3 xo5 xo6)]
  unfold kernelRun10_B
  dsimp only
  sl_unfold_words
  rw [View.canon_unit_zero BL.zeros]
  simp only [View.readAt_eq_ld, h1.read_unread, h2.read_unread, h3.read_unread, h4.read_unread, h6.read_unread, h7.read_unread,
    View.ld_unit_zero (S := S5000x2) BL.zeros, View.ld_unit_zero (S := S5000x1) BL.zeros, View.ld_unit_zero (S := S1x2) BL.zeros]

end Pieces

-- entry (p, q) of the combined block: aggregate + layer output × the node's factor + bias
theorem pay3_apply (x0 x1 : Vec Ideal S5000x2 .f32) (x2 : Vec Ideal S5000x1 .f32) (x3 : Vec Ideal S1x2 .f32)
    (p : Fin 5000) (q : Fin 2) :
    k10_pay3 (F := Ideal) x0 x1 x2 x3 (ix2 p q)
      = (x0 (ix2 p q) + x1 (ix2 p q) * x2 (ix2 p (0 : Fin 1))) + x3 (ix2 (0 : Fin 1) q) := by
  unfold k10_pay3
  simp only [shapeCast_self]
  show (x0 (ix2 p q) + x1 (ix2 p q) * broadcastTo S5000x2 x2 broadcasts_S5000x1_S5000x2 (ix2 p q))
      + broadcastTo S5000x2 x3 broadcasts_S1x2_S5000x2 (ix2 p q) = _
  rw [bcast_col_apply x2 broadcasts_S5000x1_S5000x2 p q, broadcastTo_1b_ab_apply x3 broadcasts_S1x2_S5000x2 p q]

variable (V : (c : Dev nD) → (b : Ref sig .tc) → Buf (Elt Ideal) ((c : Thread nD τ).loc b))

theorem ix : BL.Mov win10_0.index ∧ BL.Mov win10_1.index ∧ BL.Mov win10_2.index ∧ BL.Fix win10_3.index
    ∧ BL.Mov win10_4.index := by decide +kernel

abbrev arrA (c : Dev nD) : FVec Ideal ⟨2, ![100000, 2]⟩ .f32 := V c (Pipeline.arrRef spec10 0)
abbrev arrH (c : Dev nD) : FVec Ideal ⟨2, ![100000, 2]⟩ .f32 := V c (Pipeline.arrRef spec10 1)
abbrev arrS (c : Dev nD) : FVec Ideal ⟨2, ![100000, 1]⟩ .f32 := V c (Pipeline.arrRef spec10 2)
abbrev arrB (c : Dev nD) : FVec Ideal ⟨2, ![1, 2]⟩ .f32 := V c (Pipeline.arrRef spec10 3)

abbrev tab (c : Dev nD) : Cert.Spec.Tab 100000 2 :=
  Cert.Spec.combPre (Cert.Spec.ofMat (arrA V c)) (Cert.Spec.ofMat (arrH V c)) (Cert.Spec.ofMat (arrS V c))
    (Cert.Spec.ofMat (arrB V c))

-- point t leaves rows 5000 t … 5000 t + 4999 of the table
theorem outs_tab (c : Dev nD) (t : Fin cfg10.N) (p : Fin 5000) (q : Fin 2) :
    (outsAt10 V c t.val t.isLt).1 (ix2 p q) = tab V c (BL.row N_10 t p) q := by
  have e : (outsAt10 V c t.val t.isLt).1 = k10_pay3 (iblk10 V c 0 t) (iblk10 V c 1 t) (iblk10 V c 2 t) (iblk10 V c 3 t) := by
    by_cases h0 : t.val % 20 = 0
    · rw [outsAt10_A V c t h0]; dsimp only; rw [outA4_eq]
    · rw [outsAt10_B V c t h0]; dsimp only; rw [outB4_eq]
  rw [e, pay3_apply]
  exact pre_apply N_10 ix t _ _ _ _ (win10_0.rect_emb_val t) (win10_1.rect_emb_val t) (win10_2.rect_emb_val t)
    (win10_3.rect_emb_val t) (fun _ => rfl) (fun _ => rfl) (fun _ => rfl) (fun _ => rfl) p q

theorem flushed4_eq (c : Dev nD) (t : Fin cfg10.N) :
    (dat10 (F := Ideal) V c).flushed 4 t = ((cfg10.win 4).blk t).view.read (Elt Ideal) (Cert.Spec.toMat (tab V c)) := by
  show (cfg10.win 4).cut (grid10.coords t) ((dat10 (F := Ideal) V c).after 4 t) = _
  rw [after10_4 V c t]
  exact read_mov ix.2.2.2.2 N_10 t (win10_4.rect_emb_val t) (fun _ _ => rfl) (outs_tab V c t)

end Cert.KernelIdeal.KV.Comb10

namespace Cert.KernelIdeal.KV

open Cert.KernelIdeal Cert.KernelIdeal.Gen

variable (V : (c : Dev nD) → (b : Ref sig .tc) → Buf (Elt Ideal) ((c : Thread nD τ).loc b))

theorem arr10_4 (c : Dev nD) :
    (dat10 (F := Ideal) V c).arrAt 4 cfg10.N = Cert.Spec.toMat (Comb10.tab V c) :=
  (dat10 (F := Ideal) V c).arrAt_eq_of_cover 4 _ (fun t _ => Comb10.flushed4_eq V c t) fun i =>
    (BL.cover_pt N_10 Comb10.ix.2.2.2.2 i).imp fun t h =>
      ⟨flush10_4 t, (BL.mem_slice_unit (Pipeline.arrRef spec10 4) _ i).2 h⟩

end Cert.KernelIdeal.KV

end
-- ==== Proof.KPool11.lean ====
import proofs.«426946_j20469814133009_2_alg».proof.Proof.Gen.KernelIdeal.Frame
import proofs.«426946_j20469814133009_2_alg».proof.Proof.KCombLib
import proofs.«426946_j20469814133009_2_alg».proof.Proof.KBnLinLib

set_option maxRecDepth 16384

noncomputable section

open scoped BigOperators

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

namespace Pool11

open BL (zeros Ix)
open Cert.Spec (hot poolSums poolCnt ofMat toMat Tab)

-- Entry (r, b) of the one-hot matrix: 1 when row r's word is b, else 0.
theorem hot_entry (w : Vec Ideal S5000x1 .i32) (r : Fin 5000) (b : Fin 64) :
    k11_pay3 (F := Ideal) w (ix2 r b) = hot (w (ix2 r (0 : Fin 1))) b := by
  unfold k11_pay3
  have e1 : broadcastTo S5000x64 (shapeCast S5000x1 w shapeCasts_S5000x1_S5000x1) broadcasts_S5000x1_S5000x64 (ix2 r b)
      = w (ix2 r (0 : Fin 1)) := by
    rw [shapeCast_self]
    exact broadcastTo_apply _ _ _ (ix2 r (0 : Fin 1)) (fun a => by
      match a with
      | ⟨0, _⟩ => rfl
      | ⟨1, _⟩ => rfl)
  have e2 : iota .tc S5000x64 32 [1] iota_S5000x64_d1_w32 (ix2 r b) = BitVec.ofNat 32 b.val :=
    iota_single_apply .tc S5000x64 32 1 iota_S5000x64_d1_w32 (ix2 r b)
  show ((((IntOp.cmpi .eq
      (broadcastTo S5000x64 (shapeCast S5000x1 w shapeCasts_S5000x1_S5000x1) broadcasts_S5000x1_S5000x64 (ix2 r b))
      (iota .tc S5000x64 32 [1] iota_S5000x64_d1_w32 (ix2 r b))).setWidth 32 : BitVec 32).toInt : ℝ) : EReal) = _
  rw [e1, e2]
  rfl

-- The product contracts the rows of both factors: entry (b, d) gains the sum over rows of hot · x.
theorem sums_update (w : Vec Ideal S5000x1 .i32) (x : Vec Ideal S5000x2 .f32) (acc : Vec Ideal S64x2 .f32)
    (b : Fin 64) (d : Fin 2) :
    k11_pay4 (F := Ideal) w x acc (ix2 b d)
      = acc (ix2 b d) + ∑ r : Fin 5000, hot (w (ix2 r (0 : Fin 1))) b * x (ix2 r d) := by
  unfold k11_pay4
  show (shapeCast S64x2 acc shapeCasts_S64x2_S64x2) (ix2 b d)
      + FloatOps.matmul dot_S5000x64_S5000x2_S64x2_0_0_1_1_n_n none
          (truncf .bf16 (k11_pay3 (F := Ideal) w) bitsLt_bf16_f32)
          (truncf .bf16 (shapeCast S5000x2 x shapeCasts_S5000x2_S5000x2) bitsLt_bf16_f32)
          (constant (F := Ideal) S64x2 .f32 0x00000000#32) (ix2 b d) = _
  rw [shapeCast_self, shapeCast_self, Ideal.matmul_constant_zero_apply,
    ← Equiv.sum_comp (contrEquiv1 dot_S5000x64_S5000x2_S64x2_0_0_1_1_n_n 5000 rfl rfl).symm]
  refine congrArg (acc (ix2 b d) + ·) (Finset.sum_congr rfl fun r _ => ?_)
  have hk := contrEquiv1_symm_val dot_S5000x64_S5000x2_S64x2_0_0_1_1_n_n 5000 rfl rfl r
  have l2 : dot_S5000x64_S5000x2_S64x2_0_0_1_1_n_n.lhsIdx (ix2 b d) ((contrEquiv1 dot_S5000x64_S5000x2_S64x2_0_0_1_1_n_n 5000 rfl rfl).symm r) = ix2 r b :=
    Shape.idx_ext₂ ((DotDims.lhsIdx_val_of_single _ (cl := 0) rfl _ _).trans hk)
      (by simp [DotDims.lhsIdx, dot_S5000x64_S5000x2_S64x2_0_0_1_1_n_n]; rfl)
  have r2 : dot_S5000x64_S5000x2_S64x2_0_0_1_1_n_n.rhsIdx (ix2 b d) ((contrEquiv1 dot_S5000x64_S5000x2_S64x2_0_0_1_1_n_n 5000 rfl rfl).symm r) = ix2 r d :=
    Shape.idx_ext₂ ((DotDims.rhsIdx_val_of_single _ (cr := 0) rfl _ _).trans hk)
      (by simp [DotDims.rhsIdx, dot_S5000x64_S5000x2_S64x2_0_0_1_1_n_n]; rfl)
  rw [l2, r2]
  show k11_pay3 (F := Ideal) w (ix2 r b) * x (ix2 r d) = _
  rw [hot_entry]

theorem sizes_update (w : Vec Ideal S5000x1 .i32) (acc : Vec Ideal S1x64 .f32) (b : Fin 64) :
    k11_pay5 (F := Ideal) w acc (ix2 (0 : Fin 1) b)
      = acc (ix2 (0 : Fin 1) b) + ∑ r : Fin 5000, hot (w (ix2 r (0 : Fin 1))) b := by
  unfold k11_pay5
  simp only [shapeCast_self]
  exact congrArg (acc (ix2 (0 : Fin 1) b) + ·)
    ((CombLib.colsum_apply 0 b _).trans (Finset.sum_congr rfl fun r _ => hot_entry w r b))

section Pieces
variable {F : FTy → Type} [FloatOps F]
variable {c : Dev nD} {i : grid11.Coords} {a1 : Memref sig .tc .vmem S5000x2 .f32} {h1 : a1.IsWhole}
  {a2 : Memref sig .tc .vmem S5000x1 .i32} {h2 : a2.IsWhole} {a3 : Memref sig .tc .vmem S64x2 .f32} {h3 : a3.IsWhole}
  {a4 : Memref sig .tc .vmem S1x64 .f32} {h4 : a4.IsWhole}
  {x0 : Vec F S5000x2 .f32} {x1 : Vec F S5000x1 .i32} {xo2 : Vec F S64x2 .f32} {xo3 : Vec F S1x64 .f32}

-- Point 0 leaves each output as its update of zero, a later point as its update of what was there.
theorem out_A_2 (hc : cond11_0 i) :
    out11_A_2 c i a1 h1 a2 h2 a3 h3 a4 h4 hc x0 x1 = k11_pay4 x1 x0 (k11_pay1 (F := F)) := by
  unfold out11_A_2
  rw [View.read_writes_eq_canon _ _ _ (cover11_A_2 c i a1 h1 a2 h2 a3 h3 a4 h4 hc x0 x1)]
  unfold kernelRun11_A
  dsimp only
  sl_unfold_words
  rw [View.canon_cons_unit_zero (S := S64x2) zeros, View.readCov_unit_zero (S := S64x2) _ zeros]
  simp only [View.readAt_eq_ld, h1.read_unread, h2.read_unread, h3.read_unread, h4.read_unread,
    View.ld_unit_zero (S := S5000x2) zeros, View.ld_unit_zero (S := S5000x1) zeros, View.ld_unit_zero (S := S64x2) zeros,
    View.ld_unit_zero (S := S1x64) zeros]

theorem out_A_3 (hc : cond11_0 i) :
    out11_A_3 c i a1 h1 a2 h2 a3 h3 a4 h4 hc x0 x1 = k11_pay5 x1 (k11_pay2 (F := F)) := by
  unfold out11_A_3
  rw [View.read_writes_eq_canon _ _ _ (cover11_A_3 c i a1 h1 a2 h2 a3 h3 a4 h4 hc x0 x1)]
  unfold kernelRun11_A
  dsimp only
  sl_unfold_words
  rw [View.canon_cons_unit_zero (S := S1x64) zeros, View.readCov_unit_zero (S := S1x64) _ zeros]
  simp only [View.readAt_eq_ld, h1.read_unread, h2.read_unread, h3.read_unread, h4.read_unread,
    View.ld_unit_zero (S := S5000x2) zeros, View.ld_unit_zero (S := S5000x1) zeros, View.ld_unit_zero (S := S64x2) zeros,
    View.ld_unit_zero (S := S1x64) zeros]

theorem out_B_2 (hc : ¬cond11_0 i) :
    out11_B_2 c i a1 h1 a2 h2 a3 h3 a4 h4 hc x0 x1 xo2 xo3 = k11_pay4 x1 x0 xo2 := by
  unfold out11_B_2
  rw [View.read_writes_eq_canon _ _ _ (cover11_B_2 c i a1 h1 a2 h2 a3 h3 a4 h4 hc x0 x1 xo2 xo3)]
  unfold kernelRun11_B
  dsimp only
  sl_unfold_words
  rw [View.canon_unit_zero zeros]
  simp only [View.readAt_eq_ld, h1.read_unread, h2.read_unread, h3.read_unread, h4.read_unread,
    View.ld_unit_zero (S := S5000x2) zeros, View.ld_unit_zero (S := S5000x1) zeros, View.ld_unit_zero (S := S64x2) zeros,
    View.ld_unit_zero (S := S1x64) zeros]

theorem out_B_3 (hc : ¬cond11_0 i) :
    out11_B_3 c i a1 h1 a2 h2 a3 h3 a4 h4 hc x0 x1 xo2 xo3 = k11_pay5 x1 xo3 := by
  unfold out11_B_3
  rw [View.read_writes_eq_canon _ _ _ (cover11_B_3 c i a1 h1 a2 h2 a3 h3 a4 h4 hc x0 x1 xo2 xo3)]
  unfold kernelRun11_B
  dsimp only
  sl_unfold_words
  rw [View.canon_unit_zero zeros]
  simp only [View.readAt_eq_ld, h1.read_unread, h2.read_unread, h3.read_unread, h4.read_unread,
    View.ld_unit_zero (S := S5000x2) zeros, View.ld_unit_zero (S := S5000x1) zeros, View.ld_unit_zero (S := S64x2) zeros,
    View.ld_unit_zero (S := S1x64) zeros]

end Pieces

variable (V : (c : Dev nD) → (b : Ref sig .tc) → Buf (Elt Ideal) ((c : Thread nD τ).loc b))

abbrev tblk (c : Dev nD) (t : Fin cfg11.N) : Vec Ideal S5000x2 .f32 := iblk11 V c 0 t
abbrev wblk (c : Dev nD) (t : Fin cfg11.N) : Vec Ideal S5000x1 .i32 := iblk11 V c 1 t
abbrev tarr (c : Dev nD) : Vec Ideal S100000x2 .f32 := V c (Pipeline.arrRef spec11 0)
abbrev warr (c : Dev nD) : Vec Ideal S100000x1 .i32 := V c (Pipeline.arrRef spec11 1)

theorem outs0 (c : Dev nD) (h : 0 < cfg11.N) :
    outsAt11 V c 0 h = (k11_pay4 (wblk V c ⟨0, h⟩) (tblk V c ⟨0, h⟩) (k11_pay1 (F := Ideal)),
      k11_pay5 (wblk V c ⟨0, h⟩) (k11_pay2 (F := Ideal))) := by
  rw [outsAt11_A V c ⟨0, h⟩ rfl, out_A_2, out_A_3]

theorem outsS (c : Dev nD) (n : ℕ) (h : n + 1 < cfg11.N) :
    outsAt11 V c (n + 1) h = (k11_pay4 (wblk V c ⟨n + 1, h⟩) (tblk V c ⟨n + 1, h⟩) (outsAt11 V c n (Nat.lt_of_succ_lt h)).1,
      k11_pay5 (wblk V c ⟨n + 1, h⟩) (outsAt11 V c n (Nat.lt_of_succ_lt h)).2) := by
  have hN : cfg11.N = 20 := N_11
  have hB : ¬(⟨n + 1, h⟩ : Fin cfg11.N).val % 20 = 0 := by dsimp only; omega
  rw [outsAt11_B V c ⟨n + 1, h⟩ hB]
  dsimp only
  rw [out_B_2, out_B_3]
  rfl

theorem blocks : BL.Mov (N := cfg11.N) win11_0.index ∧ BL.Mov (N := cfg11.N) win11_1.index
    ∧ BL.Fix (N := cfg11.N) win11_2.index ∧ BL.Fix (N := cfg11.N) win11_3.index := by
  decide +kernel

theorem emb0 (t : Fin cfg11.N) : BL.Emb ((cfg11.win 0).blk t).view.emb (win11_0.index t) :=
  fun _ _ => congrArg (_ + ·) (Nat.one_mul _)
theorem emb1 (t : Fin cfg11.N) : BL.Emb ((cfg11.win 1).blk t).view.emb (win11_1.index t) :=
  fun _ _ => congrArg (_ + ·) (Nat.one_mul _)
theorem emb2 (t : Fin cfg11.N) : BL.Emb ((cfg11.win 2).blk t).view.emb (win11_2.index t) :=
  fun _ _ => congrArg (_ + ·) (Nat.one_mul _)
theorem emb3 (t : Fin cfg11.N) : BL.Emb ((cfg11.win 3).blk t).view.emb (win11_3.index t) :=
  fun _ _ => congrArg (_ + ·) (Nat.one_mul _)

theorem tblk_apply (c : Dev nD) (t : Fin cfg11.N) (r : Fin 5000) (d : Fin 2) :
    tblk V c t (ix2 r d) = tarr V c (ix2 (BL.row N_11 t r) d) :=
  congrArg (tarr V c) (BL.mov_emb blocks.1 N_11 t (emb0 t) (ix2 r d))
theorem wblk_apply (c : Dev nD) (t : Fin cfg11.N) (r : Fin 5000) (z : Fin 1) :
    wblk V c t (ix2 r z) = warr V c (ix2 (BL.row N_11 t r) z) :=
  congrArg (warr V c) (BL.mov_emb blocks.2.1 N_11 t (emb1 t) (ix2 r z))

-- Each output starts at block 0's sum and gains block n's at point n: after the last point it is the sum over all nodes.
theorem sums_final (c : Dev nD) (h : 19 < cfg11.N) (b : Fin 64) (d : Fin 2) :
    (outsAt11 V c 19 h).1 (ix2 b d) = poolSums (ofMat (tarr V c)) (warr V c) b d :=
  CombLib.fold_total N_11 (fun n => hot (warr V c (ix2 n (0 : Fin 1))) b * tarr V c (ix2 n d))
    (fun n h => (outsAt11 V c n h).1 (ix2 b d))
    (fun h => by
      rw [outs0 V c h]
      refine (sums_update _ _ _ b d).trans (congrArg₂ (· + ·) Ideal.ofBits_zero_f32 (Finset.sum_congr rfl fun r _ => ?_))
      rw [wblk_apply, tblk_apply])
    (fun n h => by
      rw [outsS V c n h]
      refine (sums_update _ _ _ b d).trans (congrArg (_ + ·) (Finset.sum_congr rfl fun r _ => ?_))
      rw [wblk_apply, tblk_apply]) h

theorem cnt_final (c : Dev nD) (h : 19 < cfg11.N) (z : Fin 1) (b : Fin 64) :
    (outsAt11 V c 19 h).2 (ix2 (0 : Fin 1) b) = poolCnt (warr V c) z b :=
  CombLib.fold_total N_11 (fun n => hot (warr V c (ix2 n (0 : Fin 1))) b)
    (fun n h => (outsAt11 V c n h).2 (ix2 (0 : Fin 1) b))
    (fun h => by
      rw [outs0 V c h]
      refine (sizes_update _ _ b).trans (congrArg₂ (· + ·) Ideal.ofBits_zero_f32 (Finset.sum_congr rfl fun r _ => ?_))
      rw [wblk_apply])
    (fun n h => by
      rw [outsS V c n h]
      refine (sizes_update _ _ b).trans (congrArg (_ + ·) (Finset.sum_congr rfl fun r _ => ?_))
      rw [wblk_apply]) h

-- A block that is the whole array: contents that are a table entry by entry are what its view reads of the table.
theorem read_fix {R C : ℕ} {e : Ix R C → Ix R C} (he : ∀ y, e y = y) (rd : (Ix R C → EReal) → Ix R C → EReal)
    (hrd : ∀ f j, rd f j = f (e j)) (X : Ix R C → EReal) (G : Tab R C) (hX : ∀ p q, X (ix2 p q) = G p q) :
    X = rd (toMat G) :=
  funext fun j => ((congrArg X (eq_ix2 j)).trans (hX _ _)).trans ((hrd (toMat G) j).trans (congrArg (toMat G) (he j))).symm

abbrev tLast : Fin cfg11.N := ⟨19, lt_of_lt_of_eq (by decide) N_11.symm⟩

theorem flushed_2 (c : Dev nD) (t : Fin cfg11.N) (hf : (cfg11.win 2).flush t = true) :
    (dat11 V c).flushed 2 t = ((cfg11.win 2).blk t).view.read (Elt Ideal)
      (toMat (poolSums (ofMat (tarr V c)) (warr V c))) := by
  have hN : cfg11.N = 20 := N_11
  have h19 : t.val = 19 := by have := (flush11_2 t).mp hf; have := t.isLt; omega
  show (cfg11.win 2).cut (grid11.coords t) ((dat11 V c).after 2 t) = _
  rw [after11_2 V c t]
  refine read_fix (BL.fix_emb blocks.2.2.1 t (emb2 t)) (((cfg11.win 2).blk t).view.read (Elt Ideal)) (fun _ _ => rfl) _ _
    fun b d => ?_
  obtain ⟨n, hn⟩ := t
  obtain rfl : n = 19 := h19
  exact sums_final V c hn b d

theorem flushed_3 (c : Dev nD) (t : Fin cfg11.N) (hf : (cfg11.win 3).flush t = true) :
    (dat11 V c).flushed 3 t = ((cfg11.win 3).blk t).view.read (Elt Ideal) (toMat (poolCnt (warr V c))) := by
  have hN : cfg11.N = 20 := N_11
  have h19 : t.val = 19 := by have := (flush11_3 t).mp hf; have := t.isLt; omega
  show (cfg11.win 3).cut (grid11.coords t) ((dat11 V c).after 3 t) = _
  rw [after11_3 V c t]
  refine read_fix (BL.fix_emb blocks.2.2.2 t (emb3 t)) (((cfg11.win 3).blk t).view.read (Elt Ideal)) (fun _ _ => rfl) _ _
    fun z b => ?_
  obtain ⟨n, hn⟩ := t
  obtain rfl : n = 19 := h19
  obtain rfl : z = 0 := Subsingleton.elim _ _
  exact cnt_final V c hn 0 b

end Pool11

variable (V : (c : Dev nD) → (b : Ref sig .tc) → Buf (Elt Ideal) ((c : Thread nD τ).loc b))

theorem arr11_2 (c : Dev nD) : (dat11 (F := Ideal) V c).arrAt 2 cfg11.N
    = Cert.Spec.toMat (Cert.Spec.poolSums (Cert.Spec.ofMat (V c (Pipeline.arrRef spec11 0))) (V c (Pipeline.arrRef spec11 1))) :=
  (dat11 V c).arrAt_eq_of_cover 2 _ (Pool11.flushed_2 V c) fun i =>
    ⟨Pool11.tLast, (flush11_2 _).mpr rfl, by
      rw [← BL.fix_emb Pool11.blocks.2.2.1 Pool11.tLast (Pool11.emb2 Pool11.tLast) i]; exact View.emb_mem_set _ i⟩

theorem arr11_3 (c : Dev nD) : (dat11 (F := Ideal) V c).arrAt 3 cfg11.N
    = Cert.Spec.toMat (Cert.Spec.poolCnt (V c (Pipeline.arrRef spec11 1))) :=
  (dat11 V c).arrAt_eq_of_cover 3 _ (Pool11.flushed_3 V c) fun i =>
    ⟨Pool11.tLast, (flush11_3 _).mpr rfl, by
      rw [← BL.fix_emb Pool11.blocks.2.2.2 Pool11.tLast (Pool11.emb3 Pool11.tLast) i]; exact View.emb_mem_set _ i⟩

end Cert.KernelIdeal.KV

end
-- ==== Proof.KChainL3.lean ====
import proofs.«426946_j20469814133009_2_alg».proof.Proof.Gen.KernelIdeal.Frame
import proofs.«426946_j20469814133009_2_alg».proof.Proof.KSpec
import proofs.«426946_j20469814133009_2_alg».proof.Proof.KChainAlg
import proofs.«426946_j20469814133009_2_alg».proof.Proof.KChainC3
import proofs.«426946_j20469814133009_2_alg».proof.Proof.KLin9
import proofs.«426946_j20469814133009_2_alg».proof.Proof.KComb10
import proofs.«426946_j20469814133009_2_alg».proof.Proof.KPool11
import proofs.«426946_j20469814133009_2_alg».proof.Proof.KG
import proofs.«426946_j20469814133009_2_alg».proof.Proof.KConv

noncomputable section

open scoped BigOperators

namespace Cert.KernelIdeal.KV

open Idealize.ShloMosaic Idealize.ShloMosaic.TcCoe Idealize.ShloMosaic.ValueIdx Cert.KernelIdeal Cert.KernelIdeal.Gen Cert.Spec

variable (m : (ℓ : Loc nD τ sig) → Buf (Elt Ideal) ℓ) (ρ : Dev nD → PrngReg)

set_option maxHeartbeats 4000000 in
theorem tail (c : Dev nD) (ei : IVec S2x1200000 32) (bt : IVec S100000 32) (H : Tab 100000 64)
    (Wout : FVec Ideal S64x2 .f32) (bout : FVec Ideal S2 .f32)
    (hH : ofMat (W18 m ρ c (Proc.devRef .tc main_v123) : FVec Ideal S100000x64 .f32) = H)
    (h1 : ∀ e, (W18 m ρ c (Proc.devRef .tc main_v1) : IVec S1200000 32) (ix1 e) = src ei e)
    (h3 : ∀ e, (W18 m ρ c (Proc.devRef .tc main_v3) : IVec S1200000 32) (ix1 e) = dst ei e)
    (h14 : ∀ n, (W18 m ρ c (Proc.devRef .tc main_v14) : FVec Ideal S100000x1 .f32) (ix2 n (0 : Fin 1)) = dinv ei n * dinv ei n)
    (h30 : ∀ e, (W18 m ρ c (Proc.devRef .tc main_v30) : FVec Ideal S1200000x1 .f32) (ix2 e (0 : Fin 1)) = enorm ei e)
    (h4 : ∀ n, (W18 m ρ c (Proc.devRef .tc main_v4) : IVec S100000x1 32) (ix2 n (0 : Fin 1)) = bt (ix1 n))
    (ha5 : (W18 m ρ c (Proc.devRef .tc main_arg5) : FVec Ideal S64x2 .f32) = Wout) (ha6 : (W18 m ρ c (Proc.devRef .tc main_arg6) : FVec Ideal S2 .f32) = bout) :
    ofMat (W23 m ρ c (Proc.devRef .tc main_v144) : FVec Ideal S64x2 .f32)
      = fun b d => Ideal.div (∑ n : Fin 100000, hot (bt (ix1 n)) b * conv ei (lin H (ofMat Wout)) (ofVec bout) n d) (max (cntK bt b) one) := by

  have hL : ofMat (W19 m ρ c (Proc.devRef .tc main_v124) : FVec Ideal S100000x2 .f32) = lin H (ofMat Wout) := by
    have e : (W19 m ρ c (Proc.devRef .tc main_v124) : FVec Ideal S100000x2 .f32) = toMat (lin (ofMat (W18 m ρ c (Proc.devRef .tc main_v123) : FVec Ideal S100000x64 .f32)) (ofMat (W18 m ρ c (Proc.devRef .tc main_arg5) : FVec Ideal S64x2 .f32))) :=
      (W19_arr m ρ c 2).trans (arr9_2 (V18 m ρ) c)
    rw [e, ofMat_toMat, hH, ha5]
  have hbs : ∀ j, (W19 m ρ c (Proc.devRef .tc main_arg6) : FVec Ideal S2 .f32) (ix1 j) = ofVec bout j := fun j => by
    rw [s19 m ρ c main_arg6 (by decide), ha6]; rfl
  generalize lin H (ofMat Wout) = L at hL ⊢
  generalize ofVec bout = bias at hbs ⊢

  have hA : ofMat (W20 m ρ c (Proc.devRef .tc main_v136) : FVec Ideal S100000x2 .f32) = agg ei L := by
    funext n j
    refine (agg2_read (st10_v136_term (W19 m ρ c)) n j).trans ?_
    simp only [s19 m ρ c main_v3 (by decide), s19 m ρ c main_v1 (by decide), s19 m ρ c main_v30 (by decide), h3, h1, h30, hL, agg, inEdges]
  have hb : ∀ j, ofMat (W20 m ρ c (Proc.devRef .tc main_v137) : FVec Ideal S1x2 .f32) 0 j = bias j := fun j =>
    (row_read (st10_v137_term (W19 m ρ c)) j).trans (hbs j)

  have hL' : ofMat (W20 m ρ c (Proc.devRef .tc main_v124) : FVec Ideal S100000x2 .f32) = L := by rw [s20 m ρ c main_v124 (by decide)]; exact hL
  have hsn : ∀ n, ofMat (W20 m ρ c (Proc.devRef .tc main_v14) : FVec Ideal S100000x1 .f32) n 0 = dinv ei n * dinv ei n := fun n => by
    show (W20 m ρ c (Proc.devRef .tc main_v14) : FVec Ideal S100000x1 .f32) (ix2 n (0 : Fin 1)) = _
    rw [c18_20 m ρ c main_v14 (by decide)]; exact h14 n
  have hcomb : Comb10.tab (V20 m ρ) c = conv ei L bias :=
    combPre_eq_conv ei _ _ _ _ L bias hL' hA hsn hb
  have hT0 : ofMat (W21 m ρ c (Proc.devRef .tc main_v138_0) : FVec Ideal S100000x2 .f32) = conv ei L bias := by
    have e : (W21 m ρ c (Proc.devRef .tc main_v138_0) : FVec Ideal S100000x2 .f32) = toMat (Comb10.tab (V20 m ρ) c) :=
      (W21_arr m ρ c 4).trans (arr10_4 (V20 m ρ) c)
    rw [e, ofMat_toMat, hcomb]

  have hw : ∀ n, (W21 m ρ c (Proc.devRef .tc main_v4) : IVec S100000x1 32) (ix2 n (0 : Fin 1)) = bt (ix1 n) := fun n => by
    rw [c18_21 m ρ c main_v4 (by decide)]; exact h4 n
  have e0 : (W22 m ρ c (Proc.devRef .tc main_v139_0) : FVec Ideal S64x2 .f32) = toMat (poolSums (ofMat (W21 m ρ c (Proc.devRef .tc main_v138_0) : FVec Ideal S100000x2 .f32)) (W21 m ρ c (Proc.devRef .tc main_v4) : IVec S100000x1 32)) :=
    (W22_arr m ρ c 2).trans (arr11_2 (V21 m ρ) c)
  have e1 : (W22 m ρ c (Proc.devRef .tc main_v139_1) : FVec Ideal S1x64 .f32) = toMat (poolCnt (W21 m ρ c (Proc.devRef .tc main_v4) : IVec S100000x1 32)) :=
    (W22_arr m ρ c 3).trans (arr11_3 (V21 m ρ) c)

  funext b d
  refine (st12_v144 (W22 m ρ c) b d).trans ?_
  rw [e0, e1, toMat_apply, toMat_apply, hT0, poolSums_eq _ _ bt hw, poolCnt_eq _ bt hw]

end Cert.KernelIdeal.KV

end
-- ==== Proof.KChain.lean ====
import proofs.«426946_j20469814133009_2_alg».proof.Proof.Gen.KernelIdeal.Frame
import proofs.«426946_j20469814133009_2_alg».proof.Proof.KSpec
import proofs.«426946_j20469814133009_2_alg».proof.Proof.KChainAlg
import proofs.«426946_j20469814133009_2_alg».proof.Proof.KChainC0
import proofs.«426946_j20469814133009_2_alg».proof.Proof.KChainC1
import proofs.«426946_j20469814133009_2_alg».proof.Proof.KChainC2
import proofs.«426946_j20469814133009_2_alg».proof.Proof.KChainC3
import proofs.«426946_j20469814133009_2_alg».proof.Proof.KChainL0
import proofs.«426946_j20469814133009_2_alg».proof.Proof.KChainL1
import proofs.«426946_j20469814133009_2_alg».proof.Proof.KChainL2
import proofs.«426946_j20469814133009_2_alg».proof.Proof.KChainL3

noncomputable section

open scoped BigOperators

namespace Cert.KernelIdeal.KV

open Idealize.ShloMosaic Idealize.ShloMosaic.TcCoe Idealize.ShloMosaic.ValueIdx Cert.KernelIdeal Cert.KernelIdeal.Gen Cert.Spec

variable (m : (ℓ : Loc nD τ sig) → Buf (Elt Ideal) ℓ) (ρ : Dev nD → PrngReg)

theorem kernel_value (c : Dev nD) :
    (W23 m ρ c (Proc.devRef .tc main_v144) : FVec Ideal S64x2 .f32)
      = toMat (outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))) := by
  apply eq_toMat_of_ofMat
  obtain ⟨g1, g3, g4, g14, g30⟩ := graph1 m ρ c (m ((c : Thread nD τ).loc main_arg9)) (m ((c : Thread nD τ).loc main_arg10)) rfl rfl

  have l0 : ofMat (W6 m ρ c (Proc.devRef .tc main_v59) : FVec Ideal S100000x64 .f32)
      = h1K (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
    unfold h1K t0
    exact layer0 m ρ c (m ((c : Thread nD τ).loc main_arg9)) (m ((c : Thread nD τ).loc main_arg0)) (m ((c : Thread nD τ).loc main_arg1)) (m ((c : Thread nD τ).loc main_arg2)) (m ((c : Thread nD τ).loc main_arg7)) (m ((c : Thread nD τ).loc main_arg8)) g1 g3 g14 g30 rfl rfl rfl rfl rfl

  have l1 : ofMat (W12 m ρ c (Proc.devRef .tc main_v91) : FVec Ideal S100000x64 .f32)
      = h2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
    unfold h2K t1K
    exact layer1 m ρ c (m ((c : Thread nD τ).loc main_arg9)) _ (m ((c : Thread nD τ).loc main_arg3)) (m ((c : Thread nD τ).loc main_arg4)) (m ((c : Thread nD τ).loc main_arg7)) (m ((c : Thread nD τ).loc main_arg8)) l0
      (fun e => by rw [c1_6 m ρ c main_v1 (by decide)]; exact g1 e) (fun e => by rw [c1_6 m ρ c main_v3 (by decide)]; exact g3 e)
      (fun n => by rw [c1_6 m ρ c main_v14 (by decide)]; exact g14 n) (fun e => by rw [c1_6 m ρ c main_v30 (by decide)]; exact g30 e)
      (c0_6 m ρ c main_arg3 (by decide)) (c0_6 m ρ c main_arg4 (by decide)) (c0_6 m ρ c main_arg7 (by decide)) (c0_6 m ρ c main_arg8 (by decide))

  have l2 : ofMat (W18 m ρ c (Proc.devRef .tc main_v123) : FVec Ideal S100000x64 .f32)
      = h3K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
    unfold h3K t2K
    exact layer2 m ρ c (m ((c : Thread nD τ).loc main_arg9)) _ (m ((c : Thread nD τ).loc main_arg3)) (m ((c : Thread nD τ).loc main_arg4)) (m ((c : Thread nD τ).loc main_arg7)) (m ((c : Thread nD τ).loc main_arg8)) l1
      (fun e => by rw [c6_12 m ρ c main_v1 (by decide), c1_6 m ρ c main_v1 (by decide)]; exact g1 e) (fun e => by rw [c6_12 m ρ c main_v3 (by decide), c1_6 m ρ c main_v3 (by decide)]; exact g3 e)
      (fun n => by rw [c6_12 m ρ c main_v14 (by decide), c1_6 m ρ c main_v14 (by decide)]; exact g14 n) (fun e => by rw [c6_12 m ρ c main_v30 (by decide), c1_6 m ρ c main_v30 (by decide)]; exact g30 e)
      ((c6_12 m ρ c main_arg3 (by decide)).trans (c0_6 m ρ c main_arg3 (by decide))) ((c6_12 m ρ c main_arg4 (by decide)).trans (c0_6 m ρ c main_arg4 (by decide)))
      ((c6_12 m ρ c main_arg7 (by decide)).trans (c0_6 m ρ c main_arg7 (by decide))) ((c6_12 m ρ c main_arg8 (by decide)).trans (c0_6 m ρ c main_arg8 (by decide)))

  unfold outK sumsK t3K
  exact tail m ρ c (m ((c : Thread nD τ).loc main_arg9)) (m ((c : Thread nD τ).loc main_arg10)) _ (m ((c : Thread nD τ).loc main_arg5)) (m ((c : Thread nD τ).loc main_arg6)) l2
      (fun e => by rw [c12_18 m ρ c main_v1 (by decide), c6_12 m ρ c main_v1 (by decide), c1_6 m ρ c main_v1 (by decide)]; exact g1 e) (fun e => by rw [c12_18 m ρ c main_v3 (by decide), c6_12 m ρ c main_v3 (by decide), c1_6 m ρ c main_v3 (by decide)]; exact g3 e)
      (fun n => by rw [c12_18 m ρ c main_v14 (by decide), c6_12 m ρ c main_v14 (by decide), c1_6 m ρ c main_v14 (by decide)]; exact g14 n) (fun e => by rw [c12_18 m ρ c main_v30 (by decide), c6_12 m ρ c main_v30 (by decide), c1_6 m ρ c main_v30 (by decide)]; exact g30 e)
      (fun n => by rw [c12_18 m ρ c main_v4 (by decide), c6_12 m ρ c main_v4 (by decide), c1_6 m ρ c main_v4 (by decide)]; exact g4 n)
      (((c12_18 m ρ c main_arg5 (by decide)).trans (c6_12 m ρ c main_arg5 (by decide))).trans (c0_6 m ρ c main_arg5 (by decide)))
      (((c12_18 m ρ c main_arg6 (by decide)).trans (c6_12 m ρ c main_arg6 (by decide))).trans (c0_6 m ρ c main_arg6 (by decide)))

end Cert.KernelIdeal.KV

end
-- ==== Proof.ROps.lean ====
import proofs.«426946_j20469814133009_2_alg».proof.ReferenceIdeal
import proofs.«426946_j20469814133009_2_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg9 main_v0 ((extractStridedSlice S1x1200000 ![0, 0] · slices_S2x1200000_S1x1200000_0_0)),
    StableHlo.reshape main_v0 main_v1 rfl shapeCasts_S1x1200000_S1200000,
    StableHlo.unary main_arg9 main_v2 ((extractStridedSlice S1x1200000 ![1, 0] · slices_S2x1200000_S1x1200000_1_0)),
    StableHlo.reshape main_v2 main_v3 rfl shapeCasts_S1x1200000_S1200000,
    StableHlo.nullary main_cst (constant S_ .f32 0x3F800000#32),
    StableHlo.unary main_cst main_v4 (broadcastInDim S1200000 ![] bcast_S_S1200000),
    StableHlo.nullary main_cst_0 (constant S_ .f32 0x00000000#32),
    StableHlo.unary main_cst_0 main_v5 (broadcastInDim S100000 ![] bcast_S_S100000),
    StableHlo.unary main_v3 main_v6 (broadcastInDim S1200000x1 ![0] bcast_S1200000_S1200000x1_0),
    StableHlo.ternary main_v5 main_v6 main_v4 main_v7 (fun x i u => Host.scatterAdd scatter_S100000_S1200000x1_S1200000_n_0_0_1 x i u),
    StableHlo.nullary main_cst_1 (constant S_ .f32 0x3F800000#32),
    StableHlo.unary main_cst_1 main_v8 (broadcastInDim S100000 ![] bcast_S_S100000),
    StableHlo.binary main_v7 main_v8 main_v9 (addf),
    StableHlo.nullary main_cst_2 (constant S_ .f32 0xBF000000#32),
    StableHlo.unary main_cst_2 main_v10 (broadcastInDim S100000 ![] bcast_S_S100000),
    StableHlo.binary main_v9 main_v10 main_v11 (Host.powf),
    StableHlo.binary main_arg0 main_arg1 main_v12 (fun l r => Host.dotGeneral dot_S100000x128_S128x64_S100000x64_1_0_0_1_n_n none l r),
    StableHlo.nullary main_c (constantI S_ 32 0#32),
    StableHlo.unary main_c main_v13 (broadcastInDim S1200000 ![] bcast_S_S1200000),
    StableHlo.binary main_v1 main_v13 main_v14 (cmpi .slt),
    StableHlo.nullary main_c_3 (constantI S_ 32 100000#32),
    StableHlo.unary main_c_3 main_v15 (broadcastInDim S1200000 ![] bcast_S_S1200000),
    StableHlo.binary main_v1 main_v15 main_v16 (addi),
    StableHlo.ternary main_v14 main_v16 main_v1 main_v17 (select),
    StableHlo.unary main_v17 main_v18 (broadcastInDim S1200000x1 ![0] bcast_S1200000_S1200000x1_0),
    StableHlo.binary main_v11 main_v18 main_v19 (fun x i => Host.gather gather_S100000_S1200000x1_S1200000_n_0_n_n_0_1_1 x i),
    StableHlo.nullary main_c_4 (constantI S_ 32 0#32),
    StableHlo.unary main_c_4 main_v20 (broadcastInDim S1200000 ![] bcast_S_S1200000),
    StableHlo.binary main_v3 main_v20 main_v21 (cmpi .slt),
    StableHlo.nullary main_c_5 (constantI S_ 32 100000#32),
    StableHlo.unary main_c_5 main_v22 (broadcastInDim S1200000 ![] bcast_S_S1200000),
    StableHlo.binary main_v3 main_v22 main_v23 (addi),
    StableHlo.ternary main_v21 main_v23 main_v3 main_v24 (select),
    StableHlo.unary main_v24 main_v25 (broadcastInDim S1200000x1 ![0] bcast_S1200000_S1200000x1_0),
    StableHlo.binary main_v11 main_v25 main_v26 (fun x i => Host.gather gather_S100000_S1200000x1_S1200000_n_0_n_n_0_1_1 x i),
    StableHlo.binary main_v19 main_v26 main_v27 (mulf),
    StableHlo.nullary main_c_6 (constantI S_ 32 0#32),
    StableHlo.unary main_c_6 main_v28 (broadcastInDim S1200000 ![] bcast_S_S1200000),
    StableHlo.binary main_v1 main_v28 main_v29 (cmpi .slt),
    StableHlo.nullary main_c_7 (constantI S_ 32 100000#32),
    StableHlo.unary main_c_7 main_v30 (broadcastInDim S1200000 ![] bcast_S_S1200000),
    StableHlo.binary main_v1 main_v30 main_v31 (addi),
    StableHlo.ternary main_v29 main_v31 main_v1 main_v32 (select),
    StableHlo.unary main_v32 main_v33 (broadcastInDim S1200000x1 ![0] bcast_S1200000_S1200000x1_0),
    StableHlo.binary main_v12 main_v33 main_v34 (fun x i => Host.gather gather_S100000x64_S1200000x1_S1200000x64_1_0_n_n_0_1_164 x i),
    StableHlo.unary main_v27 main_v35 (broadcastInDim S1200000x1 ![0] bcast_S1200000_S1200000x1_0),
    StableHlo.unary main_v35 main_v36 (broadcastInDim S1200000x64 ![0, 1] bcast_S1200000x1_S1200000x64_0_1),
    StableHlo.binary main_v34 main_v36 main_v37 (mulf),
    StableHlo.nullary main_cst_8 (constant S_ .f32 0x00000000#32),
    StableHlo.unary main_cst_8 main_v38 (broadcastInDim S100000x64 ![] bcast_S_S100000x64),
    StableHlo.unary main_v3 main_v39 (broadcastInDim S1200000x1 ![0] bcast_S1200000_S1200000x1_0),
    StableHlo.ternary main_v38 main_v39 main_v37 main_v40 (fun x i u => Host.scatterAdd scatter_S100000x64_S1200000x1_S1200000x64_1_0_0_1 x i u),
    StableHlo.binary main_v11 main_v11 main_v41 (mulf),
    StableHlo.unary main_v41 main_v42 (broadcastInDim S100000x1 ![0] bcast_S100000_S100000x1_0),
    StableHlo.unary main_v42 main_v43 (broadcastInDim S100000x64 ![0, 1] bcast_S100000x1_S100000x64_0_1),
    StableHlo.binary main_v12 main_v43 main_v44 (mulf),
    StableHlo.binary main_v40 main_v44 main_v45 (addf),
    StableHlo.unary main_arg2 main_v46 (broadcastInDim S1x64 ![1] bcast_S64_S1x64_1),
    StableHlo.unary main_v46 main_v47 (broadcastInDim S100000x64 ![0, 1] bcast_S1x64_S100000x64_0_1),
    StableHlo.binary main_v45 main_v47 main_v48 (addf) ]

abbrev ops1 : List (HloOp τ sig (Elt F)) :=
  [ StableHlo.TRef.nullary main_call0.cst (constant S_ .f32 0x00000000#32),
    StableHlo.TRef.unary main_call0.cst main_call0.v0 (broadcastInDim S100000x64 ![] bcast_S_S100000x64),
    StableHlo.TRef.binary (.of main_v48) main_call0.v0 main_call0.v1 maximumf,
    StableHlo.unary main_arg7 main_v50 ((extractStridedSlice S1x64 ![0, 0] · slices_S3x64_S1x64_0_0)),
    StableHlo.reshape main_v50 main_v51 rfl shapeCasts_S1x64_S64,
    StableHlo.unary main_arg8 main_v52 ((extractStridedSlice S1x64 ![0, 0] · slices_S3x64_S1x64_0_0)),
    StableHlo.reshape main_v52 main_v53 rfl shapeCasts_S1x64_S64,
    StableHlo.nullary main_cst_9 (constant S_ .f32 0x00000000#32),
    StableHlo.binary main_v49 main_cst_9 main_v54 (fun x v => Host.reduceAdd x v reducesTo_S100000x64_S64_d0 h_S_),
    StableHlo.nullary main_cst_10 (constant S_ .f32 0x47C35000#32),
    StableHlo.unary main_cst_10 main_v55 (broadcastInDim S64 ![] bcast_S_S64),
    StableHlo.binary main_v54 main_v55 main_v56 (Host.divf),
    StableHlo.nullary main_c_11 (constantI S_ 32 0#32),
    StableHlo.TRef.nullary main_call1.cst (constant S_ .f32 0x00000000#32),
    StableHlo.TRef.binary (.of main_v49) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v49) main_call1.v4 main_call1.v5 subf,
    StableHlo.TRef.binary main_call1.v5 main_call1.v5 main_call1.v6 mulf,
    StableHlo.TRef.unary (.of main_c_11) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v56 main_v58 (broadcastInDim S1x64 ![1] bcast_S64_S1x64_1),
    StableHlo.unary main_v58 main_v59 (broadcastInDim S100000x64 ![0, 1] bcast_S1x64_S100000x64_0_1),
    StableHlo.binary main_v49 main_v59 main_v60 (subf),
    StableHlo.nullary main_cst_12 (constant S_ .f32 0x3727C5AC#32),
    StableHlo.unary main_cst_12 main_v61 (broadcastInDim S64 ![] bcast_S_S64),
    StableHlo.binary main_v57 main_v61 main_v62 (addf),
    StableHlo.unary main_v62 main_v63 (Host.rsqrt),
    StableHlo.unary main_v63 main_v64 (broadcastInDim S1x64 ![1] bcast_S64_S1x64_1),
    StableHlo.unary main_v64 main_v65 (broadcastInDim S100000x64 ![0, 1] bcast_S1x64_S100000x64_0_1),
    StableHlo.binary main_v60 main_v65 main_v66 (mulf),
    StableHlo.unary main_v51 main_v67 (broadcastInDim S1x64 ![1] bcast_S64_S1x64_1),
    StableHlo.unary main_v67 main_v68 (broadcastInDim S100000x64 ![0, 1] bcast_S1x64_S100000x64_0_1),
    StableHlo.binary main_v66 main_v68 main_v69 (mulf),
    StableHlo.unary main_v53 main_v70 (broadcastInDim S1x64 ![1] bcast_S64_S1x64_1),
    StableHlo.unary main_v70 main_v71 (broadcastInDim S100000x64 ![0, 1] bcast_S1x64_S100000x64_0_1),
    StableHlo.binary main_v69 main_v71 main_v72 (addf),
    StableHlo.unary main_arg3 main_v73 ((extractStridedSlice S1x64x64 ![0, 0, 0] · slices_S2x64x64_S1x64x64_0_0_0)),
    StableHlo.reshape main_v73 main_v74 rfl shapeCasts_S1x64x64_S64x64,
    StableHlo.unary main_arg4 main_v75 ((extractStridedSlice S1x64 ![0, 0] · slices_S2x64_S1x64_0_0)),
    StableHlo.reshape main_v75 main_v76 rfl shapeCasts_S1x64_S64,
    StableHlo.binary main_v72 main_v74 main_v77 (fun l r => Host.dotGeneral dot_S100000x64_S64x64_S100000x64_1_0_0_1_n_n none l r),
    StableHlo.nullary main_c_13 (constantI S_ 32 0#32),
    StableHlo.unary main_c_13 main_v78 (broadcastInDim S1200000 ![] bcast_S_S1200000),
    StableHlo.binary main_v1 main_v78 main_v79 (cmpi .slt),
    StableHlo.nullary main_c_14 (constantI S_ 32 100000#32),
    StableHlo.unary main_c_14 main_v80 (broadcastInDim S1200000 ![] bcast_S_S1200000),
    StableHlo.binary main_v1 main_v80 main_v81 (addi),
    StableHlo.ternary main_v79 main_v81 main_v1 main_v82 (select),
    StableHlo.unary main_v82 main_v83 (broadcastInDim S1200000x1 ![0] bcast_S1200000_S1200000x1_0),
    StableHlo.binary main_v11 main_v83 main_v84 (fun x i => Host.gather gather_S100000_S1200000x1_S1200000_n_0_n_n_0_1_1 x i),
    StableHlo.nullary main_c_15 (constantI S_ 32 0#32),
    StableHlo.unary main_c_15 main_v85 (broadcastInDim S1200000 ![] bcast_S_S1200000),
    StableHlo.binary main_v3 main_v85 main_v86 (cmpi .slt),
    StableHlo.nullary main_c_16 (constantI S_ 32 100000#32),
    StableHlo.unary main_c_16 main_v87 (broadcastInDim S1200000 ![] bcast_S_S1200000),
    StableHlo.binary main_v3 main_v87 main_v88 (addi),
    StableHlo.ternary main_v86 main_v88 main_v3 main_v89 (select),
    StableHlo.unary main_v89 main_v90 (broadcastInDim S1200000x1 ![0] bcast_S1200000_S1200000x1_0),
    StableHlo.binary main_v11 main_v90 main_v91 (fun x i => Host.gather gather_S100000_S1200000x1_S1200000_n_0_n_n_0_1_1 x i),
    StableHlo.binary main_v84 main_v91 main_v92 (mulf),
    StableHlo.nullary main_c_17 (constantI S_ 32 0#32),
    StableHlo.unary main_c_17 main_v93 (broadcastInDim S1200000 ![] bcast_S_S1200000),
    StableHlo.binary main_v1 main_v93 main_v94 (cmpi .slt),
    StableHlo.nullary main_c_18 (constantI S_ 32 100000#32),
    StableHlo.unary main_c_18 main_v95 (broadcastInDim S1200000 ![] bcast_S_S1200000),
    StableHlo.binary main_v1 main_v95 main_v96 (addi),
    StableHlo.ternary main_v94 main_v96 main_v1 main_v97 (select),
    StableHlo.unary main_v97 main_v98 (broadcastInDim S1200000x1 ![0] bcast_S1200000_S1200000x1_0) ]

abbrev ops2 : List (HloOp τ sig (Elt F)) :=
  [ StableHlo.binary main_v77 main_v98 main_v99 (fun x i => Host.gather gather_S100000x64_S1200000x1_S1200000x64_1_0_n_n_0_1_164 x i),
    StableHlo.unary main_v92 main_v100 (broadcastInDim S1200000x1 ![0] bcast_S1200000_S1200000x1_0),
    StableHlo.unary main_v100 main_v101 (broadcastInDim S1200000x64 ![0, 1] bcast_S1200000x1_S1200000x64_0_1),
    StableHlo.binary main_v99 main_v101 main_v102 (mulf),
    StableHlo.nullary main_cst_19 (constant S_ .f32 0x00000000#32),
    StableHlo.unary main_cst_19 main_v103 (broadcastInDim S100000x64 ![] bcast_S_S100000x64),
    StableHlo.unary main_v3 main_v104 (broadcastInDim S1200000x1 ![0] bcast_S1200000_S1200000x1_0),
    StableHlo.ternary main_v103 main_v104 main_v102 main_v105 (fun x i u => Host.scatterAdd scatter_S100000x64_S1200000x1_S1200000x64_1_0_0_1 x i u),
    StableHlo.binary main_v11 main_v11 main_v106 (mulf),
    StableHlo.unary main_v106 main_v107 (broadcastInDim S100000x1 ![0] bcast_S100000_S100000x1_0),
    StableHlo.unary main_v107 main_v108 (broadcastInDim S100000x64 ![0, 1] bcast_S100000x1_S100000x64_0_1),
    StableHlo.binary main_v77 main_v108 main_v109 (mulf),
    StableHlo.binary main_v105 main_v109 main_v110 (addf),
    StableHlo.unary main_v76 main_v111 (broadcastInDim S1x64 ![1] bcast_S64_S1x64_1),
    StableHlo.unary main_v111 main_v112 (broadcastInDim S100000x64 ![0, 1] bcast_S1x64_S100000x64_0_1),
    StableHlo.binary main_v110 main_v112 main_v113 (addf),
    StableHlo.TRef.nullary main_call2.cst (constant S_ .f32 0x00000000#32),
    StableHlo.TRef.unary main_call2.cst main_call2.v0 (broadcastInDim S100000x64 ![] bcast_S_S100000x64),
    StableHlo.TRef.binary (.of main_v113) main_call2.v0 main_call2.v1 maximumf,
    StableHlo.unary main_arg7 main_v115 ((extractStridedSlice S1x64 ![1, 0] · slices_S3x64_S1x64_1_0)),
    StableHlo.reshape main_v115 main_v116 rfl shapeCasts_S1x64_S64,
    StableHlo.unary main_arg8 main_v117 ((extractStridedSlice S1x64 ![1, 0] · slices_S3x64_S1x64_1_0)),
    StableHlo.reshape main_v117 main_v118 rfl shapeCasts_S1x64_S64,
    StableHlo.nullary main_cst_20 (constant S_ .f32 0x00000000#32),
    StableHlo.binary main_v114 main_cst_20 main_v119 (fun x v => Host.reduceAdd x v reducesTo_S100000x64_S64_d0 h_S_),
    StableHlo.nullary main_cst_21 (constant S_ .f32 0x47C35000#32),
    StableHlo.unary main_cst_21 main_v120 (broadcastInDim S64 ![] bcast_S_S64),
    StableHlo.binary main_v119 main_v120 main_v121 (Host.divf),
    StableHlo.nullary main_c_22 (constantI S_ 32 0#32),
    StableHlo.TRef.nullary main_call3.cst (constant S_ .f32 0x00000000#32),
    StableHlo.TRef.binary (.of main_v114) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v114) main_call3.v4 main_call3.v5 subf,
    StableHlo.TRef.binary main_call3.v5 main_call3.v5 main_call3.v6 mulf,
    StableHlo.TRef.unary (.of main_c_22) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v121 main_v123 (broadcastInDim S1x64 ![1] bcast_S64_S1x64_1),
    StableHlo.unary main_v123 main_v124 (broadcastInDim S100000x64 ![0, 1] bcast_S1x64_S100000x64_0_1),
    StableHlo.binary main_v114 main_v124 main_v125 (subf),
    StableHlo.nullary main_cst_23 (constant S_ .f32 0x3727C5AC#32),
    StableHlo.unary main_cst_23 main_v126 (broadcastInDim S64 ![] bcast_S_S64),
    StableHlo.binary main_v122 main_v126 main_v127 (addf),
    StableHlo.unary main_v127 main_v128 (Host.rsqrt),
    StableHlo.unary main_v128 main_v129 (broadcastInDim S1x64 ![1] bcast_S64_S1x64_1),
    StableHlo.unary main_v129 main_v130 (broadcastInDim S100000x64 ![0, 1] bcast_S1x64_S100000x64_0_1),
    StableHlo.binary main_v125 main_v130 main_v131 (mulf),
    StableHlo.unary main_v116 main_v132 (broadcastInDim S1x64 ![1] bcast_S64_S1x64_1),
    StableHlo.unary main_v132 main_v133 (broadcastInDim S100000x64 ![0, 1] bcast_S1x64_S100000x64_0_1),
    StableHlo.binary main_v131 main_v133 main_v134 (mulf),
    StableHlo.unary main_v118 main_v135 (broadcastInDim S1x64 ![1] bcast_S64_S1x64_1),
    StableHlo.unary main_v135 main_v136 (broadcastInDim S100000x64 ![0, 1] bcast_S1x64_S100000x64_0_1),
    StableHlo.binary main_v134 main_v136 main_v137 (addf),
    StableHlo.binary main_v137 main_v72 main_v138 (addf),
    StableHlo.unary main_arg3 main_v139 ((extractStridedSlice S1x64x64 ![1, 0, 0] · slices_S2x64x64_S1x64x64_1_0_0)),
    StableHlo.reshape main_v139 main_v140 rfl shapeCasts_S1x64x64_S64x64,
    StableHlo.unary main_arg4 main_v141 ((extractStridedSlice S1x64 ![1, 0] · slices_S2x64_S1x64_1_0)),
    StableHlo.reshape main_v141 main_v142 rfl shapeCasts_S1x64_S64,
    StableHlo.binary main_v138 main_v140 main_v143 (fun l r => Host.dotGeneral dot_S100000x64_S64x64_S100000x64_1_0_0_1_n_n none l r),
    StableHlo.nullary main_c_24 (constantI S_ 32 0#32),
    StableHlo.unary main_c_24 main_v144 (broadcastInDim S1200000 ![] bcast_S_S1200000),
    StableHlo.binary main_v1 main_v144 main_v145 (cmpi .slt),
    StableHlo.nullary main_c_25 (constantI S_ 32 100000#32),
    StableHlo.unary main_c_25 main_v146 (broadcastInDim S1200000 ![] bcast_S_S1200000),
    StableHlo.binary main_v1 main_v146 main_v147 (addi),
    StableHlo.ternary main_v145 main_v147 main_v1 main_v148 (select),
    StableHlo.unary main_v148 main_v149 (broadcastInDim S1200000x1 ![0] bcast_S1200000_S1200000x1_0),
    StableHlo.binary main_v11 main_v149 main_v150 (fun x i => Host.gather gather_S100000_S1200000x1_S1200000_n_0_n_n_0_1_1 x i),
    StableHlo.nullary main_c_26 (constantI S_ 32 0#32) ]

abbrev ops3 : List (HloOp τ sig (Elt F)) :=
  [ StableHlo.unary main_c_26 main_v151 (broadcastInDim S1200000 ![] bcast_S_S1200000),
    StableHlo.binary main_v3 main_v151 main_v152 (cmpi .slt),
    StableHlo.nullary main_c_27 (constantI S_ 32 100000#32),
    StableHlo.unary main_c_27 main_v153 (broadcastInDim S1200000 ![] bcast_S_S1200000),
    StableHlo.binary main_v3 main_v153 main_v154 (addi),
    StableHlo.ternary main_v152 main_v154 main_v3 main_v155 (select),
    StableHlo.unary main_v155 main_v156 (broadcastInDim S1200000x1 ![0] bcast_S1200000_S1200000x1_0),
    StableHlo.binary main_v11 main_v156 main_v157 (fun x i => Host.gather gather_S100000_S1200000x1_S1200000_n_0_n_n_0_1_1 x i),
    StableHlo.binary main_v150 main_v157 main_v158 (mulf),
    StableHlo.nullary main_c_28 (constantI S_ 32 0#32),
    StableHlo.unary main_c_28 main_v159 (broadcastInDim S1200000 ![] bcast_S_S1200000),
    StableHlo.binary main_v1 main_v159 main_v160 (cmpi .slt),
    StableHlo.nullary main_c_29 (constantI S_ 32 100000#32),
    StableHlo.unary main_c_29 main_v161 (broadcastInDim S1200000 ![] bcast_S_S1200000),
    StableHlo.binary main_v1 main_v161 main_v162 (addi),
    StableHlo.ternary main_v160 main_v162 main_v1 main_v163 (select),
    StableHlo.unary main_v163 main_v164 (broadcastInDim S1200000x1 ![0] bcast_S1200000_S1200000x1_0),
    StableHlo.binary main_v143 main_v164 main_v165 (fun x i => Host.gather gather_S100000x64_S1200000x1_S1200000x64_1_0_n_n_0_1_164 x i),
    StableHlo.unary main_v158 main_v166 (broadcastInDim S1200000x1 ![0] bcast_S1200000_S1200000x1_0),
    StableHlo.unary main_v166 main_v167 (broadcastInDim S1200000x64 ![0, 1] bcast_S1200000x1_S1200000x64_0_1),
    StableHlo.binary main_v165 main_v167 main_v168 (mulf),
    StableHlo.nullary main_cst_30 (constant S_ .f32 0x00000000#32),
    StableHlo.unary main_cst_30 main_v169 (broadcastInDim S100000x64 ![] bcast_S_S100000x64),
    StableHlo.unary main_v3 main_v170 (broadcastInDim S1200000x1 ![0] bcast_S1200000_S1200000x1_0),
    StableHlo.ternary main_v169 main_v170 main_v168 main_v171 (fun x i u => Host.scatterAdd scatter_S100000x64_S1200000x1_S1200000x64_1_0_0_1 x i u),
    StableHlo.binary main_v11 main_v11 main_v172 (mulf),
    StableHlo.unary main_v172 main_v173 (broadcastInDim S100000x1 ![0] bcast_S100000_S100000x1_0),
    StableHlo.unary main_v173 main_v174 (broadcastInDim S100000x64 ![0, 1] bcast_S100000x1_S100000x64_0_1),
    StableHlo.binary main_v143 main_v174 main_v175 (mulf),
    StableHlo.binary main_v171 main_v175 main_v176 (addf),
    StableHlo.unary main_v142 main_v177 (broadcastInDim S1x64 ![1] bcast_S64_S1x64_1),
    StableHlo.unary main_v177 main_v178 (broadcastInDim S100000x64 ![0, 1] bcast_S1x64_S100000x64_0_1),
    StableHlo.binary main_v176 main_v178 main_v179 (addf),
    StableHlo.TRef.nullary main_call4.cst (constant S_ .f32 0x00000000#32),
    StableHlo.TRef.unary main_call4.cst main_call4.v0 (broadcastInDim S100000x64 ![] bcast_S_S100000x64),
    StableHlo.TRef.binary (.of main_v179) main_call4.v0 main_call4.v1 maximumf,
    StableHlo.unary main_arg7 main_v181 ((extractStridedSlice S1x64 ![2, 0] · slices_S3x64_S1x64_2_0)),
    StableHlo.reshape main_v181 main_v182 rfl shapeCasts_S1x64_S64,
    StableHlo.unary main_arg8 main_v183 ((extractStridedSlice S1x64 ![2, 0] · slices_S3x64_S1x64_2_0)),
    StableHlo.reshape main_v183 main_v184 rfl shapeCasts_S1x64_S64,
    StableHlo.nullary main_cst_31 (constant S_ .f32 0x00000000#32),
    StableHlo.binary main_v180 main_cst_31 main_v185 (fun x v => Host.reduceAdd x v reducesTo_S100000x64_S64_d0 h_S_),
    StableHlo.nullary main_cst_32 (constant S_ .f32 0x47C35000#32),
    StableHlo.unary main_cst_32 main_v186 (broadcastInDim S64 ![] bcast_S_S64),
    StableHlo.binary main_v185 main_v186 main_v187 (Host.divf),
    StableHlo.nullary main_c_33 (constantI S_ 32 0#32),
    StableHlo.TRef.nullary main_call5.cst (constant S_ .f32 0x00000000#32),
    StableHlo.TRef.binary (.of main_v180) main_call5.cst main_call5.v0 (fun x v => Host.reduceAdd x v reducesTo_S100000x64_S64_d0 h_S_),
    StableHlo.TRef.unary main_call5.v0 main_call5.v1 (broadcastInDim S1x64 ![1] bcast_S64_S1x64_1),
    StableHlo.TRef.nullary main_call5.cst_0 (constant S_ .f32 0x47C35000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S100000x64 ![0, 1] bcast_S1x64_S100000x64_0_1),
    StableHlo.TRef.binary (.of main_v180) main_call5.v4 main_call5.v5 subf,
    StableHlo.TRef.binary main_call5.v5 main_call5.v5 main_call5.v6 mulf,
    StableHlo.TRef.unary (.of main_c_33) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v187 main_v189 (broadcastInDim S1x64 ![1] bcast_S64_S1x64_1),
    StableHlo.unary main_v189 main_v190 (broadcastInDim S100000x64 ![0, 1] bcast_S1x64_S100000x64_0_1),
    StableHlo.binary main_v180 main_v190 main_v191 (subf),
    StableHlo.nullary main_cst_34 (constant S_ .f32 0x3727C5AC#32),
    StableHlo.unary main_cst_34 main_v192 (broadcastInDim S64 ![] bcast_S_S64),
    StableHlo.binary main_v188 main_v192 main_v193 (addf),
    StableHlo.unary main_v193 main_v194 (Host.rsqrt),
    StableHlo.unary main_v194 main_v195 (broadcastInDim S1x64 ![1] bcast_S64_S1x64_1),
    StableHlo.unary main_v195 main_v196 (broadcastInDim S100000x64 ![0, 1] bcast_S1x64_S100000x64_0_1),
    StableHlo.binary main_v191 main_v196 main_v197 (mulf),
    StableHlo.unary main_v182 main_v198 (broadcastInDim S1x64 ![1] bcast_S64_S1x64_1),
    StableHlo.unary main_v198 main_v199 (broadcastInDim S100000x64 ![0, 1] bcast_S1x64_S100000x64_0_1),
    StableHlo.binary main_v197 main_v199 main_v200 (mulf),
    StableHlo.unary main_v184 main_v201 (broadcastInDim S1x64 ![1] bcast_S64_S1x64_1),
    StableHlo.unary main_v201 main_v202 (broadcastInDim S100000x64 ![0, 1] bcast_S1x64_S100000x64_0_1) ]

abbrev ops4 : List (HloOp τ sig (Elt F)) :=
  [ StableHlo.binary main_v200 main_v202 main_v203 (addf),
    StableHlo.binary main_v203 main_v138 main_v204 (addf),
    StableHlo.binary main_v204 main_arg5 main_v205 (fun l r => Host.dotGeneral dot_S100000x64_S64x2_S100000x2_1_0_0_1_n_n none l r),
    StableHlo.nullary main_c_35 (constantI S_ 32 0#32),
    StableHlo.unary main_c_35 main_v206 (broadcastInDim S1200000 ![] bcast_S_S1200000),
    StableHlo.binary main_v1 main_v206 main_v207 (cmpi .slt),
    StableHlo.nullary main_c_36 (constantI S_ 32 100000#32),
    StableHlo.unary main_c_36 main_v208 (broadcastInDim S1200000 ![] bcast_S_S1200000),
    StableHlo.binary main_v1 main_v208 main_v209 (addi),
    StableHlo.ternary main_v207 main_v209 main_v1 main_v210 (select),
    StableHlo.unary main_v210 main_v211 (broadcastInDim S1200000x1 ![0] bcast_S1200000_S1200000x1_0),
    StableHlo.binary main_v11 main_v211 main_v212 (fun x i => Host.gather gather_S100000_S1200000x1_S1200000_n_0_n_n_0_1_1 x i),
    StableHlo.nullary main_c_37 (constantI S_ 32 0#32),
    StableHlo.unary main_c_37 main_v213 (broadcastInDim S1200000 ![] bcast_S_S1200000),
    StableHlo.binary main_v3 main_v213 main_v214 (cmpi .slt),
    StableHlo.nullary main_c_38 (constantI S_ 32 100000#32),
    StableHlo.unary main_c_38 main_v215 (broadcastInDim S1200000 ![] bcast_S_S1200000),
    StableHlo.binary main_v3 main_v215 main_v216 (addi),
    StableHlo.ternary main_v214 main_v216 main_v3 main_v217 (select),
    StableHlo.unary main_v217 main_v218 (broadcastInDim S1200000x1 ![0] bcast_S1200000_S1200000x1_0),
    StableHlo.binary main_v11 main_v218 main_v219 (fun x i => Host.gather gather_S100000_S1200000x1_S1200000_n_0_n_n_0_1_1 x i),
    StableHlo.binary main_v212 main_v219 main_v220 (mulf),
    StableHlo.nullary main_c_39 (constantI S_ 32 0#32),
    StableHlo.unary main_c_39 main_v221 (broadcastInDim S1200000 ![] bcast_S_S1200000),
    StableHlo.binary main_v1 main_v221 main_v222 (cmpi .slt),
    StableHlo.nullary main_c_40 (constantI S_ 32 100000#32),
    StableHlo.unary main_c_40 main_v223 (broadcastInDim S1200000 ![] bcast_S_S1200000),
    StableHlo.binary main_v1 main_v223 main_v224 (addi),
    StableHlo.ternary main_v222 main_v224 main_v1 main_v225 (select),
    StableHlo.unary main_v225 main_v226 (broadcastInDim S1200000x1 ![0] bcast_S1200000_S1200000x1_0),
    StableHlo.binary main_v205 main_v226 main_v227 (fun x i => Host.gather gather_S100000x2_S1200000x1_S1200000x2_1_0_n_n_0_1_12 x i),
    StableHlo.unary main_v220 main_v228 (broadcastInDim S1200000x1 ![0] bcast_S1200000_S1200000x1_0),
    StableHlo.unary main_v228 main_v229 (broadcastInDim S1200000x2 ![0, 1] bcast_S1200000x1_S1200000x2_0_1),
    StableHlo.binary main_v227 main_v229 main_v230 (mulf),
    StableHlo.nullary main_cst_41 (constant S_ .f32 0x00000000#32),
    StableHlo.unary main_cst_41 main_v231 (broadcastInDim S100000x2 ![] bcast_S_S100000x2),
    StableHlo.unary main_v3 main_v232 (broadcastInDim S1200000x1 ![0] bcast_S1200000_S1200000x1_0),
    StableHlo.ternary main_v231 main_v232 main_v230 main_v233 (fun x i u => Host.scatterAdd scatter_S100000x2_S1200000x1_S1200000x2_1_0_0_1 x i u),
    StableHlo.binary main_v11 main_v11 main_v234 (mulf),
    StableHlo.unary main_v234 main_v235 (broadcastInDim S100000x1 ![0] bcast_S100000_S100000x1_0),
    StableHlo.unary main_v235 main_v236 (broadcastInDim S100000x2 ![0, 1] bcast_S100000x1_S100000x2_0_1),
    StableHlo.binary main_v205 main_v236 main_v237 (mulf),
    StableHlo.binary main_v233 main_v237 main_v238 (addf),
    StableHlo.unary main_arg6 main_v239 (broadcastInDim S1x2 ![1] bcast_S2_S1x2_1),
    StableHlo.unary main_v239 main_v240 (broadcastInDim S100000x2 ![0, 1] bcast_S1x2_S100000x2_0_1),
    StableHlo.binary main_v238 main_v240 main_v241 (addf),
    StableHlo.nullary main_cst_42 (constant S_ .f32 0x00000000#32),
    StableHlo.unary main_cst_42 main_v242 (broadcastInDim S64x2 ![] bcast_S_S64x2),
    StableHlo.unary main_arg10 main_v243 (broadcastInDim S100000x1 ![0] bcast_S100000_S100000x1_0),
    StableHlo.ternary main_v242 main_v243 main_v241 main_v244 (fun x i u => Host.scatterAdd scatter_S64x2_S100000x1_S100000x2_1_0_0_1 x i u),
    StableHlo.nullary main_cst_43 (constant S_ .f32 0x3F800000#32),
    StableHlo.unary main_cst_43 main_v245 (broadcastInDim S100000 ![] bcast_S_S100000),
    StableHlo.nullary main_cst_44 (constant S_ .f32 0x00000000#32),
    StableHlo.unary main_cst_44 main_v246 (broadcastInDim S64 ![] bcast_S_S64),
    StableHlo.unary main_arg10 main_v247 (broadcastInDim S100000x1 ![0] bcast_S100000_S100000x1_0),
    StableHlo.ternary main_v246 main_v247 main_v245 main_v248 (fun x i u => Host.scatterAdd scatter_S64_S100000x1_S100000_n_0_0_1 x i u),
    StableHlo.nullary main_cst_45 (constant S_ .f32 0x3F800000#32),
    StableHlo.unary main_cst_45 main_v249 (broadcastInDim S64 ![] bcast_S_S64),
    StableHlo.binary main_v248 main_v249 main_v250 (maximumf),
    StableHlo.unary main_v250 main_v251 (broadcastInDim S64x1 ![0] bcast_S64_S64x1_0) ]

abbrev ops5 : List (HloOp τ sig (Elt F)) :=
  [ StableHlo.unary main_v251 main_v252 (broadcastInDim S64x2 ![0, 1] bcast_S64x1_S64x2_0_1),
    StableHlo.binary main_v244 main_v252 main_v253 (Host.divf) ]

abbrev ops : List (HloOp τ sig (Elt F)) :=
  ops0 ++ (ops1 ++ (ops2 ++ (ops3 ++ (ops4 ++ (ops5)))))

end Cert.ReferenceIdeal.RV

end
-- ==== Proof.RRun.lean ====
import proofs.«426946_j20469814133009_2_alg».proof.Proof.ROps

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := rfl

set_option maxRecDepth 8192 in
set_option maxHeartbeats 4000000 in
theorem main_part4_eq (c : Dev nD) : main_part4 (F := F) c = seq ops4 := rfl

set_option maxRecDepth 8192 in
set_option maxHeartbeats 4000000 in
theorem main_part5_eq (c : Dev nD) : main_part5 (F := F) c = seq ops5 := rfl

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

-- Each operation's buffers lie in the set the run theorem asks for.
set_option maxRecDepth 8192 in
theorem ops_sub : (ops : List (HloOp τ sig (Elt F))).Forall fun op => op.bufs ⊆ tcRefs τ sig := by
  simp only [ops, ops0, ops1, ops2, ops3, ops4, ops5, List.cons_append, List.nil_append, List.Forall, nullary_bufs_sub,
    unary_bufs_sub, binary_bufs_sub, ternary_bufs_sub, reshape_bufs_sub, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RV

end
-- ==== Proof.RChainLib.lean ====
import Idealize.ShloMosaic.Lib.StableHlo.Run
import Mathlib.Data.List.Forall2

noncomputable section

namespace Cert.RChainLib

open Idealize.ShloMosaic Idealize.ShloMosaic.StableHlo

variable {τ : Topo} {sig : RefSig} {Val : EltTy → Type}

def WritesIn (ops : List (HloOp τ sig Val)) (wr : List (Ref sig .tc)) : Prop :=
  List.Forall₂ (fun op r => op.writes ⊆ ({Proc.devRef .tc r} : Finset (DevRef τ sig))) ops wr

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem not_written {ops : List (HloOp τ sig Val)} {wr : List (Ref sig .tc)} (h : WritesIn ops wr)
    {r : Ref sig .tc} (hr : r ∉ wr) : ∀ op ∈ ops, (Proc.devRef .tc r : DevRef τ sig) ∉ op.writes := by
  induction h with
  | nil => intro op hop; cases hop
  | @cons op r' l wl hop _ ih =>
    intro o ho hmem
    rcases List.mem_cons.mp ho with rfl | ho'
    · have := Finset.mem_singleton.mp (hop hmem)
      exact hr (Proc.devRef_injective _ this ▸ List.mem_cons_self)
    · exact ih (fun hm => hr (List.mem_cons_of_mem _ hm)) o ho' hmem

theorem after_eq_take {ops : List (HloOp τ sig Val)} {wr : List (Ref sig .tc)} (h : WritesIn ops wr) (a : Nat)
    (V : Valuation τ sig Val) {r : Ref sig .tc} (hr : r ∉ wr.drop a) :
    after ops V (Proc.devRef .tc r) = after (ops.take a) V (Proc.devRef .tc r) := by
  conv_lhs => rw [← List.take_append_drop a ops]
  rw [after_append]
  exact after_of_forall_not_mem _ _ (not_written (List.forall₂_drop a h) hr)

theorem after_eq_window {ops : List (HloOp τ sig Val)} {wr : List (Ref sig .tc)} (h : WritesIn ops wr) (a n : Nat)
    (V : Valuation τ sig Val) {r : Ref sig .tc} (hr : r ∉ wr.drop (a + n)) :
    after ops V (Proc.devRef .tc r) = after ((ops.drop a).take n) (after (ops.take a) V) (Proc.devRef .tc r) := by
  rw [after_eq_take h (a + n) V hr, List.take_add, after_append]

theorem after_eq_start {ops : List (HloOp τ sig Val)} {wr : List (Ref sig .tc)} (h : WritesIn ops wr)
    (V : Valuation τ sig Val) {r : Ref sig .tc} (hr : r ∉ wr) :
    after ops V (Proc.devRef .tc r) = V (Proc.devRef .tc r) :=
  after_of_forall_not_mem _ _ (not_written h hr)

end Cert.RChainLib

end
-- ==== Proof.RChainCut.lean ====
import proofs.«426946_j20469814133009_2_alg».proof.Proof.ROps
import proofs.«426946_j20469814133009_2_alg».proof.Proof.RChainLib
import Idealize.ShloMosaic.PureOps.Ideal

noncomputable section

namespace Cert.ReferenceIdeal.RV

open Cert.ReferenceIdeal Cert.ReferenceIdeal.Gen Idealize.ShloMosaic Idealize.ShloMosaic.TcCoe Idealize.ShloMosaic.StableHlo Cert.RChainLib

def wr : List (Ref sig .tc) :=
  [
    main_v0, main_v1, main_v2, main_v3, main_cst, main_v4, main_cst_0, main_v5,
    main_v6, main_v7, main_cst_1, main_v8, main_v9, main_cst_2, main_v10, main_v11,
    main_v12, main_c, main_v13, main_v14, main_c_3, main_v15, main_v16, main_v17,
    main_v18, main_v19, main_c_4, main_v20, main_v21, main_c_5, main_v22, main_v23,
    main_v24, main_v25, main_v26, main_v27, main_c_6, main_v28, main_v29, main_c_7,
    main_v30, main_v31, main_v32, main_v33, main_v34, main_v35, main_v36, main_v37,
    main_cst_8, main_v38, main_v39, main_v40, main_v41, main_v42, main_v43, main_v44,
    main_v45, main_v46, main_v47, main_v48, main_call0_cst, main_call0_v0, main_v49, main_v50,
    main_v51, main_v52, main_v53, main_cst_9, main_v54, main_cst_10, main_v55, main_v56,
    main_c_11, main_call1_cst, main_call1_v0, main_call1_v1, main_call1_cst_0, main_call1_v2, main_call1_v3, main_call1_v4,
    main_call1_v5, main_call1_v6, main_call1_v7, main_call1_cst_1, main_call1_v8, main_call1_cst_2, main_call1_v9, main_call1_v10,
    main_call1_v11, main_call1_cst_3, main_call1_v12, main_call1_cst_4, main_call1_call0_v0, main_call1_call0_v1, main_v57, main_v58,
    main_v59, main_v60, main_cst_12, main_v61, main_v62, main_v63, main_v64, main_v65,
    main_v66, main_v67, main_v68, main_v69, main_v70, main_v71, main_v72, main_v73,
    main_v74, main_v75, main_v76, main_v77, main_c_13, main_v78, main_v79, main_c_14,
    main_v80, main_v81, main_v82, main_v83, main_v84, main_c_15, main_v85, main_v86,
    main_c_16, main_v87, main_v88, main_v89, main_v90, main_v91, main_v92, main_c_17,
    main_v93, main_v94, main_c_18, main_v95, main_v96, main_v97, main_v98, main_v99,
    main_v100, main_v101, main_v102, main_cst_19, main_v103, main_v104, main_v105, main_v106,
    main_v107, main_v108, main_v109, main_v110, main_v111, main_v112, main_v113, main_call2_cst,
    main_call2_v0, main_v114, main_v115, main_v116, main_v117, main_v118, main_cst_20, main_v119,
    main_cst_21, main_v120, main_v121, main_c_22, main_call3_cst, main_call3_v0, main_call3_v1, main_call3_cst_0,
    main_call3_v2, main_call3_v3, main_call3_v4, main_call3_v5, main_call3_v6, main_call3_v7, main_call3_cst_1, main_call3_v8,
    main_call3_cst_2, main_call3_v9, main_call3_v10, main_call3_v11, main_call3_cst_3, main_call3_v12, main_call3_cst_4, main_call3_call0_v0,
    main_call3_call0_v1, main_v122, main_v123, main_v124, main_v125, main_cst_23, main_v126, main_v127,
    main_v128, main_v129, main_v130, main_v131, main_v132, main_v133, main_v134, main_v135,
    main_v136, main_v137, main_v138, main_v139, main_v140, main_v141, main_v142, main_v143,
    main_c_24, main_v144, main_v145, main_c_25, main_v146, main_v147, main_v148, main_v149,
    main_v150, main_c_26, main_v151, main_v152, main_c_27, main_v153, main_v154, main_v155,
    main_v156, main_v157, main_v158, main_c_28, main_v159, main_v160, main_c_29, main_v161,
    main_v162, main_v163, main_v164, main_v165, main_v166, main_v167, main_v168, main_cst_30,
    main_v169, main_v170, main_v171, main_v172, main_v173, main_v174, main_v175, main_v176,
    main_v177, main_v178, main_v179, main_call4_cst, main_call4_v0, main_v180, main_v181, main_v182,
    main_v183, main_v184, main_cst_31, main_v185, main_cst_32, main_v186, main_v187, main_c_33,
    main_call5_cst, main_call5_v0, main_call5_v1, main_call5_cst_0, main_call5_v2, main_call5_v3, main_call5_v4, main_call5_v5,
    main_call5_v6, main_call5_v7, main_call5_cst_1, main_call5_v8, main_call5_cst_2, main_call5_v9, main_call5_v10, main_call5_v11,
    main_call5_cst_3, main_call5_v12, main_call5_cst_4, main_call5_call0_v0, main_call5_call0_v1, main_v188, main_v189, main_v190,
    main_v191, main_cst_34, main_v192, main_v193, main_v194, main_v195, main_v196, main_v197,
    main_v198, main_v199, main_v200, main_v201, main_v202, main_v203, main_v204, main_v205,
    main_c_35, main_v206, main_v207, main_c_36, main_v208, main_v209, main_v210, main_v211,
    main_v212, main_c_37, main_v213, main_v214, main_c_38, main_v215, main_v216, main_v217,
    main_v218, main_v219, main_v220, main_c_39, main_v221, main_v222, main_c_40, main_v223,
    main_v224, main_v225, main_v226, main_v227, main_v228, main_v229, main_v230, main_cst_41,
    main_v231, main_v232, main_v233, main_v234, main_v235, main_v236, main_v237, main_v238,
    main_v239, main_v240, main_v241, main_cst_42, main_v242, main_v243, main_v244, main_cst_43,
    main_v245, main_cst_44, main_v246, main_v247, main_v248, main_cst_45, main_v249, main_v250,
    main_v251, main_v252, main_v253 ]

set_option maxRecDepth 100000 in
set_option maxHeartbeats 4000000 in

theorem ops_wr : WritesIn (ops (F := Ideal)) wr := by
  unfold WritesIn wr
  repeat' (first | exact List.Forall₂.nil | apply List.Forall₂.cons)
  all_goals simp only [nullary_writes, unary_writes, binary_writes, ternary_writes, reshape_writes, Finset.Subset.refl]

theorem ref_arg0 (W : Valuation τ sig (Elt Ideal)) : after ops W (main_arg0 : DevRef τ sig) = W main_arg0 :=
  after_eq_start ops_wr W (by decide +kernel)
theorem ref_arg1 (W : Valuation τ sig (Elt Ideal)) : after ops W (main_arg1 : DevRef τ sig) = W main_arg1 :=
  after_eq_start ops_wr W (by decide +kernel)
theorem ref_arg2 (W : Valuation τ sig (Elt Ideal)) : after ops W (main_arg2 : DevRef τ sig) = W main_arg2 :=
  after_eq_start ops_wr W (by decide +kernel)
theorem ref_arg3 (W : Valuation τ sig (Elt Ideal)) : after ops W (main_arg3 : DevRef τ sig) = W main_arg3 :=
  after_eq_start ops_wr W (by decide +kernel)
theorem ref_arg4 (W : Valuation τ sig (Elt Ideal)) : after ops W (main_arg4 : DevRef τ sig) = W main_arg4 :=
  after_eq_start ops_wr W (by decide +kernel)
theorem ref_arg5 (W : Valuation τ sig (Elt Ideal)) : after ops W (main_arg5 : DevRef τ sig) = W main_arg5 :=
  after_eq_start ops_wr W (by decide +kernel)
theorem ref_arg6 (W : Valuation τ sig (Elt Ideal)) : after ops W (main_arg6 : DevRef τ sig) = W main_arg6 :=
  after_eq_start ops_wr W (by decide +kernel)
theorem ref_arg7 (W : Valuation τ sig (Elt Ideal)) : after ops W (main_arg7 : DevRef τ sig) = W main_arg7 :=
  after_eq_start ops_wr W (by decide +kernel)
theorem ref_arg8 (W : Valuation τ sig (Elt Ideal)) : after ops W (main_arg8 : DevRef τ sig) = W main_arg8 :=
  after_eq_start ops_wr W (by decide +kernel)
theorem ref_arg9 (W : Valuation τ sig (Elt Ideal)) : after ops W (main_arg9 : DevRef τ sig) = W main_arg9 :=
  after_eq_start ops_wr W (by decide +kernel)
theorem ref_arg10 (W : Valuation τ sig (Elt Ideal)) : after ops W (main_arg10 : DevRef τ sig) = W main_arg10 :=
  after_eq_start ops_wr W (by decide +kernel)

end Cert.ReferenceIdeal.RV

end
-- ==== Proof.RG.lean ====
import proofs.«426946_j20469814133009_2_alg».proof.ReferenceIdeal
import proofs.«426946_j20469814133009_2_alg».proof.Proof.Spec
import proofs.«426946_j20469814133009_2_alg».proof.Proof.GraphRd

noncomputable section

open scoped BigOperators

namespace Cert.ReferenceIdeal.RV

open Idealize.ShloMosaic Idealize.ShloMosaic.ValueIdx
open Cert.ReferenceIdeal Cert.ReferenceIdeal.Facts₀ Cert.ReferenceIdeal.Facts
open Cert.GraphRd

variable [Facts]

def srcR (a9 : IVec S2x1200000 32) : IVec S1200000 32 :=
  shapeCast S1200000 (extractStridedSlice S1x1200000 ![0, 0] a9 slices_S2x1200000_S1x1200000_0_0)
    shapeCasts_S1x1200000_S1200000

def dstR (a9 : IVec S2x1200000 32) : IVec S1200000 32 :=
  shapeCast S1200000 (extractStridedSlice S1x1200000 ![1, 0] a9 slices_S2x1200000_S1x1200000_1_0)
    shapeCasts_S1x1200000_S1200000

theorem srcR_apply (a9 : IVec S2x1200000 32) (e : Fin 1200000) : srcR a9 (ix1 e) = Cert.Spec.src a9 e :=
  srcF_apply slices_S2x1200000_S1x1200000_0_0 shapeCasts_S1x1200000_S1200000 a9 e

theorem dstR_apply (a9 : IVec S2x1200000 32) (e : Fin 1200000) : dstR a9 (ix1 e) = Cert.Spec.dst a9 e :=
  dstF_apply slices_S2x1200000_S1x1200000_1_0 shapeCasts_S1x1200000_S1200000 a9 e

def dinvR (d3 : IVec S1200000 32) : FVec Ideal S100000 .f32 :=
  Host.powf (F := Ideal)
    (addf
      (Host.scatterAdd (F := Ideal) scatter_S100000_S1200000x1_S1200000_n_0_0_1
        (broadcastInDim S100000 ![] bcast_S_S100000 (constant (F := Ideal) S_ .f32 0x00000000#32))
        (broadcastInDim S1200000x1 ![0] bcast_S1200000_S1200000x1_0 d3)
        (broadcastInDim S1200000 ![] bcast_S_S1200000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

theorem dinvR_apply (a9 : IVec S2x1200000 32) (d3 : IVec S1200000 32) (hd : ∀ e, d3 (ix1 e) = Cert.Spec.dst a9 e)
    (n : Fin 100000) : dinvR d3 (ix1 n) = Cert.Spec.dinv a9 n :=
  dinvF_apply bcast_S_S100000 a9 _
    (fun n => degF_apply bcast_S_S100000 bcast_S_S1200000 bcast_S1200000_S1200000x1_0
      scatter_S100000_S1200000x1_S1200000_n_0_0_1 a9 rfl rfl rfl rfl d3 hd n) n

def normR (dv : FVec Ideal S100000 .f32) (s1 d3 : IVec S1200000 32) : FVec Ideal S1200000 .f32 :=
  mulf
    (Host.gather gather_S100000_S1200000x1_S1200000_n_0_n_n_0_1_1 dv
      (broadcastInDim S1200000x1 ![0] bcast_S1200000_S1200000x1_0
        (select (cmpi .slt s1 (broadcastInDim S1200000 ![] bcast_S_S1200000 (constantI S_ 32 0#32)))
          (addi s1 (broadcastInDim S1200000 ![] bcast_S_S1200000 (constantI S_ 32 100000#32))) s1)))
    (Host.gather gather_S100000_S1200000x1_S1200000_n_0_n_n_0_1_1 dv
      (broadcastInDim S1200000x1 ![0] bcast_S1200000_S1200000x1_0
        (select (cmpi .slt d3 (broadcastInDim S1200000 ![] bcast_S_S1200000 (constantI S_ 32 0#32)))
          (addi d3 (broadcastInDim S1200000 ![] bcast_S_S1200000 (constantI S_ 32 100000#32))) d3)))

theorem normR_apply (a9 : IVec S2x1200000 32) (dv : FVec Ideal S100000 .f32)
    (hdv : ∀ n, dv (ix1 n) = Cert.Spec.dinv a9 n) (s1 d3 : IVec S1200000 32)
    (hs : ∀ e, s1 (ix1 e) = Cert.Spec.src a9 e) (hd : ∀ e, d3 (ix1 e) = Cert.Spec.dst a9 e) (e : Fin 1200000) :
    normR dv s1 d3 (ix1 e) = Cert.Spec.enorm a9 e :=
  normF_apply bcast_S_S1200000 bcast_S1200000_S1200000x1_0 gather_S100000_S1200000x1_S1200000_n_0_n_n_0_1_1 a9
    rfl rfl rfl rfl rfl dv hdv s1 d3 hs hd e

def sumsRt (h : FVec Ideal S100000x2 .f32) (a10 : IVec S100000 32) : FVec Ideal S64x2 .f32 :=
  Host.scatterAdd (F := Ideal) scatter_S64x2_S100000x1_S100000x2_1_0_0_1
    (broadcastInDim S64x2 ![] bcast_S_S64x2 (constant (F := Ideal) S_ .f32 0x00000000#32))
    (broadcastInDim S100000x1 ![0] bcast_S100000_S100000x1_0 a10) h

theorem sumsRt_apply (h : FVec Ideal S100000x2 .f32) (a10 : IVec S100000 32) (b : Fin 64) (d : Fin 2) :
    Cert.Spec.ofMat (sumsRt h a10) b d = Cert.Spec.zero + ∑ n ∈ Cert.Spec.members a10 b, h (ix2 n d) :=
  sumsF_apply bcast_S_S64x2 bcast_S100000_S100000x1_0 scatter_S64x2_S100000x1_S100000x2_1_0_0_1 rfl rfl rfl rfl h a10 b d

def cntRt (a10 : IVec S100000 32) : FVec Ideal S64 .f32 :=
  Host.scatterAdd (F := Ideal) scatter_S64_S100000x1_S100000_n_0_0_1
    (broadcastInDim S64 ![] bcast_S_S64 (constant (F := Ideal) S_ .f32 0x00000000#32))
    (broadcastInDim S100000x1 ![0] bcast_S100000_S100000x1_0 a10)
    (broadcastInDim S100000 ![] bcast_S_S100000 (constant (F := Ideal) S_ .f32 0x3F800000#32))

theorem cntRt_apply (a10 : IVec S100000 32) (b : Fin 64) :
    cntRt a10 (ix1 b) = Cert.Spec.zero + ∑ _n ∈ Cert.Spec.members a10 b, Cert.Spec.one :=
  cntF_apply bcast_S_S100000 bcast_S_S64 bcast_S100000_S100000x1_0 scatter_S64_S100000x1_S100000_n_0_0_1 rfl rfl rfl rfl
    a10 b

def outRt (s : FVec Ideal S64x2 .f32) (c : FVec Ideal S64 .f32) : FVec Ideal S64x2 .f32 :=
  Host.divf (F := Ideal) s
    (broadcastInDim S64x2 ![0, 1] bcast_S64x1_S64x2_0_1
      (broadcastInDim S64x1 ![0] bcast_S64_S64x1_0
        (maximumf c (broadcastInDim S64 ![] bcast_S_S64 (constant (F := Ideal) S_ .f32 0x3F800000#32)))))

theorem outRt_apply (s : FVec Ideal S64x2 .f32) (c : FVec Ideal S64 .f32) (b : Fin 64) (d : Fin 2) :
    Cert.Spec.ofMat (outRt s c) b d = Ideal.div (s (ix2 b d)) (max (c (ix1 b)) Cert.Spec.one) :=
  outF_apply bcast_S_S64 bcast_S64_S64x1_0 bcast_S64x1_S64x2_0_1 s c b d

end Cert.ReferenceIdeal.RV

end
-- ==== Proof.RChainG.lean ====
import proofs.«426946_j20469814133009_2_alg».proof.Proof.RChainCut
import proofs.«426946_j20469814133009_2_alg».proof.Proof.RG

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

theorem v1_eq (W : Valuation τ sig (Elt Ideal)) :
    after ops W (main_v1 : DevRef τ sig) = srcR (after ops W (main_arg9 : DevRef τ sig)) := by
  rw [after_eq_window ops_wr 0 2 W (r := main_v1) (by decide +kernel),
    after_eq_take ops_wr 0 W (r := main_arg9) (by decide +kernel)]
  generalize after (List.take 0 ops) W = V
  rw [show (List.drop 0 (ops (F := Ideal))).take 2 = [_, _] from rfl]
  after_results_simp
  all_goals try simp only [TRef.ofBuf, TRef.toBuf, cast_eq]
  all_goals rfl

theorem v3_eq (W : Valuation τ sig (Elt Ideal)) :
    after ops W (main_v3 : DevRef τ sig) = dstR (after ops W (main_arg9 : DevRef τ sig)) := by
  rw [after_eq_window ops_wr 2 2 W (r := main_v3) (by decide +kernel),
    after_eq_take ops_wr 2 W (r := main_arg9) (by decide +kernel)]
  generalize after (List.take 2 ops) W = V
  rw [show (List.drop 2 (ops (F := Ideal))).take 2 = [_, _] from rfl]
  after_results_simp
  all_goals try simp only [TRef.ofBuf, TRef.toBuf, cast_eq]
  all_goals rfl

theorem v11_eq (W : Valuation τ sig (Elt Ideal)) :
    after ops W (main_v11 : DevRef τ sig) = dinvR (after ops W (main_v3 : DevRef τ sig)) := by
  rw [after_eq_window ops_wr 4 12 W (r := main_v11) (by decide +kernel),
    after_eq_take ops_wr 4 W (r := main_v3) (by decide +kernel)]
  generalize after (List.take 4 ops) W = V
  rw [show (List.drop 4 (ops (F := Ideal))).take 12 = [_, _, _, _, _, _, _, _, _, _, _, _] from rfl]
  after_results_simp
  all_goals try simp only [TRef.ofBuf, TRef.toBuf, cast_eq]
  all_goals rfl

theorem v27_eq (W : Valuation τ sig (Elt Ideal)) :
    after ops W (main_v27 : DevRef τ sig) = normR (after ops W (main_v11 : DevRef τ sig)) (after ops W (main_v1 : DevRef τ sig)) (after ops W (main_v3 : DevRef τ sig)) := by
  rw [after_eq_window ops_wr 17 19 W (r := main_v27) (by decide +kernel),
    after_eq_take ops_wr 17 W (r := main_v11) (by decide +kernel),
    after_eq_take ops_wr 17 W (r := main_v1) (by decide +kernel),
    after_eq_take ops_wr 17 W (r := main_v3) (by decide +kernel)]
  generalize after (List.take 17 ops) W = V
  rw [show (List.drop 17 (ops (F := Ideal))).take 19 = [_, _, _, _, _, _, _, _, _, _, _, _, _, _, _, _, _, _, _] from rfl]
  after_results_simp
  all_goals try simp only [TRef.ofBuf, TRef.toBuf, cast_eq]
  all_goals rfl

theorem v92_eq (W : Valuation τ sig (Elt Ideal)) :
    after ops W (main_v92 : DevRef τ sig) = normR (after ops W (main_v11 : DevRef τ sig)) (after ops W (main_v1 : DevRef τ sig)) (after ops W (main_v3 : DevRef τ sig)) := by
  rw [after_eq_window ops_wr 116 19 W (r := main_v92) (by decide +kernel),
    after_eq_take ops_wr 116 W (r := main_v11) (by decide +kernel),
    after_eq_take ops_wr 116 W (r := main_v1) (by decide +kernel),
    after_eq_take ops_wr 116 W (r := main_v3) (by decide +kernel)]
  generalize after (List.take 116 ops) W = V
  rw [show (List.drop 116 (ops (F := Ideal))).take 19 = [_, _, _, _, _, _, _, _, _, _, _, _, _, _, _, _, _, _, _] from rfl]
  after_results_simp
  all_goals try simp only [TRef.ofBuf, TRef.toBuf, cast_eq]
  all_goals rfl

theorem v158_eq (W : Valuation τ sig (Elt Ideal)) :
    after ops W (main_v158 : DevRef τ sig) = normR (after ops W (main_v11 : DevRef τ sig)) (after ops W (main_v1 : DevRef τ sig)) (after ops W (main_v3 : DevRef τ sig)) := by
  rw [after_eq_window ops_wr 216 19 W (r := main_v158) (by decide +kernel),
    after_eq_take ops_wr 216 W (r := main_v11) (by decide +kernel),
    after_eq_take ops_wr 216 W (r := main_v1) (by decide +kernel),
    after_eq_take ops_wr 216 W (r := main_v3) (by decide +kernel)]
  generalize after (List.take 216 ops) W = V
  rw [show (List.drop 216 (ops (F := Ideal))).take 19 = [_, _, _, _, _, _, _, _, _, _, _, _, _, _, _, _, _, _, _] from rfl]
  after_results_simp
  all_goals try simp only [TRef.ofBuf, TRef.toBuf, cast_eq]
  all_goals rfl

theorem v220_eq (W : Valuation τ sig (Elt Ideal)) :
    after ops W (main_v220 : DevRef τ sig) = normR (after ops W (main_v11 : DevRef τ sig)) (after ops W (main_v1 : DevRef τ sig)) (after ops W (main_v3 : DevRef τ sig)) := by
  rw [after_eq_window ops_wr 312 19 W (r := main_v220) (by decide +kernel),
    after_eq_take ops_wr 312 W (r := main_v11) (by decide +kernel),
    after_eq_take ops_wr 312 W (r := main_v1) (by decide +kernel),
    after_eq_take ops_wr 312 W (r := main_v3) (by decide +kernel)]
  generalize after (List.take 312 ops) W = V
  rw [show (List.drop 312 (ops (F := Ideal))).take 19 = [_, _, _, _, _, _, _, _, _, _, _, _, _, _, _, _, _, _, _] from rfl]
  after_results_simp
  all_goals try simp only [TRef.ofBuf, TRef.toBuf, cast_eq]
  all_goals rfl

theorem v244_eq (W : Valuation τ sig (Elt Ideal)) :
    after ops W (main_v244 : DevRef τ sig) = sumsRt (after ops W (main_v241 : DevRef τ sig)) (after ops W (main_arg10 : DevRef τ sig)) := by
  rw [after_eq_window ops_wr 355 4 W (r := main_v244) (by decide +kernel),
    after_eq_take ops_wr 355 W (r := main_v241) (by decide +kernel),
    after_eq_take ops_wr 355 W (r := main_arg10) (by decide +kernel)]
  generalize after (List.take 355 ops) W = V
  rw [show (List.drop 355 (ops (F := Ideal))).take 4 = [_, _, _, _] from rfl]
  after_results_simp
  all_goals try simp only [TRef.ofBuf, TRef.toBuf, cast_eq]
  all_goals rfl

theorem v248_eq (W : Valuation τ sig (Elt Ideal)) :
    after ops W (main_v248 : DevRef τ sig) = cntRt (after ops W (main_arg10 : DevRef τ sig)) := by
  rw [after_eq_window ops_wr 359 6 W (r := main_v248) (by decide +kernel),
    after_eq_take ops_wr 359 W (r := main_arg10) (by decide +kernel)]
  generalize after (List.take 359 ops) W = V
  rw [show (List.drop 359 (ops (F := Ideal))).take 6 = [_, _, _, _, _, _] from rfl]
  after_results_simp
  all_goals try simp only [TRef.ofBuf, TRef.toBuf, cast_eq]
  all_goals rfl

theorem v253_eq (W : Valuation τ sig (Elt Ideal)) :
    after ops W (main_v253 : DevRef τ sig) = outRt (after ops W (main_v244 : DevRef τ sig)) (after ops W (main_v248 : DevRef τ sig)) := by
  rw [after_eq_window ops_wr 365 6 W (r := main_v253) (by decide +kernel),
    after_eq_take ops_wr 365 W (r := main_v244) (by decide +kernel),
    after_eq_take ops_wr 365 W (r := main_v248) (by decide +kernel)]
  generalize after (List.take 365 ops) W = V
  rw [show (List.drop 365 (ops (F := Ideal))).take 6 = [_, _, _, _, _, _] from rfl]
  after_results_simp
  all_goals try simp only [TRef.ofBuf, TRef.toBuf, cast_eq]
  all_goals rfl

end Cert.ReferenceIdeal.RV

end
-- ==== Proof.Consts.lean ====
import proofs.«426946_j20469814133009_2_alg».proof.Proof.Spec
import Idealize.ShloMosaic.PureOps.Ideal

noncomputable section

open scoped BigOperators

namespace Cert.Spec

open Idealize.ShloMosaic

theorem zero_eq : zero = (0 : EReal) := by
  unfold zero; simp [Ideal.ofBits, Ideal.ieee]

theorem one_eq : one = ((1 : ℝ) : EReal) := by
  unfold one; simp [Ideal.ofBits, Ideal.ieee, -EReal.coe_mul]; norm_num

theorem nNodes_eq : nNodes = ((100000 : ℝ) : EReal) := by
  unfold nNodes; simp [Ideal.ofBits, Ideal.ieee, -EReal.coe_mul]; norm_num

theorem eps_pos : ∃ r : ℝ, 0 < r ∧ eps = (r : EReal) := by
  refine ⟨(10995116 : ℝ) * (2 : ℝ) ^ (-40 : Int), by positivity, ?_⟩
  unfold eps; simp [Ideal.ofBits, Ideal.ieee, -EReal.coe_mul]

theorem negHalf_real : ∃ r : ℝ, negHalf = (r : EReal) := by
  refine ⟨-(1 / 2 : ℝ), ?_⟩
  unfold negHalf; simp [Ideal.ofBits, Ideal.ieee, -EReal.coe_mul]; norm_num

end Cert.Spec

end
-- ==== Proof.RBn.lean ====
import proofs.«426946_j20469814133009_2_alg».proof.ReferenceIdeal
import proofs.«426946_j20469814133009_2_alg».proof.Proof.Spec
import proofs.«426946_j20469814133009_2_alg».proof.Proof.Consts
import proofs.«426946_j20469814133009_2_alg».proof.Proof.LibRows
import Idealize.ShloMosaic.Lib.ValueLayout
import Idealize.ShloMosaic.Lib.IdealHost
import Idealize.ShloMosaic.PureOps.Ideal
import Idealize.ShloMosaic.PureOps.Ideal.Laws

noncomputable section

open scoped BigOperators

namespace Cert.ReferenceIdeal.RV

open Idealize.ShloMosaic Idealize.ShloMosaic.ValueIdx
open Cert.ReferenceIdeal Cert.LibRows

variable [Facts₀]
open Facts₀

def rowsR (v : FVec Ideal S64 .f32) : FVec Ideal S100000x64 .f32 :=
  broadcastInDim S100000x64 ![0, 1] bcast_S1x64_S100000x64_0_1 (broadcastInDim S1x64 ![1] bcast_S64_S1x64_1 v)

def meanVecR (t : FVec Ideal S100000x64 .f32) : FVec Ideal S64 .f32 :=
  Host.divf (F := Ideal)
    (Host.reduceAdd (F := Ideal) t (constant (F := Ideal) S_ .f32 0x00000000#32) reducesTo_S100000x64_S64_d0 h_S_)
    (broadcastInDim S64 ![] bcast_S_S64 (constant (F := Ideal) S_ .f32 0x47C35000#32))

def devR (t : FVec Ideal S100000x64 .f32) : FVec Ideal S100000x64 .f32 :=
  subf t (broadcastInDim S100000x64 ![0, 1] bcast_S1x64_S100000x64_0_1
    (Host.divf (F := Ideal)
      (broadcastInDim S1x64 ![1] bcast_S64_S1x64_1
        (Host.reduceAdd (F := Ideal) t (constant (F := Ideal) S_ .f32 0x00000000#32) reducesTo_S100000x64_S64_d0 h_S_))
      (broadcastInDim S1x64 ![] bcast_S_S1x64 (constant (F := Ideal) S_ .f32 0x47C35000#32))))

def cntR : FVec Ideal S_ .f32 :=
  subf (constant (F := Ideal) S_ .f32 0x47C35000#32) (sitofp (F := Ideal) .f32 (constantI S_ 32 0#32))

def varVecR (t : FVec Ideal S100000x64 .f32) : FVec Ideal S64 .f32 :=
  select (broadcastInDim S64 ![] bcast_S_S64 (cmpf .ogt cntR (constant (F := Ideal) S_ .f32 0x00000000#32)))
    (Host.divf (F := Ideal)
      (Host.reduceAdd (F := Ideal) (mulf (devR t) (devR t)) (constant (F := Ideal) S_ .f32 0x00000000#32)
        reducesTo_S100000x64_S64_d0 h_S_)
      (broadcastInDim S64 ![] bcast_S_S64 cntR))
    (broadcastInDim S64 ![] bcast_S_S64 (id (constant (F := Ideal) S_ .f32 0x7FC00000#32)))

def bnR (t : FVec Ideal S100000x64 .f32) (gv bv : FVec Ideal S64 .f32) : FVec Ideal S100000x64 .f32 :=
  addf
    (mulf
      (mulf (subf t (rowsR (meanVecR t)))
        (rowsR (Host.rsqrt (F := Ideal)
          (addf (varVecR t) (broadcastInDim S64 ![] bcast_S_S64 (constant (F := Ideal) S_ .f32 0x3727C5AC#32))))))
      (rowsR gv))
    (rowsR bv)

theorem rowsR_apply (v : FVec Ideal S64 .f32) (n : Fin 100000) (j : Fin 64) : rowsR v (ix2 n j) = v (ix1 j) := by
  unfold rowsR
  rw [broadcastInDim_apply ![0, 1] bcast_S1x64_S100000x64_0_1 _ (ix2 n j) (ix2 (0 : Fin 1) j)
        (fun a => by match a with | ⟨0, _⟩ => rfl | ⟨1, _⟩ => rfl)]
  exact broadcastInDim_apply ![1] bcast_S64_S1x64_1 v (ix2 (0 : Fin 1) j) (ix1 j)
        (fun a => by match a with | ⟨0, _⟩ => rfl)

theorem colSumR_apply (x : FVec Ideal S100000x64 .f32) (j : Fin 64) :
    Host.reduceAdd (F := Ideal) x (constant (F := Ideal) S_ .f32 0x00000000#32) reducesTo_S100000x64_S64_d0 h_S_ (ix1 j)
      = ∑ n : Fin 100000, x (ix2 n j) := by
  have h : S100000x64.Reduces [0] S64 := ⟨reducesTo_S100000x64_S64_d0.1, by decide, reducesTo_S100000x64_S64_d0.2⟩
  rw [hostReduceAdd_apply, Ideal.hostReduceAdd_single reducesTo_S100000x64_S64_d0 h]
  show Ideal.ofBits .f32 0x00000000#32 + _ = _
  rw [Ideal.ofBits_zero_f32, zero_add]
  refine Finset.sum_congr rfl fun k _ => congrArg x ?_
  funext c
  match c with
  | ⟨0, _⟩ => rfl
  | ⟨1, _⟩ => rfl

theorem meanVecR_apply (t : FVec Ideal S100000x64 .f32) (j : Fin 64) :
    meanVecR t (ix1 j) = Cert.Spec.meanT (Cert.Spec.ofMat t) j := by
  show Ideal.div (Host.reduceAdd (F := Ideal) t (constant (F := Ideal) S_ .f32 0x00000000#32)
      reducesTo_S100000x64_S64_d0 h_S_ (ix1 j)) Cert.Spec.nNodes = _
  rw [colSumR_apply]; rfl

theorem devR_apply (t : FVec Ideal S100000x64 .f32) (n : Fin 100000) (j : Fin 64) :
    devR t (ix2 n j) = t (ix2 n j) - Cert.Spec.meanT (Cert.Spec.ofMat t) j := by
  unfold devR
  show t (ix2 n j) - broadcastInDim (s := S1x64) S100000x64 ![0, 1] bcast_S1x64_S100000x64_0_1 _ (ix2 n j) = _
  rw [broadcastInDim_apply ![0, 1] bcast_S1x64_S100000x64_0_1 _ (ix2 n j) (ix2 (0 : Fin 1) j)
        (fun a => by match a with | ⟨0, _⟩ => rfl | ⟨1, _⟩ => rfl)]
  show t (ix2 n j) - Ideal.div (broadcastInDim (s := S64) S1x64 ![1] bcast_S64_S1x64_1 _ (ix2 (0 : Fin 1) j)) Cert.Spec.nNodes = _
  rw [broadcastInDim_apply ![1] bcast_S64_S1x64_1 _ (ix2 (0 : Fin 1) j) (ix1 j)
        (fun a => by match a with | ⟨0, _⟩ => rfl), colSumR_apply]
  rfl

theorem cnt_pos : Ideal.cmp .ogt (Cert.Spec.nNodes - (((0#32 : BitVec 32).toInt : ℝ) : EReal)) (Ideal.ofBits .f32 0x00000000#32) = 1#1 := by
  have h : Ideal.ofBits .f32 0x00000000#32 < Cert.Spec.nNodes - (((0#32 : BitVec 32).toInt : ℝ) : EReal) := by
    rw [Cert.Spec.nNodes_eq, Ideal.ofBits_zero_f32]
    have e : (((0#32 : BitVec 32).toInt : ℝ) : EReal) = 0 := by simp
    rw [e, sub_zero]
    exact_mod_cast (by norm_num : (0 : ℝ) < 100000)
  show BitVec.ofBool (decide (Ideal.ofBits .f32 0x00000000#32 < Cert.Spec.nNodes - (((0#32 : BitVec 32).toInt : ℝ) : EReal))) = 1#1
  rw [decide_eq_true h]; rfl

theorem varVecR_apply (t : FVec Ideal S100000x64 .f32) (j : Fin 64) :
    varVecR t (ix1 j) = Cert.Spec.varR (Cert.Spec.ofMat t) j := by
  show Scalar.select (Ideal.cmp .ogt (Cert.Spec.nNodes - (((0#32 : BitVec 32).toInt : ℝ) : EReal)) (Ideal.ofBits .f32 0x00000000#32))
      (Ideal.div (Host.reduceAdd (F := Ideal) (mulf (devR t) (devR t)) (constant (F := Ideal) S_ .f32 0x00000000#32)
          reducesTo_S100000x64_S64_d0 h_S_ (ix1 j)) (Cert.Spec.nNodes - (((0#32 : BitVec 32).toInt : ℝ) : EReal)))
      (Ideal.ofBits .f32 0x7FC00000#32) = _
  rw [cnt_pos, colSumR_apply]
  show Ideal.div (∑ n : Fin 100000, devR t (ix2 n j) * devR t (ix2 n j)) _ = _
  simp only [devR_apply]
  rfl

theorem bnR_apply (t : FVec Ideal S100000x64 .f32) (gv bv : FVec Ideal S64 .f32) (n : Fin 100000) (j : Fin 64) :
    bnR t gv bv (ix2 n j)
      = ((t (ix2 n j) - Cert.Spec.meanT (Cert.Spec.ofMat t) j)
          * Ideal.rsqrt (Cert.Spec.varR (Cert.Spec.ofMat t) j + Cert.Spec.eps)) * gv (ix1 j) + bv (ix1 j) := by
  show (t (ix2 n j) - rowsR (meanVecR t) (ix2 n j))
        * rowsR (Host.rsqrt (F := Ideal)
            (addf (varVecR t) (broadcastInDim S64 ![] bcast_S_S64 (constant (F := Ideal) S_ .f32 0x3727C5AC#32)))) (ix2 n j)
        * rowsR gv (ix2 n j) + rowsR bv (ix2 n j) = _
  rw [rowsR_apply, rowsR_apply, rowsR_apply, rowsR_apply]
  show (t (ix2 n j) - meanVecR t (ix1 j)) * Ideal.rsqrt (varVecR t (ix1 j) + Cert.Spec.eps) * gv (ix1 j) + bv (ix1 j) = _
  rw [meanVecR_apply, varVecR_apply]

theorem bnR_eq (t : FVec Ideal S100000x64 .f32) (gv bv : FVec Ideal S64 .f32) :
    Cert.Spec.ofMat (bnR t gv bv)
      = Cert.Spec.bnWith (Cert.Spec.varR (Cert.Spec.ofMat t)) (Cert.Spec.ofMat t) (Cert.Spec.ofVec gv) (Cert.Spec.ofVec bv) := by
  funext n j
  exact bnR_apply t gv bv n j

theorem slices_row3 (l : Fin 3) : S3x64.Slices ![l.val, 0] S1x64 := by revert l; decide

theorem slices_row2 (l : Fin 2) : S2x64.Slices ![l.val, 0] S1x64 := by revert l; decide

theorem slices_slab2 (l : Fin 2) : S2x64x64.Slices ![l.val, 0, 0] S1x64x64 := by revert l; decide

def gVecR (l : Fin 3) (a : FVec Ideal S3x64 .f32) : FVec Ideal S64 .f32 :=
  shapeCast S64 (extractStridedSlice S1x64 ![l.val, 0] a (slices_row3 l)) shapeCasts_S1x64_S64

def bhR (l : Fin 2) (a : FVec Ideal S2x64 .f32) : FVec Ideal S64 .f32 :=
  shapeCast S64 (extractStridedSlice S1x64 ![l.val, 0] a (slices_row2 l)) shapeCasts_S1x64_S64

def whR (l : Fin 2) (a : FVec Ideal S2x64x64 .f32) : FVec Ideal S64x64 .f32 :=
  shapeCast S64x64 (extractStridedSlice S1x64x64 ![l.val, 0, 0] a (slices_slab2 l)) shapeCasts_S1x64x64_S64x64

theorem gVecR_eq (l : Fin 3) (a : FVec Ideal S3x64 .f32) : Cert.Spec.ofVec (gVecR l a) = Cert.Spec.rowOfMat a l := by
  funext j
  exact rowVec_apply l.val a (slices_row3 l) shapeCasts_S1x64_S64 l rfl j

theorem bhR_eq (l : Fin 2) (a : FVec Ideal S2x64 .f32) : Cert.Spec.ofVec (bhR l a) = Cert.Spec.rowOfMat a l := by
  funext j
  exact rowVec_apply l.val a (slices_row2 l) shapeCasts_S1x64_S64 l rfl j

theorem whR_eq (l : Fin 2) (a : FVec Ideal S2x64x64 .f32) : Cert.Spec.ofMat (whR l a) = Cert.Spec.ofCube a l := by
  funext k j
  exact slab_apply l.val a (slices_slab2 l) shapeCasts_S1x64x64_S64x64 l rfl k j

example (a : FVec Ideal S3x64 .f32) :
    shapeCast S64 (extractStridedSlice S1x64 ![1, 0] a slices_S3x64_S1x64_1_0) shapeCasts_S1x64_S64 = gVecR 1 a := rfl
example (a : FVec Ideal S2x64x64 .f32) :
    shapeCast S64x64 (extractStridedSlice S1x64x64 ![1, 0, 0] a slices_S2x64x64_S1x64x64_1_0_0) shapeCasts_S1x64x64_S64x64
      = whR 1 a := rfl

theorem addf_eq (a b : FVec Ideal S100000x64 .f32) :
    Cert.Spec.ofMat (addf a b) = fun n j => Cert.Spec.ofMat a n j + Cert.Spec.ofMat b n j := rfl

end Cert.ReferenceIdeal.RV
-- ==== Proof.RChainBn.lean ====
import proofs.«426946_j20469814133009_2_alg».proof.Proof.RChainCut
import proofs.«426946_j20469814133009_2_alg».proof.Proof.RBn

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

theorem v51_eq (W : Valuation τ sig (Elt Ideal)) :
    after ops W (main_v51 : DevRef τ sig) = gVecR 0 (after ops W (main_arg7 : DevRef τ sig)) := by
  rw [after_eq_window ops_wr 63 2 W (r := main_v51) (by decide +kernel),
    after_eq_take ops_wr 63 W (r := main_arg7) (by decide +kernel)]
  generalize after (List.take 63 ops) W = V
  rw [show (List.drop 63 (ops (F := Ideal))).take 2 = [_, _] from rfl]
  after_results_simp
  all_goals try simp only [TRef.ofBuf, TRef.toBuf, cast_eq]
  all_goals rfl

theorem v53_eq (W : Valuation τ sig (Elt Ideal)) :
    after ops W (main_v53 : DevRef τ sig) = gVecR 0 (after ops W (main_arg8 : DevRef τ sig)) := by
  rw [after_eq_window ops_wr 65 2 W (r := main_v53) (by decide +kernel),
    after_eq_take ops_wr 65 W (r := main_arg8) (by decide +kernel)]
  generalize after (List.take 65 ops) W = V
  rw [show (List.drop 65 (ops (F := Ideal))).take 2 = [_, _] from rfl]
  after_results_simp
  all_goals try simp only [TRef.ofBuf, TRef.toBuf, cast_eq]
  all_goals rfl

theorem v74_eq (W : Valuation τ sig (Elt Ideal)) :
    after ops W (main_v74 : DevRef τ sig) = whR 0 (after ops W (main_arg3 : DevRef τ sig)) := by
  rw [after_eq_window ops_wr 111 2 W (r := main_v74) (by decide +kernel),
    after_eq_take ops_wr 111 W (r := main_arg3) (by decide +kernel)]
  generalize after (List.take 111 ops) W = V
  rw [show (List.drop 111 (ops (F := Ideal))).take 2 = [_, _] from rfl]
  after_results_simp
  all_goals try simp only [TRef.ofBuf, TRef.toBuf, cast_eq]
  all_goals rfl

theorem v76_eq (W : Valuation τ sig (Elt Ideal)) :
    after ops W (main_v76 : DevRef τ sig) = bhR 0 (after ops W (main_arg4 : DevRef τ sig)) := by
  rw [after_eq_window ops_wr 113 2 W (r := main_v76) (by decide +kernel),
    after_eq_take ops_wr 113 W (r := main_arg4) (by decide +kernel)]
  generalize after (List.take 113 ops) W = V
  rw [show (List.drop 113 (ops (F := Ideal))).take 2 = [_, _] from rfl]
  after_results_simp
  all_goals try simp only [TRef.ofBuf, TRef.toBuf, cast_eq]
  all_goals rfl

theorem v116_eq (W : Valuation τ sig (Elt Ideal)) :
    after ops W (main_v116 : DevRef τ sig) = gVecR 1 (after ops W (main_arg7 : DevRef τ sig)) := by
  rw [after_eq_window ops_wr 162 2 W (r := main_v116) (by decide +kernel),
    after_eq_take ops_wr 162 W (r := main_arg7) (by decide +kernel)]
  generalize after (List.take 162 ops) W = V
  rw [show (List.drop 162 (ops (F := Ideal))).take 2 = [_, _] from rfl]
  after_results_simp
  all_goals try simp only [TRef.ofBuf, TRef.toBuf, cast_eq]
  all_goals rfl

theorem v118_eq (W : Valuation τ sig (Elt Ideal)) :
    after ops W (main_v118 : DevRef τ sig) = gVecR 1 (after ops W (main_arg8 : DevRef τ sig)) := by
  rw [after_eq_window ops_wr 164 2 W (r := main_v118) (by decide +kernel),
    after_eq_take ops_wr 164 W (r := main_arg8) (by decide +kernel)]
  generalize after (List.take 164 ops) W = V
  rw [show (List.drop 164 (ops (F := Ideal))).take 2 = [_, _] from rfl]
  after_results_simp
  all_goals try simp only [TRef.ofBuf, TRef.toBuf, cast_eq]
  all_goals rfl

theorem v138_eq (W : Valuation τ sig (Elt Ideal)) :
    after ops W (main_v138 : DevRef τ sig) = (addf (after ops W (main_v137 : DevRef τ sig) : FVec Ideal S100000x64 .f32) (after ops W (main_v72 : DevRef τ sig) : FVec Ideal S100000x64 .f32) : FVec Ideal S100000x64 .f32) := by
  rw [after_eq_window ops_wr 210 1 W (r := main_v138) (by decide +kernel),
    after_eq_take ops_wr 210 W (r := main_v137) (by decide +kernel),
    after_eq_take ops_wr 210 W (r := main_v72) (by decide +kernel)]
  generalize after (List.take 210 ops) W = V
  rw [show (List.drop 210 (ops (F := Ideal))).take 1 = [_] from rfl]
  after_results_simp
  all_goals try simp only [TRef.ofBuf, TRef.toBuf, cast_eq]
  all_goals rfl

theorem v140_eq (W : Valuation τ sig (Elt Ideal)) :
    after ops W (main_v140 : DevRef τ sig) = whR 1 (after ops W (main_arg3 : DevRef τ sig)) := by
  rw [after_eq_window ops_wr 211 2 W (r := main_v140) (by decide +kernel),
    after_eq_take ops_wr 211 W (r := main_arg3) (by decide +kernel)]
  generalize after (List.take 211 ops) W = V
  rw [show (List.drop 211 (ops (F := Ideal))).take 2 = [_, _] from rfl]
  after_results_simp
  all_goals try simp only [TRef.ofBuf, TRef.toBuf, cast_eq]
  all_goals rfl

theorem v142_eq (W : Valuation τ sig (Elt Ideal)) :
    after ops W (main_v142 : DevRef τ sig) = bhR 1 (after ops W (main_arg4 : DevRef τ sig)) := by
  rw [after_eq_window ops_wr 213 2 W (r := main_v142) (by decide +kernel),
    after_eq_take ops_wr 213 W (r := main_arg4) (by decide +kernel)]
  generalize after (List.take 213 ops) W = V
  rw [show (List.drop 213 (ops (F := Ideal))).take 2 = [_, _] from rfl]
  after_results_simp
  all_goals try simp only [TRef.ofBuf, TRef.toBuf, cast_eq]
  all_goals rfl

theorem v182_eq (W : Valuation τ sig (Elt Ideal)) :
    after ops W (main_v182 : DevRef τ sig) = gVecR 2 (after ops W (main_arg7 : DevRef τ sig)) := by
  rw [after_eq_window ops_wr 262 2 W (r := main_v182) (by decide +kernel),
    after_eq_take ops_wr 262 W (r := main_arg7) (by decide +kernel)]
  generalize after (List.take 262 ops) W = V
  rw [show (List.drop 262 (ops (F := Ideal))).take 2 = [_, _] from rfl]
  after_results_simp
  all_goals try simp only [TRef.ofBuf, TRef.toBuf, cast_eq]
  all_goals rfl

theorem v184_eq (W : Valuation τ sig (Elt Ideal)) :
    after ops W (main_v184 : DevRef τ sig) = gVecR 2 (after ops W (main_arg8 : DevRef τ sig)) := by
  rw [after_eq_window ops_wr 264 2 W (r := main_v184) (by decide +kernel),
    after_eq_take ops_wr 264 W (r := main_arg8) (by decide +kernel)]
  generalize after (List.take 264 ops) W = V
  rw [show (List.drop 264 (ops (F := Ideal))).take 2 = [_, _] from rfl]
  after_results_simp
  all_goals try simp only [TRef.ofBuf, TRef.toBuf, cast_eq]
  all_goals rfl

theorem v204_eq (W : Valuation τ sig (Elt Ideal)) :
    after ops W (main_v204 : DevRef τ sig) = (addf (after ops W (main_v203 : DevRef τ sig) : FVec Ideal S100000x64 .f32) (after ops W (main_v138 : DevRef τ sig) : FVec Ideal S100000x64 .f32) : FVec Ideal S100000x64 .f32) := by
  rw [after_eq_window ops_wr 310 1 W (r := main_v204) (by decide +kernel),
    after_eq_take ops_wr 310 W (r := main_v203) (by decide +kernel),
    after_eq_take ops_wr 310 W (r := main_v138) (by decide +kernel)]
  generalize after (List.take 310 ops) W = V
  rw [show (List.drop 310 (ops (F := Ideal))).take 1 = [_] from rfl]
  after_results_simp
  all_goals try simp only [TRef.ofBuf, TRef.toBuf, cast_eq]
  all_goals rfl

end Cert.ReferenceIdeal.RV

end
-- ==== Proof.RChainBnT.lean ====
import proofs.«426946_j20469814133009_2_alg».proof.Proof.RBn

noncomputable section

namespace Cert.ReferenceIdeal.RV

open Idealize.ShloMosaic
open Cert.ReferenceIdeal

variable [Facts₀]
open Facts₀

def bnTailR (t : FVec Ideal S100000x64 .f32) (m v gv bv : FVec Ideal S64 .f32) : FVec Ideal S100000x64 .f32 :=
  addf
    (mulf
      (mulf (subf t (rowsR m))
        (rowsR (Host.rsqrt (F := Ideal)
          (addf v (broadcastInDim S64 ![] bcast_S_S64 (constant (F := Ideal) S_ .f32 0x3727C5AC#32))))))
      (rowsR gv))
    (rowsR bv)

theorem bnR_tail (t : FVec Ideal S100000x64 .f32) (gv bv : FVec Ideal S64 .f32) :
    bnR t gv bv = bnTailR t (meanVecR t) (varVecR t) gv bv := rfl

end Cert.ReferenceIdeal.RV

end
-- ==== Proof.RChainBn0.lean ====
import proofs.«426946_j20469814133009_2_alg».proof.Proof.RChainCut
import proofs.«426946_j20469814133009_2_alg».proof.Proof.RChainBnT

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

private theorem ofBuf_toBuf {sig : RefSig} {Val : EltTy → Type} {T : BufTy} (x : StableHlo.TRef sig T)
    (v : T.Contents Val) : x.ofBuf (x.toBuf v) = v := by
  obtain ⟨r, h, h1, h2⟩ := x
  subst h
  rfl

theorem v56_eq (W : Valuation τ sig (Elt Ideal)) :
    after ops W (main_v56 : DevRef τ sig) = meanVecR (after ops W (main_v49 : DevRef τ sig)) := by
  rw [after_eq_window ops_wr 67 5 W (r := main_v56) (by decide +kernel),
    after_eq_take ops_wr 67 W (r := main_v49) (by decide +kernel)]
  generalize after (List.take 67 ops) W = V
  rw [show (List.drop 67 (ops (F := Ideal))).take 5 = [_, _, _, _, _] from rfl]
  after_results_simp
  all_goals rfl

set_option maxHeartbeats 4000000 in

theorem v57_eq (W : Valuation τ sig (Elt Ideal)) :
    after ops W (main_v57 : DevRef τ sig) = varVecR (after ops W (main_v49 : DevRef τ sig)) := by
  rw [after_eq_window ops_wr 72 23 W (r := main_v57) (by decide +kernel),
    after_eq_take ops_wr 72 W (r := main_v49) (by decide +kernel)]
  generalize after (List.take 72 ops) W = V
  rw [show (List.drop 72 (ops (F := Ideal))).take 23 = [_, _, _, _, _, _, _, _, _, _, _, _, _, _, _, _, _, _, _, _, _, _, _] from rfl]
  set_option maxRecDepth 16384 in after_results_simp
  all_goals try simp only [ofBuf_toBuf]
  all_goals rfl

theorem v72_tail_eq (W : Valuation τ sig (Elt Ideal)) :
    after ops W (main_v72 : DevRef τ sig) = bnTailR (after ops W (main_v49 : DevRef τ sig)) (after ops W (main_v56 : DevRef τ sig)) (after ops W (main_v57 : DevRef τ sig)) (after ops W (main_v51 : DevRef τ sig)) (after ops W (main_v53 : DevRef τ sig)) := by
  rw [after_eq_window ops_wr 95 16 W (r := main_v72) (by decide +kernel),
    after_eq_take ops_wr 95 W (r := main_v49) (by decide +kernel),
    after_eq_take ops_wr 95 W (r := main_v56) (by decide +kernel),
    after_eq_take ops_wr 95 W (r := main_v57) (by decide +kernel),
    after_eq_take ops_wr 95 W (r := main_v51) (by decide +kernel),
    after_eq_take ops_wr 95 W (r := main_v53) (by decide +kernel)]
  generalize after (List.take 95 ops) W = V
  rw [show (List.drop 95 (ops (F := Ideal))).take 16 = [_, _, _, _, _, _, _, _, _, _, _, _, _, _, _, _] from rfl]
  after_results_simp
  all_goals rfl

theorem v72_eq (W : Valuation τ sig (Elt Ideal)) :
    after ops W (main_v72 : DevRef τ sig) = bnR (after ops W (main_v49 : DevRef τ sig)) (after ops W (main_v51 : DevRef τ sig)) (after ops W (main_v53 : DevRef τ sig)) := by
  rw [v72_tail_eq, v56_eq, v57_eq]
  exact (bnR_tail _ _ _).symm

end Cert.ReferenceIdeal.RV

end
-- ==== Proof.RChainBn1.lean ====
import proofs.«426946_j20469814133009_2_alg».proof.Proof.RChainCut
import proofs.«426946_j20469814133009_2_alg».proof.Proof.RChainBnT

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

private theorem ofBuf_toBuf {sig : RefSig} {Val : EltTy → Type} {T : BufTy} (x : StableHlo.TRef sig T)
    (v : T.Contents Val) : x.ofBuf (x.toBuf v) = v := by
  obtain ⟨r, h, h1, h2⟩ := x
  subst h
  rfl

theorem v121_eq (W : Valuation τ sig (Elt Ideal)) :
    after ops W (main_v121 : DevRef τ sig) = meanVecR (after ops W (main_v114 : DevRef τ sig)) := by
  rw [after_eq_window ops_wr 166 5 W (r := main_v121) (by decide +kernel),
    after_eq_take ops_wr 166 W (r := main_v114) (by decide +kernel)]
  generalize after (List.take 166 ops) W = V
  rw [show (List.drop 166 (ops (F := Ideal))).take 5 = [_, _, _, _, _] from rfl]
  after_results_simp
  all_goals rfl

set_option maxHeartbeats 4000000 in

theorem v122_eq (W : Valuation τ sig (Elt Ideal)) :
    after ops W (main_v122 : DevRef τ sig) = varVecR (after ops W (main_v114 : DevRef τ sig)) := by
  rw [after_eq_window ops_wr 171 23 W (r := main_v122) (by decide +kernel),
    after_eq_take ops_wr 171 W (r := main_v114) (by decide +kernel)]
  generalize after (List.take 171 ops) W = V
  rw [show (List.drop 171 (ops (F := Ideal))).take 23 = [_, _, _, _, _, _, _, _, _, _, _, _, _, _, _, _, _, _, _, _, _, _, _] from rfl]
  set_option maxRecDepth 16384 in after_results_simp
  all_goals try simp only [ofBuf_toBuf]
  all_goals rfl

theorem v137_tail_eq (W : Valuation τ sig (Elt Ideal)) :
    after ops W (main_v137 : DevRef τ sig) = bnTailR (after ops W (main_v114 : DevRef τ sig)) (after ops W (main_v121 : DevRef τ sig)) (after ops W (main_v122 : DevRef τ sig)) (after ops W (main_v116 : DevRef τ sig)) (after ops W (main_v118 : DevRef τ sig)) := by
  rw [after_eq_window ops_wr 194 16 W (r := main_v137) (by decide +kernel),
    after_eq_take ops_wr 194 W (r := main_v114) (by decide +kernel),
    after_eq_take ops_wr 194 W (r := main_v121) (by decide +kernel),
    after_eq_take ops_wr 194 W (r := main_v122) (by decide +kernel),
    after_eq_take ops_wr 194 W (r := main_v116) (by decide +kernel),
    after_eq_take ops_wr 194 W (r := main_v118) (by decide +kernel)]
  generalize after (List.take 194 ops) W = V
  rw [show (List.drop 194 (ops (F := Ideal))).take 16 = [_, _, _, _, _, _, _, _, _, _, _, _, _, _, _, _] from rfl]
  after_results_simp
  all_goals rfl

theorem v137_eq (W : Valuation τ sig (Elt Ideal)) :
    after ops W (main_v137 : DevRef τ sig) = bnR (after ops W (main_v114 : DevRef τ sig)) (after ops W (main_v116 : DevRef τ sig)) (after ops W (main_v118 : DevRef τ sig)) := by
  rw [v137_tail_eq, v121_eq, v122_eq]
  exact (bnR_tail _ _ _).symm

end Cert.ReferenceIdeal.RV

end
-- ==== Proof.RChainBn2.lean ====
import proofs.«426946_j20469814133009_2_alg».proof.Proof.RChainCut
import proofs.«426946_j20469814133009_2_alg».proof.Proof.RChainBnT

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

private theorem ofBuf_toBuf {sig : RefSig} {Val : EltTy → Type} {T : BufTy} (x : StableHlo.TRef sig T)
    (v : T.Contents Val) : x.ofBuf (x.toBuf v) = v := by
  obtain ⟨r, h, h1, h2⟩ := x
  subst h
  rfl

theorem v187_eq (W : Valuation τ sig (Elt Ideal)) :
    after ops W (main_v187 : DevRef τ sig) = meanVecR (after ops W (main_v180 : DevRef τ sig)) := by
  rw [after_eq_window ops_wr 266 5 W (r := main_v187) (by decide +kernel),
    after_eq_take ops_wr 266 W (r := main_v180) (by decide +kernel)]
  generalize after (List.take 266 ops) W = V
  rw [show (List.drop 266 (ops (F := Ideal))).take 5 = [_, _, _, _, _] from rfl]
  after_results_simp
  all_goals rfl

set_option maxHeartbeats 4000000 in

theorem v188_eq (W : Valuation τ sig (Elt Ideal)) :
    after ops W (main_v188 : DevRef τ sig) = varVecR (after ops W (main_v180 : DevRef τ sig)) := by
  rw [after_eq_window ops_wr 271 23 W (r := main_v188) (by decide +kernel),
    after_eq_take ops_wr 271 W (r := main_v180) (by decide +kernel)]
  generalize after (List.take 271 ops) W = V
  rw [show (List.drop 271 (ops (F := Ideal))).take 23 = [_, _, _, _, _, _, _, _, _, _, _, _, _, _, _, _, _, _, _, _, _, _, _] from rfl]
  set_option maxRecDepth 16384 in after_results_simp
  all_goals try simp only [ofBuf_toBuf]
  all_goals rfl

theorem v203_tail_eq (W : Valuation τ sig (Elt Ideal)) :
    after ops W (main_v203 : DevRef τ sig) = bnTailR (after ops W (main_v180 : DevRef τ sig)) (after ops W (main_v187 : DevRef τ sig)) (after ops W (main_v188 : DevRef τ sig)) (after ops W (main_v182 : DevRef τ sig)) (after ops W (main_v184 : DevRef τ sig)) := by
  rw [after_eq_window ops_wr 294 16 W (r := main_v203) (by decide +kernel),
    after_eq_take ops_wr 294 W (r := main_v180) (by decide +kernel),
    after_eq_take ops_wr 294 W (r := main_v187) (by decide +kernel),
    after_eq_take ops_wr 294 W (r := main_v188) (by decide +kernel),
    after_eq_take ops_wr 294 W (r := main_v182) (by decide +kernel),
    after_eq_take ops_wr 294 W (r := main_v184) (by decide +kernel)]
  generalize after (List.take 294 ops) W = V
  rw [show (List.drop 294 (ops (F := Ideal))).take 16 = [_, _, _, _, _, _, _, _, _, _, _, _, _, _, _, _] from rfl]
  after_results_simp
  all_goals rfl

theorem v203_eq (W : Valuation τ sig (Elt Ideal)) :
    after ops W (main_v203 : DevRef τ sig) = bnR (after ops W (main_v180 : DevRef τ sig)) (after ops W (main_v182 : DevRef τ sig)) (after ops W (main_v184 : DevRef τ sig)) := by
  rw [v203_tail_eq, v187_eq, v188_eq]
  exact (bnR_tail _ _ _).symm

end Cert.ReferenceIdeal.RV

end
-- ==== Proof.RConv.lean ====
import proofs.«426946_j20469814133009_2_alg».proof.ReferenceIdeal
import proofs.«426946_j20469814133009_2_alg».proof.Proof.Gen.ReferenceIdeal
import proofs.«426946_j20469814133009_2_alg».proof.Proof.Spec
import proofs.«426946_j20469814133009_2_alg».proof.Proof.LibRows
import proofs.«426946_j20469814133009_2_alg».proof.Proof.ConvLib
import Idealize.ShloMosaic.PureOps.Ideal
import Idealize.ShloMosaic.Lib.ValueIdx
import Idealize.ShloMosaic.Lib.IdealHost
import Idealize.ShloMosaic.Lib.StackMember

noncomputable section

open scoped BigOperators

namespace Cert.ReferenceIdeal.RV

open Idealize.ShloMosaic Idealize.ShloMosaic.ValueIdx
open Cert.ReferenceIdeal Cert.ReferenceIdeal.Facts₀

theorem plain_read {m k c : Nat} (x : FVec Ideal ⟨2, ![m, k]⟩ .f32) (W : FVec Ideal ⟨2, ![k, c]⟩ .f32) (n : Fin m) (j : Fin c) :
    Host.dotGeneral (F := Ideal) (DotDims.plain m k c) none x W (ix2 n j) = ∑ i : Fin k, x (ix2 n i) * W (ix2 i j) :=
  StackMember.dotGeneral_plain_apply none x W n j

def linR128 (x : FVec Ideal S100000x128 .f32) (W : FVec Ideal S128x64 .f32) : FVec Ideal S100000x64 .f32 :=
  Host.dotGeneral (F := Ideal) dot_S100000x128_S128x64_S100000x64_1_0_0_1_n_n none x W

def linR64 (h : FVec Ideal S100000x64 .f32) (W : FVec Ideal S64x64 .f32) : FVec Ideal S100000x64 .f32 :=
  Host.dotGeneral (F := Ideal) dot_S100000x64_S64x64_S100000x64_1_0_0_1_n_n none h W

def linR2 (h : FVec Ideal S100000x64 .f32) (W : FVec Ideal S64x2 .f32) : FVec Ideal S100000x2 .f32 :=
  Host.dotGeneral (F := Ideal) dot_S100000x64_S64x2_S100000x2_1_0_0_1_n_n none h W

theorem linR128_read (x : FVec Ideal S100000x128 .f32) (W : FVec Ideal S128x64 .f32) :
    Cert.Spec.ofMat (linR128 x W) = Cert.Spec.lin (Cert.Spec.ofMat x) (Cert.Spec.ofMat W) := by
  funext n j
  exact (Cert.ConvLib.ofMat_apply _ n j).trans (plain_read x W n j)

theorem linR64_read (h : FVec Ideal S100000x64 .f32) (W : FVec Ideal S64x64 .f32) :
    Cert.Spec.ofMat (linR64 h W) = Cert.Spec.lin (Cert.Spec.ofMat h) (Cert.Spec.ofMat W) := by
  funext n j
  exact (Cert.ConvLib.ofMat_apply _ n j).trans (plain_read h W n j)

theorem linR2_read (h : FVec Ideal S100000x64 .f32) (W : FVec Ideal S64x2 .f32) :
    Cert.Spec.ofMat (linR2 h W) = Cert.Spec.lin (Cert.Spec.ofMat h) (Cert.Spec.ofMat W) := by
  funext n j
  exact (Cert.ConvLib.ofMat_apply _ n j).trans (plain_read h W n j)

def reluR (x : FVec Ideal S100000x64 .f32) : FVec Ideal S100000x64 .f32 :=
  maximumf x (broadcastInDim S100000x64 ![] bcast_S_S100000x64 (constant (F := Ideal) S_ .f32 0x00000000#32))

theorem reluR_read (x : FVec Ideal S100000x64 .f32) : Cert.Spec.ofMat (reluR x) = Cert.Spec.reluT (Cert.Spec.ofMat x) := by
  funext n j
  refine (Cert.ConvLib.ofMat_apply _ n j).trans ((maximumf_apply _ _ _).trans ?_)
  exact congrArg (fun t : EReal => max (x (ix2 n j)) t)
    ((broadcastInDim_scalar_apply bcast_S_S100000x64 _ _).trans ((constant_apply _ _).trans Cert.ConvLib.zero_eq))

def convR64 (hl : FVec Ideal S100000x64 .f32) (s1 d3 : IVec S1200000 32) (nrm : FVec Ideal S1200000 .f32)
    (dv : FVec Ideal S100000 .f32) (b : FVec Ideal S64 .f32) : FVec Ideal S100000x64 .f32 :=
  Cert.ConvLib.convG gather_S100000x64_S1200000x1_S1200000x64_1_0_n_n_0_1_164 scatter_S100000x64_S1200000x1_S1200000x64_1_0_0_1 bcast_S_S1200000 bcast_S1200000_S1200000x1_0 bcast_S1200000x1_S1200000x64_0_1 bcast_S_S100000x64
    bcast_S100000_S100000x1_0 bcast_S100000x1_S100000x64_0_1 bcast_S64_S1x64_1 bcast_S1x64_S100000x64_0_1 hl s1 d3 nrm dv b

theorem convR64_read (hl : FVec Ideal S100000x64 .f32) (s1 d3 : IVec S1200000 32) (nrm : FVec Ideal S1200000 .f32)
    (dv : FVec Ideal S100000 .f32) (b : FVec Ideal S64 .f32) (n : Fin 100000) (j : Fin 64) :
    Cert.Spec.ofMat (convR64 hl s1 d3 nrm dv b) n j
      = ((Cert.Spec.zero + ∑ e ∈ Finset.univ.filter (fun e : Fin 1200000 => (d3 (ix1 e)).toInt = (n.val : Int)),
            Cert.Spec.ofMat hl (Cert.Spec.rowOf (s1 (ix1 e))) j * nrm (ix1 e))
          + Cert.Spec.ofMat hl n j * (dv (ix1 n) * dv (ix1 n))) + b (ix1 j) :=
  (Cert.ConvLib.ofMat_apply _ n j).trans
    (Cert.ConvLib.convG_apply gather_S100000x64_S1200000x1_S1200000x64_1_0_n_n_0_1_164 scatter_S100000x64_S1200000x1_S1200000x64_1_0_0_1 bcast_S_S1200000 bcast_S1200000_S1200000x1_0 bcast_S1200000x1_S1200000x64_0_1 bcast_S_S100000x64
        bcast_S100000_S100000x1_0 bcast_S100000x1_S100000x64_0_1 bcast_S64_S1x64_1 bcast_S1x64_S100000x64_0_1 rfl rfl rfl rfl rfl rfl rfl rfl rfl hl s1 d3 nrm dv b n j)

def convR2 (hl : FVec Ideal S100000x2 .f32) (s1 d3 : IVec S1200000 32) (nrm : FVec Ideal S1200000 .f32)
    (dv : FVec Ideal S100000 .f32) (b : FVec Ideal S2 .f32) : FVec Ideal S100000x2 .f32 :=
  Cert.ConvLib.convG gather_S100000x2_S1200000x1_S1200000x2_1_0_n_n_0_1_12 scatter_S100000x2_S1200000x1_S1200000x2_1_0_0_1 bcast_S_S1200000 bcast_S1200000_S1200000x1_0 bcast_S1200000x1_S1200000x2_0_1 bcast_S_S100000x2
    bcast_S100000_S100000x1_0 bcast_S100000x1_S100000x2_0_1 bcast_S2_S1x2_1 bcast_S1x2_S100000x2_0_1 hl s1 d3 nrm dv b

theorem convR2_read (hl : FVec Ideal S100000x2 .f32) (s1 d3 : IVec S1200000 32) (nrm : FVec Ideal S1200000 .f32)
    (dv : FVec Ideal S100000 .f32) (b : FVec Ideal S2 .f32) (n : Fin 100000) (j : Fin 2) :
    Cert.Spec.ofMat (convR2 hl s1 d3 nrm dv b) n j
      = ((Cert.Spec.zero + ∑ e ∈ Finset.univ.filter (fun e : Fin 1200000 => (d3 (ix1 e)).toInt = (n.val : Int)),
            Cert.Spec.ofMat hl (Cert.Spec.rowOf (s1 (ix1 e))) j * nrm (ix1 e))
          + Cert.Spec.ofMat hl n j * (dv (ix1 n) * dv (ix1 n))) + b (ix1 j) :=
  (Cert.ConvLib.ofMat_apply _ n j).trans
    (Cert.ConvLib.convG_apply gather_S100000x2_S1200000x1_S1200000x2_1_0_n_n_0_1_12 scatter_S100000x2_S1200000x1_S1200000x2_1_0_0_1 bcast_S_S1200000 bcast_S1200000_S1200000x1_0 bcast_S1200000x1_S1200000x2_0_1 bcast_S_S100000x2
        bcast_S100000_S100000x1_0 bcast_S100000x1_S100000x2_0_1 bcast_S2_S1x2_1 bcast_S1x2_S100000x2_0_1 rfl rfl rfl rfl rfl rfl rfl rfl rfl hl s1 d3 nrm dv b n j)

end Cert.ReferenceIdeal.RV

end
-- ==== Proof.RChainConv.lean ====
import proofs.«426946_j20469814133009_2_alg».proof.Proof.RChainCut
import proofs.«426946_j20469814133009_2_alg».proof.Proof.RConv

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

theorem v12_eq (W : Valuation τ sig (Elt Ideal)) :
    after ops W (main_v12 : DevRef τ sig) = linR128 (after ops W (main_arg0 : DevRef τ sig)) (after ops W (main_arg1 : DevRef τ sig)) := by
  rw [after_eq_window ops_wr 16 1 W (r := main_v12) (by decide +kernel),
    after_eq_take ops_wr 16 W (r := main_arg0) (by decide +kernel),
    after_eq_take ops_wr 16 W (r := main_arg1) (by decide +kernel)]
  generalize after (List.take 16 ops) W = V
  rw [show (List.drop 16 (ops (F := Ideal))).take 1 = [_] from rfl]
  after_results_simp
  all_goals try simp only [TRef.ofBuf, TRef.toBuf, cast_eq]
  all_goals rfl

theorem v49_eq (W : Valuation τ sig (Elt Ideal)) :
    after ops W (main_v49 : DevRef τ sig) = reluR (after ops W (main_v48 : DevRef τ sig)) := by
  rw [after_eq_window ops_wr 60 3 W (r := main_v49) (by decide +kernel),
    after_eq_take ops_wr 60 W (r := main_v48) (by decide +kernel)]
  generalize after (List.take 60 ops) W = V
  rw [show (List.drop 60 (ops (F := Ideal))).take 3 = [_, _, _] from rfl]
  after_results_simp
  all_goals try simp only [TRef.ofBuf, TRef.toBuf, cast_eq]
  all_goals rfl

theorem v77_eq (W : Valuation τ sig (Elt Ideal)) :
    after ops W (main_v77 : DevRef τ sig) = linR64 (after ops W (main_v72 : DevRef τ sig)) (after ops W (main_v74 : DevRef τ sig)) := by
  rw [after_eq_window ops_wr 115 1 W (r := main_v77) (by decide +kernel),
    after_eq_take ops_wr 115 W (r := main_v72) (by decide +kernel),
    after_eq_take ops_wr 115 W (r := main_v74) (by decide +kernel)]
  generalize after (List.take 115 ops) W = V
  rw [show (List.drop 115 (ops (F := Ideal))).take 1 = [_] from rfl]
  after_results_simp
  all_goals try simp only [TRef.ofBuf, TRef.toBuf, cast_eq]
  all_goals rfl

theorem v114_eq (W : Valuation τ sig (Elt Ideal)) :
    after ops W (main_v114 : DevRef τ sig) = reluR (after ops W (main_v113 : DevRef τ sig)) := by
  rw [after_eq_window ops_wr 159 3 W (r := main_v114) (by decide +kernel),
    after_eq_take ops_wr 159 W (r := main_v113) (by decide +kernel)]
  generalize after (List.take 159 ops) W = V
  rw [show (List.drop 159 (ops (F := Ideal))).take 3 = [_, _, _] from rfl]
  after_results_simp
  all_goals try simp only [TRef.ofBuf, TRef.toBuf, cast_eq]
  all_goals rfl

theorem v143_eq (W : Valuation τ sig (Elt Ideal)) :
    after ops W (main_v143 : DevRef τ sig) = linR64 (after ops W (main_v138 : DevRef τ sig)) (after ops W (main_v140 : DevRef τ sig)) := by
  rw [after_eq_window ops_wr 215 1 W (r := main_v143) (by decide +kernel),
    after_eq_take ops_wr 215 W (r := main_v138) (by decide +kernel),
    after_eq_take ops_wr 215 W (r := main_v140) (by decide +kernel)]
  generalize after (List.take 215 ops) W = V
  rw [show (List.drop 215 (ops (F := Ideal))).take 1 = [_] from rfl]
  after_results_simp
  all_goals try simp only [TRef.ofBuf, TRef.toBuf, cast_eq]
  all_goals rfl

theorem v180_eq (W : Valuation τ sig (Elt Ideal)) :
    after ops W (main_v180 : DevRef τ sig) = reluR (after ops W (main_v179 : DevRef τ sig)) := by
  rw [after_eq_window ops_wr 259 3 W (r := main_v180) (by decide +kernel),
    after_eq_take ops_wr 259 W (r := main_v179) (by decide +kernel)]
  generalize after (List.take 259 ops) W = V
  rw [show (List.drop 259 (ops (F := Ideal))).take 3 = [_, _, _] from rfl]
  after_results_simp
  all_goals try simp only [TRef.ofBuf, TRef.toBuf, cast_eq]
  all_goals rfl

theorem v205_eq (W : Valuation τ sig (Elt Ideal)) :
    after ops W (main_v205 : DevRef τ sig) = linR2 (after ops W (main_v204 : DevRef τ sig)) (after ops W (main_arg5 : DevRef τ sig)) := by
  rw [after_eq_window ops_wr 311 1 W (r := main_v205) (by decide +kernel),
    after_eq_take ops_wr 311 W (r := main_v204) (by decide +kernel),
    after_eq_take ops_wr 311 W (r := main_arg5) (by decide +kernel)]
  generalize after (List.take 311 ops) W = V
  rw [show (List.drop 311 (ops (F := Ideal))).take 1 = [_] from rfl]
  after_results_simp
  all_goals try simp only [TRef.ofBuf, TRef.toBuf, cast_eq]
  all_goals rfl

end Cert.ReferenceIdeal.RV

end
-- ==== Proof.RChainConv0.lean ====
import proofs.«426946_j20469814133009_2_alg».proof.Proof.RChainCut
import proofs.«426946_j20469814133009_2_alg».proof.Proof.RConv

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

set_option maxRecDepth 16384 in
set_option maxHeartbeats 4000000 in

theorem v48_eq (W : Valuation τ sig (Elt Ideal)) :
    after ops W (main_v48 : DevRef τ sig) = convR64 (after ops W (main_v12 : DevRef τ sig)) (after ops W (main_v1 : DevRef τ sig)) (after ops W (main_v3 : DevRef τ sig)) (after ops W (main_v27 : DevRef τ sig)) (after ops W (main_v11 : DevRef τ sig)) (after ops W (main_arg2 : DevRef τ sig)) := by
  rw [after_eq_window ops_wr 36 24 W (r := main_v48) (by decide +kernel),
    after_eq_take ops_wr 36 W (r := main_v12) (by decide +kernel),
    after_eq_take ops_wr 36 W (r := main_v1) (by decide +kernel),
    after_eq_take ops_wr 36 W (r := main_v3) (by decide +kernel),
    after_eq_take ops_wr 36 W (r := main_v27) (by decide +kernel),
    after_eq_take ops_wr 36 W (r := main_v11) (by decide +kernel),
    after_eq_take ops_wr 36 W (r := main_arg2) (by decide +kernel)]
  generalize after (List.take 36 ops) W = V
  rw [show (List.drop 36 (ops (F := Ideal))).take 24 = [_, _, _, _, _, _, _, _, _, _, _, _, _, _, _, _, _, _, _, _, _, _, _, _] from rfl]
  after_results_simp
  try simp only [TRef.ofBuf, TRef.toBuf, cast_eq]
  rfl

end Cert.ReferenceIdeal.RV

end
-- ==== Proof.RChainConv1.lean ====
import proofs.«426946_j20469814133009_2_alg».proof.Proof.RChainCut
import proofs.«426946_j20469814133009_2_alg».proof.Proof.RConv

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

set_option maxRecDepth 16384 in
set_option maxHeartbeats 4000000 in

theorem v113_eq (W : Valuation τ sig (Elt Ideal)) :
    after ops W (main_v113 : DevRef τ sig) = convR64 (after ops W (main_v77 : DevRef τ sig)) (after ops W (main_v1 : DevRef τ sig)) (after ops W (main_v3 : DevRef τ sig)) (after ops W (main_v92 : DevRef τ sig)) (after ops W (main_v11 : DevRef τ sig)) (after ops W (main_v76 : DevRef τ sig)) := by
  rw [after_eq_window ops_wr 135 24 W (r := main_v113) (by decide +kernel),
    after_eq_take ops_wr 135 W (r := main_v77) (by decide +kernel),
    after_eq_take ops_wr 135 W (r := main_v1) (by decide +kernel),
    after_eq_take ops_wr 135 W (r := main_v3) (by decide +kernel),
    after_eq_take ops_wr 135 W (r := main_v92) (by decide +kernel),
    after_eq_take ops_wr 135 W (r := main_v11) (by decide +kernel),
    after_eq_take ops_wr 135 W (r := main_v76) (by decide +kernel)]
  generalize after (List.take 135 ops) W = V
  rw [show (List.drop 135 (ops (F := Ideal))).take 24 = [_, _, _, _, _, _, _, _, _, _, _, _, _, _, _, _, _, _, _, _, _, _, _, _] from rfl]
  after_results_simp
  try simp only [TRef.ofBuf, TRef.toBuf, cast_eq]
  rfl

end Cert.ReferenceIdeal.RV

end
-- ==== Proof.RChainConv2.lean ====
import proofs.«426946_j20469814133009_2_alg».proof.Proof.RChainCut
import proofs.«426946_j20469814133009_2_alg».proof.Proof.RConv

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

set_option maxRecDepth 16384 in
set_option maxHeartbeats 4000000 in

theorem v179_eq (W : Valuation τ sig (Elt Ideal)) :
    after ops W (main_v179 : DevRef τ sig) = convR64 (after ops W (main_v143 : DevRef τ sig)) (after ops W (main_v1 : DevRef τ sig)) (after ops W (main_v3 : DevRef τ sig)) (after ops W (main_v158 : DevRef τ sig)) (after ops W (main_v11 : DevRef τ sig)) (after ops W (main_v142 : DevRef τ sig)) := by
  rw [after_eq_window ops_wr 235 24 W (r := main_v179) (by decide +kernel),
    after_eq_take ops_wr 235 W (r := main_v143) (by decide +kernel),
    after_eq_take ops_wr 235 W (r := main_v1) (by decide +kernel),
    after_eq_take ops_wr 235 W (r := main_v3) (by decide +kernel),
    after_eq_take ops_wr 235 W (r := main_v158) (by decide +kernel),
    after_eq_take ops_wr 235 W (r := main_v11) (by decide +kernel),
    after_eq_take ops_wr 235 W (r := main_v142) (by decide +kernel)]
  generalize after (List.take 235 ops) W = V
  rw [show (List.drop 235 (ops (F := Ideal))).take 24 = [_, _, _, _, _, _, _, _, _, _, _, _, _, _, _, _, _, _, _, _, _, _, _, _] from rfl]
  after_results_simp
  try simp only [TRef.ofBuf, TRef.toBuf, cast_eq]
  rfl

end Cert.ReferenceIdeal.RV

end
-- ==== Proof.RChainConv3.lean ====
import proofs.«426946_j20469814133009_2_alg».proof.Proof.RChainCut
import proofs.«426946_j20469814133009_2_alg».proof.Proof.RConv

set_option Elab.async false

noncomputable section

namespace Cert.ReferenceIdeal.RV

open Cert.ReferenceIdeal Cert.ReferenceIdeal.Gen Idealize.ShloMosaic Idealize.ShloMosaic.TcCoe Idealize.ShloMosaic.StableHlo Cert.RChainLib

set_option maxRecDepth 16384 in
set_option maxHeartbeats 4000000 in

theorem v241_eq (W : Valuation τ sig (Elt Ideal)) :
    after ops W (main_v241 : DevRef τ sig) = convR2 (after ops W (main_v205 : DevRef τ sig)) (after ops W (main_v1 : DevRef τ sig)) (after ops W (main_v3 : DevRef τ sig)) (after ops W (main_v220 : DevRef τ sig)) (after ops W (main_v11 : DevRef τ sig)) (after ops W (main_arg6 : DevRef τ sig)) := by
  rw [after_eq_window ops_wr 331 24 W (r := main_v241) (by decide +kernel),
    after_eq_take ops_wr 331 W (r := main_v205) (by decide +kernel),
    after_eq_take ops_wr 331 W (r := main_v1) (by decide +kernel),
    after_eq_take ops_wr 331 W (r := main_v3) (by decide +kernel),
    after_eq_take ops_wr 331 W (r := main_v220) (by decide +kernel),
    after_eq_take ops_wr 331 W (r := main_v11) (by decide +kernel),
    after_eq_take ops_wr 331 W (r := main_arg6) (by decide +kernel)]
  generalize after (List.take 331 ops) W = V
  rw [show (List.drop 331 (ops (F := Ideal))).take 24 = [_, _, _, _, _, _, _, _, _, _, _, _, _, _, _, _, _, _, _, _, _, _, _, _] from rfl]
  after_results_simp
  try simp only [TRef.ofBuf, TRef.toBuf, cast_eq]
  rfl

end Cert.ReferenceIdeal.RV

end
-- ==== Proof.RChainPure.lean ====
import proofs.«426946_j20469814133009_2_alg».proof.Proof.RG
import proofs.«426946_j20469814133009_2_alg».proof.Proof.RBn
import proofs.«426946_j20469814133009_2_alg».proof.Proof.RConv
import Idealize.ShloMosaic.Lib.ValueIdx

noncomputable section

open scoped BigOperators

namespace Cert.ReferenceIdeal.RV

open Cert.ReferenceIdeal Idealize.ShloMosaic Idealize.ShloMosaic.ValueIdx

def dinvA (a9 : IVec S2x1200000 32) : FVec Ideal S100000 .f32 := dinvR (dstR a9)

def normA (a9 : IVec S2x1200000 32) : FVec Ideal S1200000 .f32 := normR (dinvA a9) (srcR a9) (dstR a9)

def t0A (x : FVec Ideal S100000x128 .f32) (w : FVec Ideal S128x64 .f32) (b : FVec Ideal S64 .f32) (a9 : IVec S2x1200000 32) : FVec Ideal S100000x64 .f32 :=
  reluR (convR64 (linR128 x w) (srcR a9) (dstR a9) (normA a9) (dinvA a9) b)

def h1A (x : FVec Ideal S100000x128 .f32) (w : FVec Ideal S128x64 .f32) (b : FVec Ideal S64 .f32) (g be : FVec Ideal S3x64 .f32) (a9 : IVec S2x1200000 32) : FVec Ideal S100000x64 .f32 :=
  bnR (t0A x w b a9) (gVecR 0 g) (gVecR 0 be)

def t1A (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : FVec Ideal S100000x64 .f32 :=
  reluR (convR64 (linR64 (h1A x w b g be a9) (whR 0 wh)) (srcR a9) (dstR a9) (normA a9) (dinvA a9) (bhR 0 bh))

def h2A (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : FVec Ideal S100000x64 .f32 :=
  addf (bnR (t1A x w b wh bh g be a9) (gVecR 1 g) (gVecR 1 be)) (h1A x w b g be a9)

def t2A (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : FVec Ideal S100000x64 .f32 :=
  reluR (convR64 (linR64 (h2A x w b wh bh g be a9) (whR 1 wh)) (srcR a9) (dstR a9) (normA a9) (dinvA a9) (bhR 1 bh))

def h3A (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : FVec Ideal S100000x64 .f32 :=
  addf (bnR (t2A x w b wh bh g be a9) (gVecR 2 g) (gVecR 2 be)) (h2A x w b wh bh g be a9)

def t3A (x : FVec Ideal S100000x128 .f32) (w : FVec Ideal S128x64 .f32) (b : FVec Ideal S64 .f32) (wh : FVec Ideal S2x64x64 .f32) (bh : FVec Ideal S2x64 .f32) (wo : FVec Ideal S64x2 .f32) (bo : FVec Ideal S2 .f32) (g be : FVec Ideal S3x64 .f32) (a9 : IVec S2x1200000 32) : FVec Ideal S100000x2 .f32 :=
  convR2 (linR2 (h3A x w b wh bh g be a9) wo) (srcR a9) (dstR a9) (normA a9) (dinvA a9) bo

def outA (x : FVec Ideal S100000x128 .f32) (w : FVec Ideal S128x64 .f32) (b : FVec Ideal S64 .f32) (wh : FVec Ideal S2x64x64 .f32) (bh : FVec Ideal S2x64 .f32) (wo : FVec Ideal S64x2 .f32) (bo : FVec Ideal S2 .f32) (g be : FVec Ideal S3x64 .f32) (a9 : IVec S2x1200000 32) (a10 : IVec S100000 32) : FVec Ideal S64x2 .f32 :=
  outRt (sumsRt (t3A x w b wh bh wo bo g be a9) a10) (cntRt a10)

theorem toMat_ofMat {R C : Nat} (v : FVec Ideal ⟨2, ![R, C]⟩ .f32) : Cert.Spec.toMat (Cert.Spec.ofMat v) = v := by
  funext i
  exact (congrArg v (eq_ix2 i)).symm

theorem addT_rd (p q : FVec Ideal S100000x64 .f32) :
    Cert.Spec.ofMat (addf p q) = Cert.Spec.addT (Cert.Spec.ofMat p) (Cert.Spec.ofMat q) := addf_eq p q

theorem sums_rd (h : FVec Ideal S100000x2 .f32) (a10 : IVec S100000 32) (s : Fin 64) (d : Fin 2) :
    sumsRt h a10 (ix2 s d) = Cert.Spec.zero + ∑ n ∈ Cert.Spec.members a10 s, Cert.Spec.ofMat h n d :=
  sumsRt_apply h a10 s d

theorem dinvA_rd (a9 : IVec S2x1200000 32) (n : Fin 100000) : dinvA a9 (ix1 n) = Cert.Spec.dinv a9 n :=
  dinvR_apply a9 _ (dstR_apply a9) n

theorem normA_rd (a9 : IVec S2x1200000 32) (e : Fin 1200000) : normA a9 (ix1 e) = Cert.Spec.enorm a9 e :=
  normR_apply a9 _ (dinvA_rd a9) _ _ (srcR_apply a9) (dstR_apply a9) e

theorem conv64_rd (a9 : IVec S2x1200000 32) (hl : FVec Ideal S100000x64 .f32) (c : FVec Ideal S64 .f32) :
    Cert.Spec.ofMat (convR64 hl (srcR a9) (dstR a9) (normA a9) (dinvA a9) c)
      = Cert.Spec.conv a9 (Cert.Spec.ofMat hl) (Cert.Spec.ofVec c) := by
  funext n j
  rw [convR64_read]
  simp only [dinvA_rd, dstR_apply, srcR_apply, normA_rd]
  rfl

theorem conv2_rd (a9 : IVec S2x1200000 32) (hl : FVec Ideal S100000x2 .f32) (c : FVec Ideal S2 .f32) :
    Cert.Spec.ofMat (convR2 hl (srcR a9) (dstR a9) (normA a9) (dinvA a9) c)
      = Cert.Spec.conv a9 (Cert.Spec.ofMat hl) (Cert.Spec.ofVec c) := by
  funext n j
  rw [convR2_read]
  simp only [dinvA_rd, dstR_apply, srcR_apply, normA_rd]
  rfl

theorem t0A_rd (x : FVec Ideal S100000x128 .f32) (w : FVec Ideal S128x64 .f32) (b : FVec Ideal S64 .f32) (a9 : IVec S2x1200000 32) : Cert.Spec.ofMat (t0A x w b a9) = Cert.Spec.t0 x w b a9 := by
  unfold t0A Cert.Spec.t0
  rw [reluR_read, conv64_rd, linR128_read]

theorem h1A_rd (x : FVec Ideal S100000x128 .f32) (w : FVec Ideal S128x64 .f32) (b : FVec Ideal S64 .f32) (g be : FVec Ideal S3x64 .f32) (a9 : IVec S2x1200000 32) : Cert.Spec.ofMat (h1A x w b g be a9) = Cert.Spec.h1R x w b g be a9 := by
  unfold h1A Cert.Spec.h1R
  rw [bnR_eq, t0A_rd, gVecR_eq, gVecR_eq]

theorem t1A_rd (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : Cert.Spec.ofMat (t1A x w b wh bh g be a9) = Cert.Spec.t1R x w b wh bh g be a9 := by
  unfold t1A Cert.Spec.t1R
  rw [reluR_read, conv64_rd, linR64_read, h1A_rd, whR_eq, bhR_eq]

theorem h2A_rd (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : Cert.Spec.ofMat (h2A x w b wh bh g be a9) = Cert.Spec.h2R x w b wh bh g be a9 := by
  unfold h2A Cert.Spec.h2R
  rw [addT_rd, bnR_eq, t1A_rd, h1A_rd, gVecR_eq, gVecR_eq]

theorem t2A_rd (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : Cert.Spec.ofMat (t2A x w b wh bh g be a9) = Cert.Spec.t2R x w b wh bh g be a9 := by
  unfold t2A Cert.Spec.t2R
  rw [reluR_read, conv64_rd, linR64_read, h2A_rd, whR_eq, bhR_eq]

theorem h3A_rd (x : FVec Ideal S100000x128 .f32) (w : FVec Ideal S128x64 .f32) (b : FVec Ideal S64 .f32) (wh : FVec Ideal S2x64x64 .f32) (bh : FVec Ideal S2x64 .f32) (g be : FVec Ideal S3x64 .f32) (a9 : IVec S2x1200000 32) : Cert.Spec.ofMat (h3A x w b wh bh g be a9) = Cert.Spec.h3R x w b wh bh g be a9 := by
  unfold h3A Cert.Spec.h3R
  rw [addT_rd, bnR_eq, t2A_rd, h2A_rd, gVecR_eq, gVecR_eq]

theorem t3A_rd (x : FVec Ideal S100000x128 .f32) (w : FVec Ideal S128x64 .f32) (b : FVec Ideal S64 .f32) (wh : FVec Ideal S2x64x64 .f32) (bh : FVec Ideal S2x64 .f32) (wo : FVec Ideal S64x2 .f32) (bo : FVec Ideal S2 .f32) (g be : FVec Ideal S3x64 .f32) (a9 : IVec S2x1200000 32) : Cert.Spec.ofMat (t3A x w b wh bh wo bo g be a9) = Cert.Spec.t3R x w b wh bh wo bo g be a9 := by
  unfold t3A Cert.Spec.t3R
  rw [conv2_rd, linR2_read, h3A_rd]

theorem outA_rd (x : FVec Ideal S100000x128 .f32) (w : FVec Ideal S128x64 .f32) (b : FVec Ideal S64 .f32) (wh : FVec Ideal S2x64x64 .f32) (bh : FVec Ideal S2x64 .f32) (wo : FVec Ideal S64x2 .f32) (bo : FVec Ideal S2 .f32) (g be : FVec Ideal S3x64 .f32) (a9 : IVec S2x1200000 32) (a10 : IVec S100000 32) : Cert.Spec.ofMat (outA x w b wh bh wo bo g be a9 a10) = Cert.Spec.outR x w b wh bh wo bo g be a9 a10 := by
  funext s d
  unfold outA Cert.Spec.outR Cert.Spec.sumsR Cert.Spec.cntR
  rw [outRt_apply, cntRt_apply, sums_rd, t3A_rd]

theorem outA_eq (x : FVec Ideal S100000x128 .f32) (w : FVec Ideal S128x64 .f32) (b : FVec Ideal S64 .f32) (wh : FVec Ideal S2x64x64 .f32) (bh : FVec Ideal S2x64 .f32) (wo : FVec Ideal S64x2 .f32) (bo : FVec Ideal S2 .f32) (g be : FVec Ideal S3x64 .f32) (a9 : IVec S2x1200000 32) (a10 : IVec S100000 32) : outA x w b wh bh wo bo g be a9 a10 = Cert.Spec.toMat (Cert.Spec.outR x w b wh bh wo bo g be a9 a10) := by
  rw [← outA_rd, toMat_ofMat]

end Cert.ReferenceIdeal.RV

end
-- ==== Proof.RChain.lean ====
import proofs.«426946_j20469814133009_2_alg».proof.Proof.RChainG
import proofs.«426946_j20469814133009_2_alg».proof.Proof.RChainBn
import proofs.«426946_j20469814133009_2_alg».proof.Proof.RChainBn0
import proofs.«426946_j20469814133009_2_alg».proof.Proof.RChainBn1
import proofs.«426946_j20469814133009_2_alg».proof.Proof.RChainBn2
import proofs.«426946_j20469814133009_2_alg».proof.Proof.RChainConv
import proofs.«426946_j20469814133009_2_alg».proof.Proof.RChainConv0
import proofs.«426946_j20469814133009_2_alg».proof.Proof.RChainConv1
import proofs.«426946_j20469814133009_2_alg».proof.Proof.RChainConv2
import proofs.«426946_j20469814133009_2_alg».proof.Proof.RChainConv3
import proofs.«426946_j20469814133009_2_alg».proof.Proof.RChainPure

noncomputable section

namespace Cert.ReferenceIdeal.RV

open Cert.ReferenceIdeal Cert.ReferenceIdeal.Gen Idealize.ShloMosaic Idealize.ShloMosaic.TcCoe Idealize.ShloMosaic.StableHlo

section
variable (W : Valuation τ sig (Elt Ideal))

theorem v1_val : after ops W (main_v1 : DevRef τ sig) = srcR (W (main_arg9 : DevRef τ sig)) := by
  rw [v1_eq, ref_arg9]

theorem v3_val : after ops W (main_v3 : DevRef τ sig) = dstR (W (main_arg9 : DevRef τ sig)) := by
  rw [v3_eq, ref_arg9]

theorem v11_val : after ops W (main_v11 : DevRef τ sig) = dinvA (W (main_arg9 : DevRef τ sig)) := by
  rw [v11_eq, v3_val]
  unfold dinvA
  with_reducible rfl

theorem v27_val : after ops W (main_v27 : DevRef τ sig) = normA (W (main_arg9 : DevRef τ sig)) := by
  rw [v27_eq, v11_val, v1_val, v3_val]
  unfold normA
  with_reducible rfl

theorem v92_val : after ops W (main_v92 : DevRef τ sig) = normA (W (main_arg9 : DevRef τ sig)) := by
  rw [v92_eq, v11_val, v1_val, v3_val]
  unfold normA
  with_reducible rfl

theorem v158_val : after ops W (main_v158 : DevRef τ sig) = normA (W (main_arg9 : DevRef τ sig)) := by
  rw [v158_eq, v11_val, v1_val, v3_val]
  unfold normA
  with_reducible rfl

theorem v220_val : after ops W (main_v220 : DevRef τ sig) = normA (W (main_arg9 : DevRef τ sig)) := by
  rw [v220_eq, v11_val, v1_val, v3_val]
  unfold normA
  with_reducible rfl

theorem v49_val : after ops W (main_v49 : DevRef τ sig) = t0A (W (main_arg0 : DevRef τ sig)) (W (main_arg1 : DevRef τ sig)) (W (main_arg2 : DevRef τ sig)) (W (main_arg9 : DevRef τ sig)) := by
  rw [v49_eq, v48_eq, v12_eq, v27_val, v11_val, v1_val, v3_val, ref_arg0, ref_arg1, ref_arg2]
  unfold t0A
  with_reducible rfl

theorem v72_val : after ops W (main_v72 : DevRef τ sig) = h1A (W (main_arg0 : DevRef τ sig)) (W (main_arg1 : DevRef τ sig)) (W (main_arg2 : DevRef τ sig)) (W (main_arg7 : DevRef τ sig)) (W (main_arg8 : DevRef τ sig)) (W (main_arg9 : DevRef τ sig)) := by
  rw [v72_eq, v49_val, v51_eq, v53_eq, ref_arg7, ref_arg8]
  unfold h1A
  with_reducible rfl

theorem v114_val : after ops W (main_v114 : DevRef τ sig) = t1A (W (main_arg0 : DevRef τ sig)) (W (main_arg1 : DevRef τ sig)) (W (main_arg2 : DevRef τ sig)) (W (main_arg3 : DevRef τ sig)) (W (main_arg4 : DevRef τ sig)) (W (main_arg7 : DevRef τ sig)) (W (main_arg8 : DevRef τ sig)) (W (main_arg9 : DevRef τ sig)) := by
  rw [v114_eq, v113_eq, v77_eq, v72_val, v74_eq, v76_eq, v92_val, v11_val, v1_val, v3_val, ref_arg3, ref_arg4]
  unfold t1A
  with_reducible rfl

theorem v138_val : after ops W (main_v138 : DevRef τ sig) = h2A (W (main_arg0 : DevRef τ sig)) (W (main_arg1 : DevRef τ sig)) (W (main_arg2 : DevRef τ sig)) (W (main_arg3 : DevRef τ sig)) (W (main_arg4 : DevRef τ sig)) (W (main_arg7 : DevRef τ sig)) (W (main_arg8 : DevRef τ sig)) (W (main_arg9 : DevRef τ sig)) := by
  rw [v138_eq, v137_eq, v114_val, v72_val, v116_eq, v118_eq, ref_arg7, ref_arg8]
  unfold h2A
  with_reducible rfl

theorem v180_val : after ops W (main_v180 : DevRef τ sig) = t2A (W (main_arg0 : DevRef τ sig)) (W (main_arg1 : DevRef τ sig)) (W (main_arg2 : DevRef τ sig)) (W (main_arg3 : DevRef τ sig)) (W (main_arg4 : DevRef τ sig)) (W (main_arg7 : DevRef τ sig)) (W (main_arg8 : DevRef τ sig)) (W (main_arg9 : DevRef τ sig)) := by
  rw [v180_eq, v179_eq, v143_eq, v138_val, v140_eq, v142_eq, v158_val, v11_val, v1_val, v3_val, ref_arg3, ref_arg4]
  unfold t2A
  with_reducible rfl

theorem v204_val : after ops W (main_v204 : DevRef τ sig) = h3A (W (main_arg0 : DevRef τ sig)) (W (main_arg1 : DevRef τ sig)) (W (main_arg2 : DevRef τ sig)) (W (main_arg3 : DevRef τ sig)) (W (main_arg4 : DevRef τ sig)) (W (main_arg7 : DevRef τ sig)) (W (main_arg8 : DevRef τ sig)) (W (main_arg9 : DevRef τ sig)) := by
  rw [v204_eq, v203_eq, v180_val, v138_val, v182_eq, v184_eq, ref_arg7, ref_arg8]
  unfold h3A
  with_reducible rfl

theorem v241_val : after ops W (main_v241 : DevRef τ sig) = t3A (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) := by
  rw [v241_eq, v205_eq, v204_val, v220_val, v11_val, v1_val, v3_val, ref_arg5, ref_arg6]
  unfold t3A
  with_reducible rfl

theorem v253_val : after ops W (main_v253 : DevRef τ sig) = outA (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig)) := by
  rw [v253_eq, v244_eq, v248_eq, v241_val, ref_arg10]
  unfold outA
  with_reducible rfl

theorem ref_value : (after ops W (main_v253 : DevRef τ sig) : FVec Ideal S64x2 .f32)
    = Cert.Spec.toMat (Cert.Spec.outR (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig))) := by
  rw [v253_val]
  exact outA_eq _ _ _ _ _ _ _ _ _ _ _

end

end Cert.ReferenceIdeal.RV

end
-- ==== Proof.Var.lean ====
import proofs.«426946_j20469814133009_2_alg».proof.Proof.Spec
import proofs.«426946_j20469814133009_2_alg».proof.Proof.Consts

noncomputable section

open scoped BigOperators

namespace Cert.Spec

open Idealize.ShloMosaic

private theorem coe_sum_real {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

private theorem colSum_real {C : Nat} (T : Tab 100000 C) (j : Fin C) (f : Fin 100000 → ℝ)
    (hf : ∀ n, T n j = (f n : EReal)) : colSum T j = ((∑ n, f n : ℝ) : EReal) := by
  unfold colSum
  rw [← coe_sum_real]
  exact Finset.sum_congr rfl fun n _ => hf n

private theorem div_nNodes (x : ℝ) : Ideal.div (x : EReal) nNodes = ((x / 100000 : ℝ) : EReal) := by
  rw [nNodes_eq, Ideal.div_coe (by norm_num), ← EReal.coe_mul]
  congr 1
  ring

private theorem meanT_real {C : Nat} (t : Tab 100000 C) (j : Fin C) (r : Fin 100000 → ℝ)
    (hr : ∀ n, t n j = (r n : EReal)) : meanT t j = (((∑ n, r n) / 100000 : ℝ) : EReal) := by
  unfold meanT
  rw [colSum_real t j r hr, div_nNodes]

private theorem varK_real {C : Nat} (t : Tab 100000 C) (j : Fin C) (r : Fin 100000 → ℝ)
    (hr : ∀ n, t n j = (r n : EReal)) :
    varK t j = (((∑ n, r n * r n) / 100000 - ((∑ n, r n) / 100000) * ((∑ n, r n) / 100000) : ℝ) : EReal) := by
  unfold varK
  rw [meanT_real t j r hr,
    colSum_real (fun n j => t n j * t n j) j (fun n => r n * r n)
      (fun n => by show t n j * t n j = _; rw [hr n, EReal.coe_mul]),
    div_nNodes, ← EReal.coe_mul, ← EReal.coe_sub]

private theorem varR_real {C : Nat} (t : Tab 100000 C) (j : Fin C) (r : Fin 100000 → ℝ)
    (hr : ∀ n, t n j = (r n : EReal)) :
    varR t j = (((∑ n, (r n - (∑ n, r n) / 100000) * (r n - (∑ n, r n) / 100000)) / 100000 : ℝ) : EReal) := by
  unfold varR
  have h0 : nNodes - (((0#32 : BitVec 32).toInt : ℝ) : EReal) = nNodes := by
    have : ((0#32 : BitVec 32).toInt : ℝ) = 0 := by norm_num
    rw [this, EReal.coe_zero, sub_zero]
  rw [h0,
    colSum_real (fun n j => (t n j - meanT t j) * (t n j - meanT t j)) j
      (fun n => (r n - (∑ n, r n) / 100000) * (r n - (∑ n, r n) / 100000))
      (fun n => by
        show (t n j - meanT t j) * (t n j - meanT t j) = _
        rw [meanT_real t j r hr, hr n, ← EReal.coe_sub, ← EReal.coe_mul]),
    div_nNodes]

private theorem var_identity (r : Fin 100000 → ℝ) :
    (∑ n, r n * r n) / 100000 - ((∑ n, r n) / 100000) * ((∑ n, r n) / 100000)
      = (∑ n, (r n - (∑ n, r n) / 100000) * (r n - (∑ n, r n) / 100000)) / 100000 := by
  generalize hS : (∑ n, r n) = S
  have h1 : (∑ n, (r n - S / 100000) * (r n - S / 100000))
      = (∑ n, r n * r n) - 2 * (S / 100000) * S + 100000 * ((S / 100000) * (S / 100000)) := by
    have e : ∀ n, (r n - S / 100000) * (r n - S / 100000)
        = r n * r n - 2 * (S / 100000) * r n + (S / 100000) * (S / 100000) := fun n => by ring
    simp only [e, Finset.sum_add_distrib, Finset.sum_sub_distrib, ← Finset.mul_sum, Finset.sum_const,
      Finset.card_univ, Fintype.card_fin, nsmul_eq_mul, hS]
    push_cast
    ring
  rw [h1]
  field_simp
  ring

theorem varK_eq_varR {C : Nat} (t : Tab 100000 C) (j : Fin C) (ht : ∀ n, ∃ r : ℝ, t n j = (r : EReal)) :
    varK t j = varR t j := by
  choose r hr using ht
  rw [varK_real t j r hr, varR_real t j r hr, var_identity]

theorem varR_nonneg {C : Nat} (t : Tab 100000 C) (j : Fin C) (ht : ∀ n, ∃ r : ℝ, t n j = (r : EReal)) :
    ∃ r : ℝ, 0 ≤ r ∧ varR t j = (r : EReal) := by
  choose r hr using ht
  exact ⟨_, div_nonneg (Finset.sum_nonneg fun n _ => mul_self_nonneg _) (by norm_num), varR_real t j r hr⟩

end Cert.Spec

end
-- ==== Proof.Pool.lean ====
import proofs.«426946_j20469814133009_2_alg».proof.Proof.Spec
import proofs.«426946_j20469814133009_2_alg».proof.Proof.Consts

noncomputable section

open scoped BigOperators

namespace Cert.Spec

open Idealize.ShloMosaic

private theorem toInt_ofNat_col (b : Fin 64) : (BitVec.ofNat 32 b.val).toInt = (b.val : Int) := by
  have hb := b.isLt
  rw [BitVec.toInt_eq_toNat_cond, BitVec.toNat_ofNat]
  split <;> omega

theorem hot_eq (z : BitVec 32) (b : Fin 64) :
    hot z b = if z.toInt = (b.val : Int) then ((1 : ℝ) : EReal) else 0 := by
  have e1 : (((BitVec.ofBool true).setWidth 32 : BitVec 32).toInt : ℝ) = 1 := by
    have : ((BitVec.ofBool true).setWidth 32 : BitVec 32).toInt = 1 := by decide
    rw [this]; norm_num
  have e0 : (((BitVec.ofBool false).setWidth 32 : BitVec 32).toInt : ℝ) = 0 := by
    have : ((BitVec.ofBool false).setWidth 32 : BitVec 32).toInt = 0 := by decide
    rw [this]; norm_num
  unfold hot IntOp.cmpi
  by_cases h : z.toInt = (b.val : Int)
  · have hz : z = BitVec.ofNat 32 b.val := BitVec.toInt_inj.mp (h.trans (toInt_ofNat_col b).symm)
    have hb : (z == BitVec.ofNat 32 b.val) = true := by rw [hz]; exact beq_self_eq_true _
    rw [if_pos h]
    simp only [hb, e1]
  · have hz : z ≠ BitVec.ofNat 32 b.val := fun e => h (e ▸ toInt_ofNat_col b)
    have hb : (z == BitVec.ofNat 32 b.val) = false := beq_eq_false_iff_ne.mpr hz
    rw [if_neg h]
    simp only [hb, e0, EReal.coe_zero]

theorem hot_sum_mul {D : Nat} (w : Fin 100000 → BitVec 32) (T : Tab 100000 D) (b : Fin 64) (d : Fin D) :
    (∑ n : Fin 100000, hot (w n) b * T n d)
      = zero + ∑ n ∈ Finset.univ.filter (fun n => (w n).toInt = (b.val : Int)), T n d := by
  rw [zero_eq, zero_add, Finset.sum_filter]
  refine Finset.sum_congr rfl fun n _ => ?_
  rw [hot_eq]
  by_cases h : (w n).toInt = (b.val : Int)
  · rw [if_pos h, if_pos h, EReal.coe_one, one_mul]
  · rw [if_neg h, if_neg h, zero_mul]

theorem hot_sum (w : Fin 100000 → BitVec 32) (b : Fin 64) :
    (∑ n : Fin 100000, hot (w n) b)
      = zero + ∑ _n ∈ Finset.univ.filter (fun n => (w n).toInt = (b.val : Int)), one := by
  rw [zero_eq, zero_add, one_eq, Finset.sum_filter]
  refine Finset.sum_congr rfl fun n _ => ?_
  rw [hot_eq]

end Cert.Spec

end
-- ==== Proof.Reals.lean ====
import proofs.«426946_j20469814133009_2_alg».proof.Proof.Spec
import proofs.«426946_j20469814133009_2_alg».proof.Proof.Consts

noncomputable section

open scoped BigOperators

namespace Cert.Spec

open Idealize.ShloMosaic Idealize.ShloMosaic.ValueIdx

def IsReal (x : EReal) : Prop := ∃ r : ℝ, x = (r : EReal)

def TabReal {R C : Nat} (t : Tab R C) : Prop := ∀ n j, ∃ r : ℝ, t n j = (r : EReal)

def VecReal {C : Nat} (v : Fin C → EReal) : Prop := ∀ j, ∃ r : ℝ, v j = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.max {a b : EReal} (ha : IsReal a) (hb : IsReal b) : IsReal (max a b) := by
  rcases max_choice a b with h | h
  · rw [h]; exact ha
  · rw [h]; exact hb

theorem IsReal.sum {ι : Type} (s : Finset ι) (f : ι → EReal) (h : ∀ i ∈ s, IsReal (f i)) :
    IsReal (∑ i ∈ s, f i) :=
  Finset.sum_induction f IsReal (fun _ _ ha hb => ha.add hb) ⟨0, rfl⟩ h

theorem IsReal.div_real {a : EReal} (ha : IsReal a) {c : ℝ} (hc : c ≠ 0) : IsReal (Ideal.div a (c : EReal)) := by
  obtain ⟨r, rfl⟩ := ha
  refine ⟨r * c⁻¹, ?_⟩
  have hc' : ¬ ((c : EReal) = 0) := fun h => hc (EReal.coe_eq_zero.mp h)
  unfold Ideal.div
  rw [if_neg hc', ← EReal.coe_inv, ← EReal.coe_mul]

theorem IsReal.pow {a b : EReal} (ha : IsReal a) (hb : IsReal b) : IsReal (Ideal.pow a b) := by
  obtain ⟨r, rfl⟩ := ha
  obtain ⟨s, rfl⟩ := hb
  exact ⟨Real.rpow r s, rfl⟩

theorem IsReal.rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

theorem isReal_zero : IsReal zero := ⟨0, by rw [zero_eq]; rfl⟩
theorem isReal_one : IsReal one := ⟨1, one_eq⟩
theorem isReal_negHalf : IsReal negHalf := negHalf_real

theorem TabReal.ofMat {R C : Nat} {x : FVec Ideal ⟨2, ![R, C]⟩ .f32} (hx : AllReal x) : TabReal (ofMat x) :=
  fun n j => hx (ix2 n j)

theorem VecReal.ofVec {C : Nat} {x : FVec Ideal ⟨1, ![C]⟩ .f32} (hx : AllReal x) : VecReal (ofVec x) :=
  fun j => hx (ix1 j)

theorem TabReal.ofCube {L R C : Nat} {x : FVec Ideal ⟨3, ![L, R, C]⟩ .f32} (hx : AllReal x) (l : Fin L) :
    TabReal (ofCube x l) :=
  fun k j => hx (ix3 l k j)

theorem VecReal.rowOfMat {L C : Nat} {x : FVec Ideal ⟨2, ![L, C]⟩ .f32} (hx : AllReal x) (l : Fin L) :
    VecReal (rowOfMat x l) :=
  fun j => hx (ix2 l j)

section Graph
variable (ei : IVec ⟨2, ![2, 1200000]⟩ 32)

theorem isReal_deg (n : Fin 100000) : IsReal (deg ei n) :=
  ((isReal_zero.add (IsReal.sum _ _ (fun _ _ => isReal_one))).add isReal_one)

theorem isReal_dinv (n : Fin 100000) : IsReal (dinv ei n) :=
  (isReal_deg ei n).pow isReal_negHalf

theorem isReal_enorm (e : Fin 1200000) : IsReal (enorm ei e) :=
  (isReal_dinv ei _).mul (isReal_dinv ei _)

theorem TabReal.lin {K C : Nat} {h : Tab 100000 K} {W : Tab K C} (hh : TabReal h) (hW : TabReal W) :
    TabReal (lin h W) :=
  fun n j => IsReal.sum _ _ (fun k _ => IsReal.mul (hh n k) (hW k j))

theorem TabReal.agg {C : Nat} {hl : Tab 100000 C} (hh : TabReal hl) : TabReal (agg ei hl) :=
  fun n j => isReal_zero.add (IsReal.sum _ _ (fun e _ => IsReal.mul (hh (rowOf (src ei e)) j) (isReal_enorm ei e)))

theorem TabReal.conv {C : Nat} {hl : Tab 100000 C} {b : Fin C → EReal} (hh : TabReal hl) (hb : VecReal b) :
    TabReal (conv ei hl b) :=
  fun n j => IsReal.add
    (IsReal.add (TabReal.agg ei hh n j) (IsReal.mul (hh n j) ((isReal_dinv ei n).mul (isReal_dinv ei n))))
    (hb j)

end Graph

theorem TabReal.reluT {R C : Nat} {t : Tab R C} (ht : TabReal t) : TabReal (reluT t) :=
  fun n j => IsReal.max (ht n j) isReal_zero

theorem isReal_colSum {C : Nat} {t : Tab 100000 C} (ht : TabReal t) (j : Fin C) : IsReal (colSum t j) :=
  IsReal.sum _ _ (fun n _ => ht n j)

theorem isReal_meanT {C : Nat} {t : Tab 100000 C} (ht : TabReal t) (j : Fin C) : IsReal (meanT t j) := by
  unfold meanT
  rw [nNodes_eq]
  exact (isReal_colSum ht j).div_real (by norm_num)

theorem TabReal.bnWith {C : Nat} {v : Fin C → EReal} {t : Tab 100000 C} {γ β : Fin C → EReal}
    (hv : ∀ j, ∃ r : ℝ, 0 ≤ r ∧ v j = (r : EReal)) (ht : TabReal t) (hγ : VecReal γ) (hβ : VecReal β) :
    TabReal (bnWith v t γ β) := by
  intro n j
  obtain ⟨r, hr, hvj⟩ := hv j
  obtain ⟨e, he, hee⟩ := eps_pos
  have hs : IsReal (Ideal.rsqrt (v j + eps)) := by
    rw [hvj, hee, ← EReal.coe_add]
    exact IsReal.rsqrt_pos (by linarith)
  exact IsReal.add (IsReal.mul (IsReal.mul (IsReal.sub (ht n j) (isReal_meanT ht j)) hs) (hγ j)) (hβ j)

theorem TabReal.addT {R C : Nat} {a b : Tab R C} (ha : TabReal a) (hb : TabReal b) : TabReal (addT a b) :=
  fun n j => IsReal.add (ha n j) (hb n j)

end Cert.Spec

end
-- ==== Proof.Bridge.lean ====
import proofs.«426946_j20469814133009_2_alg».proof.Proof.Spec
import proofs.«426946_j20469814133009_2_alg».proof.Proof.Consts
import proofs.«426946_j20469814133009_2_alg».proof.Proof.Var
import proofs.«426946_j20469814133009_2_alg».proof.Proof.Pool
import proofs.«426946_j20469814133009_2_alg».proof.Proof.Reals

noncomputable section

open scoped BigOperators

namespace Cert.Spec

open Idealize.ShloMosaic Idealize.ShloMosaic.ValueIdx

theorem bnWith_varK_eq_varR {C : Nat} (t : Tab 100000 C) (ht : TabReal t) (γ β : Fin C → EReal) :
    bnWith (varK t) t γ β = bnWith (varR t) t γ β := by
  funext n j
  unfold bnWith
  rw [varK_eq_varR t j (fun n => ht n j)]

theorem bnVarR_real {C : Nat} {t : Tab 100000 C} {γ β : Fin C → EReal}
    (ht : TabReal t) (hγ : VecReal γ) (hβ : VecReal β) : TabReal (bnWith (varR t) t γ β) :=
  TabReal.bnWith (fun j => varR_nonneg t j (fun n => ht n j)) ht hγ hβ

theorem addT_zero {R C : Nat} (a : Tab R C) : addT a (fun _ _ => zero) = a := by
  funext n j
  unfold addT
  rw [zero_eq, add_zero]

section Net
variable (x : FVec Ideal ⟨2, ![100000, 128]⟩ .f32) (Win : FVec Ideal ⟨2, ![128, 64]⟩ .f32)
  (bin : FVec Ideal ⟨1, ![64]⟩ .f32) (Wh : FVec Ideal ⟨3, ![2, 64, 64]⟩ .f32) (bh : FVec Ideal ⟨2, ![2, 64]⟩ .f32)
  (Wout : FVec Ideal ⟨2, ![64, 2]⟩ .f32) (bout : FVec Ideal ⟨1, ![2]⟩ .f32)
  (g be : FVec Ideal ⟨2, ![3, 64]⟩ .f32) (ei : IVec ⟨2, ![2, 1200000]⟩ 32) (bt : IVec ⟨1, ![100000]⟩ 32)

theorem t0_real (hx : AllReal x) (hWin : AllReal Win) (hbin : AllReal bin) : TabReal (t0 x Win bin ei) := by
  unfold t0
  exact TabReal.reluT (TabReal.conv ei (TabReal.lin (TabReal.ofMat hx) (TabReal.ofMat hWin)) (VecReal.ofVec hbin))

theorem h1_eq (hx : AllReal x) (hWin : AllReal Win) (hbin : AllReal bin) :
    h1K x Win bin g be ei = h1R x Win bin g be ei := by
  unfold h1K h1R
  rw [addT_zero, bnWith_varK_eq_varR _ (t0_real x Win bin ei hx hWin hbin)]

theorem h1_real (hx : AllReal x) (hWin : AllReal Win) (hbin : AllReal bin) (hg : AllReal g) (hbe : AllReal be) :
    TabReal (h1R x Win bin g be ei) := by
  unfold h1R
  exact bnVarR_real (t0_real x Win bin ei hx hWin hbin) (VecReal.rowOfMat hg 0) (VecReal.rowOfMat hbe 0)

theorem t1_eq (hx : AllReal x) (hWin : AllReal Win) (hbin : AllReal bin) :
    t1K x Win bin Wh bh g be ei = t1R x Win bin Wh bh g be ei := by
  unfold t1K t1R
  rw [h1_eq x Win bin g be ei hx hWin hbin]

theorem t1_real (hx : AllReal x) (hWin : AllReal Win) (hbin : AllReal bin) (hWh : AllReal Wh) (hbh : AllReal bh)
    (hg : AllReal g) (hbe : AllReal be) : TabReal (t1R x Win bin Wh bh g be ei) := by
  unfold t1R
  exact TabReal.reluT (TabReal.conv ei
    (TabReal.lin (h1_real x Win bin g be ei hx hWin hbin hg hbe) (TabReal.ofCube hWh 0)) (VecReal.rowOfMat hbh 0))

theorem h2_eq (hx : AllReal x) (hWin : AllReal Win) (hbin : AllReal bin) (hWh : AllReal Wh) (hbh : AllReal bh)
    (hg : AllReal g) (hbe : AllReal be) :
    h2K x Win bin Wh bh g be ei = h2R x Win bin Wh bh g be ei := by
  unfold h2K h2R
  rw [t1_eq x Win bin Wh bh g be ei hx hWin hbin, h1_eq x Win bin g be ei hx hWin hbin,
    bnWith_varK_eq_varR _ (t1_real x Win bin Wh bh g be ei hx hWin hbin hWh hbh hg hbe)]

theorem h2_real (hx : AllReal x) (hWin : AllReal Win) (hbin : AllReal bin) (hWh : AllReal Wh) (hbh : AllReal bh)
    (hg : AllReal g) (hbe : AllReal be) : TabReal (h2R x Win bin Wh bh g be ei) := by
  unfold h2R
  exact TabReal.addT
    (bnVarR_real (t1_real x Win bin Wh bh g be ei hx hWin hbin hWh hbh hg hbe)
      (VecReal.rowOfMat hg 1) (VecReal.rowOfMat hbe 1))
    (h1_real x Win bin g be ei hx hWin hbin hg hbe)

theorem t2_eq (hx : AllReal x) (hWin : AllReal Win) (hbin : AllReal bin) (hWh : AllReal Wh) (hbh : AllReal bh)
    (hg : AllReal g) (hbe : AllReal be) :
    t2K x Win bin Wh bh g be ei = t2R x Win bin Wh bh g be ei := by
  unfold t2K t2R
  rw [h2_eq x Win bin Wh bh g be ei hx hWin hbin hWh hbh hg hbe]

theorem t2_real (hx : AllReal x) (hWin : AllReal Win) (hbin : AllReal bin) (hWh : AllReal Wh) (hbh : AllReal bh)
    (hg : AllReal g) (hbe : AllReal be) : TabReal (t2R x Win bin Wh bh g be ei) := by
  unfold t2R
  exact TabReal.reluT (TabReal.conv ei
    (TabReal.lin (h2_real x Win bin Wh bh g be ei hx hWin hbin hWh hbh hg hbe) (TabReal.ofCube hWh 1))
    (VecReal.rowOfMat hbh 1))

theorem h3_eq (hx : AllReal x) (hWin : AllReal Win) (hbin : AllReal bin) (hWh : AllReal Wh) (hbh : AllReal bh)
    (hg : AllReal g) (hbe : AllReal be) :
    h3K x Win bin Wh bh g be ei = h3R x Win bin Wh bh g be ei := by
  unfold h3K h3R
  rw [t2_eq x Win bin Wh bh g be ei hx hWin hbin hWh hbh hg hbe,
    h2_eq x Win bin Wh bh g be ei hx hWin hbin hWh hbh hg hbe,
    bnWith_varK_eq_varR _ (t2_real x Win bin Wh bh g be ei hx hWin hbin hWh hbh hg hbe)]

theorem t3_eq (hx : AllReal x) (hWin : AllReal Win) (hbin : AllReal bin) (hWh : AllReal Wh) (hbh : AllReal bh)
    (hg : AllReal g) (hbe : AllReal be) :
    t3K x Win bin Wh bh Wout bout g be ei = t3R x Win bin Wh bh Wout bout g be ei := by
  unfold t3K t3R
  rw [h3_eq x Win bin Wh bh g be ei hx hWin hbin hWh hbh hg hbe]

theorem sums_eq (hx : AllReal x) (hWin : AllReal Win) (hbin : AllReal bin) (hWh : AllReal Wh) (hbh : AllReal bh)
    (hg : AllReal g) (hbe : AllReal be) :
    sumsK x Win bin Wh bh Wout bout g be ei bt = sumsR x Win bin Wh bh Wout bout g be ei bt := by
  funext b d
  unfold sumsK sumsR members
  rw [t3_eq x Win bin Wh bh Wout bout g be ei hx hWin hbin hWh hbh hg hbe]
  exact hot_sum_mul (fun n => bt (ix1 n)) (t3R x Win bin Wh bh Wout bout g be ei) b d

theorem cnt_eq : cntK bt = cntR bt := by
  funext b
  unfold cntK cntR members
  exact hot_sum (fun n => bt (ix1 n)) b

theorem outK_eq_outR (hx : AllReal x) (hWin : AllReal Win) (hbin : AllReal bin) (hWh : AllReal Wh) (hbh : AllReal bh)
    (hWout : AllReal Wout) (hbout : AllReal bout) (hg : AllReal g) (hbe : AllReal be) :
    outK x Win bin Wh bh Wout bout g be ei bt = outR x Win bin Wh bh Wout bout g be ei bt := by
  funext b d
  unfold outK outR
  rw [sums_eq x Win bin Wh bh Wout bout g be ei bt hx hWin hbin hWh hbh hg hbe, cnt_eq bt]

end Net

end Cert.Spec

end
-- ==== Proof.PreReal.lean ====
import proofs.«426946_j20469814133009_2_alg».proof.Defs
import proofs.«426946_j20469814133009_2_alg».proof.Proof.Gen.Pre_finite_inputs
import proofs.«426946_j20469814133009_2_alg».proof.Proof.Spec
import Idealize.ShloMosaic.Lib.ReduceAll
import Idealize.ShloMosaic.Lib.ValueIdx
import Idealize.ShloMosaic.PureOps.Ideal
import Idealize.ShloMosaic.PureOps.IdealRules

noncomputable section

namespace Cert.PreReal

open Idealize.ShloMosaic Idealize.ShloMosaic.ValueIdx Idealize.SL.Sem

theorem inf_lit : Ideal.ofBits .f32 0x7F800000#32 = (⊤ : EReal) := by
  simp [Ideal.ofBits, Ideal.ieee]

theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

instance : Subsingleton (Cert.Pre_finite_inputs.S_).Idx := ⟨fun a b => funext fun d => d.elim0⟩

theorem allReal_of_all {s : Shape} {axes : List (Fin s.rank)} (v : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v)
            (broadcastInDim s ![] bc (constant (F := Ideal) Cert.Pre_finite_inputs.S_ .f32 0x7F800000#32)))
          (constantI Cert.Pre_finite_inputs.S_ 1 1#1) hr hu ix0 = 1#1) : Cert.Spec.AllReal v := by
  intro i
  have hi := Host.reduce_andi_all _ _ hr hu ix0 e i
  apply real_of_abs_lt_top
  rw [← inf_lit]
  exact hi

theorem allReal_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.AllReal ((m ((c.tc : Thread Cert.KernelIdeal.nD Cert.KernelIdeal.τ).loc Cert.KernelIdeal.main_arg0)) : FVec Ideal Cert.Pre_finite_inputs.S100000x128 .f32)
      ∧ Cert.Spec.AllReal ((m ((c.tc : Thread Cert.KernelIdeal.nD Cert.KernelIdeal.τ).loc Cert.KernelIdeal.main_arg1)) : FVec Ideal Cert.Pre_finite_inputs.S128x64 .f32)
      ∧ Cert.Spec.AllReal ((m ((c.tc : Thread Cert.KernelIdeal.nD Cert.KernelIdeal.τ).loc Cert.KernelIdeal.main_arg2)) : FVec Ideal Cert.Pre_finite_inputs.S64 .f32)
      ∧ Cert.Spec.AllReal ((m ((c.tc : Thread Cert.KernelIdeal.nD Cert.KernelIdeal.τ).loc Cert.KernelIdeal.main_arg3)) : FVec Ideal Cert.Pre_finite_inputs.S2x64x64 .f32)
      ∧ Cert.Spec.AllReal ((m ((c.tc : Thread Cert.KernelIdeal.nD Cert.KernelIdeal.τ).loc Cert.KernelIdeal.main_arg4)) : FVec Ideal Cert.Pre_finite_inputs.S2x64 .f32)
      ∧ Cert.Spec.AllReal ((m ((c.tc : Thread Cert.KernelIdeal.nD Cert.KernelIdeal.τ).loc Cert.KernelIdeal.main_arg5)) : FVec Ideal Cert.Pre_finite_inputs.S64x2 .f32)
      ∧ Cert.Spec.AllReal ((m ((c.tc : Thread Cert.KernelIdeal.nD Cert.KernelIdeal.τ).loc Cert.KernelIdeal.main_arg6)) : FVec Ideal Cert.Pre_finite_inputs.S2 .f32)
      ∧ Cert.Spec.AllReal ((m ((c.tc : Thread Cert.KernelIdeal.nD Cert.KernelIdeal.τ).loc Cert.KernelIdeal.main_arg7)) : FVec Ideal Cert.Pre_finite_inputs.S3x64 .f32)
      ∧ Cert.Spec.AllReal ((m ((c.tc : Thread Cert.KernelIdeal.nD Cert.KernelIdeal.τ).loc Cert.KernelIdeal.main_arg8)) : FVec Ideal Cert.Pre_finite_inputs.S3x64 .f32) := by
  have h0 := congrFun (h c) ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨h0, h1⟩, h2⟩, h3⟩, h4⟩, h5⟩, h6⟩, h7⟩, h8⟩ := h0
  exact ⟨allReal_of_all _ _ _ _ h0, allReal_of_all _ _ _ _ h1, allReal_of_all _ _ _ _ h2,
    allReal_of_all _ _ _ _ h3, allReal_of_all _ _ _ _ h4, allReal_of_all _ _ _ _ h5,
    allReal_of_all _ _ _ _ h6, allReal_of_all _ _ _ _ h7, allReal_of_all _ _ _ _ h8⟩

theorem preserves : Cert.preserves_Kernel_KernelIdeal := IdealRules.truncf_extf.statement _ .f32 .bf16

end Cert.PreReal

end
-- ==== Proof.lean ====
import proofs.«426946_j20469814133009_2_alg».proof.Defs
import proofs.«426946_j20469814133009_2_alg».proof.Proof.Gen.Kernel
import proofs.«426946_j20469814133009_2_alg».proof.Proof.Gen.Kernel.Frame
import proofs.«426946_j20469814133009_2_alg».proof.Proof.Gen.KernelIdeal
import proofs.«426946_j20469814133009_2_alg».proof.Proof.Gen.KernelIdeal.Frame
import proofs.«426946_j20469814133009_2_alg».proof.Proof.Gen.ReferenceIdeal
import proofs.«426946_j20469814133009_2_alg».proof.Proof.Gen.Pre_finite_inputs
import proofs.«426946_j20469814133009_2_alg».proof.Proof.KRun
import proofs.«426946_j20469814133009_2_alg».proof.Proof.KChain
import proofs.«426946_j20469814133009_2_alg».proof.Proof.RRun
import proofs.«426946_j20469814133009_2_alg».proof.Proof.RChainCut
import proofs.«426946_j20469814133009_2_alg».proof.Proof.RChain
import proofs.«426946_j20469814133009_2_alg».proof.Proof.Bridge
import proofs.«426946_j20469814133009_2_alg».proof.Proof.PreReal
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun r h c =>
    ⟨(h c _).trans (Cert.ReferenceIdeal.RV.ref_arg0 _), (h c _).trans (Cert.ReferenceIdeal.RV.ref_arg1 _),
     (h c _).trans (Cert.ReferenceIdeal.RV.ref_arg2 _), (h c _).trans (Cert.ReferenceIdeal.RV.ref_arg3 _),
     (h c _).trans (Cert.ReferenceIdeal.RV.ref_arg4 _), (h c _).trans (Cert.ReferenceIdeal.RV.ref_arg5 _),
     (h c _).trans (Cert.ReferenceIdeal.RV.ref_arg6 _), (h c _).trans (Cert.ReferenceIdeal.RV.ref_arg7 _),
     (h c _).trans (Cert.ReferenceIdeal.RV.ref_arg8 _), (h c _).trans (Cert.ReferenceIdeal.RV.ref_arg9 _),
     (h c _).trans (Cert.ReferenceIdeal.RV.ref_arg10 _)⟩)
    (Cert.ReferenceIdeal.RV.run_main (F := Ideal) m ρ)

theorem pres : Cert.preserves_Kernel_KernelIdeal := Cert.PreReal.preserves

theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : @Cert.Pre_KernelIdeal Cert.Pre_finite_inputs.Gen.facts m) (c : Dev Cert.KernelIdeal.nD)
    (a0 : StableHlo.launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0))
    (a1 : StableHlo.launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1))
    (a2 : StableHlo.launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2))
    (a3 : StableHlo.launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3))
    (a4 : StableHlo.launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4))
    (a5 : StableHlo.launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5))
    (a6 : StableHlo.launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6))
    (a7 : StableHlo.launchContents m' c (Cert.ReferenceIdeal.main_arg7 : DevRef Cert.ReferenceIdeal.τ Cert.ReferenceIdeal.sig) = m ((c.tc : Thread Cert.KernelIdeal.nD Cert.KernelIdeal.τ).loc Cert.KernelIdeal.main_arg7))
    (a8 : StableHlo.launchContents m' c (Cert.ReferenceIdeal.main_arg8 : DevRef Cert.ReferenceIdeal.τ Cert.ReferenceIdeal.sig) = m ((c.tc : Thread Cert.KernelIdeal.nD Cert.KernelIdeal.τ).loc Cert.KernelIdeal.main_arg8))
    (a9 : StableHlo.launchContents m' c (Cert.ReferenceIdeal.main_arg9 : DevRef Cert.ReferenceIdeal.τ Cert.ReferenceIdeal.sig) = m ((c.tc : Thread Cert.KernelIdeal.nD Cert.KernelIdeal.τ).loc Cert.KernelIdeal.main_arg9))
    (a10 : StableHlo.launchContents m' c (Cert.ReferenceIdeal.main_arg10 : DevRef Cert.ReferenceIdeal.τ Cert.ReferenceIdeal.sig) = m ((c.tc : Thread Cert.KernelIdeal.nD Cert.KernelIdeal.τ).loc Cert.KernelIdeal.main_arg10)) :
    StableHlo.after Cert.ReferenceIdeal.RV.ops (StableHlo.launchContents m' c) (Cert.ReferenceIdeal.main_v253 : DevRef Cert.ReferenceIdeal.τ Cert.ReferenceIdeal.sig)
      = Cert.KernelIdeal.Gen.W23 m ρ c (Proc.devRef .tc Cert.KernelIdeal.main_v144) := by
  obtain ⟨h0, h1, h2, h3, h4, h5, h6, h7, h8⟩ := Cert.PreReal.allReal_of_pre m hpre c
  refine (Cert.ReferenceIdeal.RV.ref_value (StableHlo.launchContents m' c)).trans ?_
  refine Eq.trans ?_ (Cert.KernelIdeal.KV.kernel_value m ρ c).symm
  rw [Cert.Spec.outK_eq_outR _ _ _ _ _ _ _ _ _ _ _ h0 h1 h2 h3 h4 h5 h6 h7 h8]
  rw [a0, a1, a2, a3, a4, a5, a6, a7, a8, a9, a10]

theorem alg : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W23 m ρ c (Proc.devRef .tc Cert.KernelIdeal.main_v144),
    Cert.KernelIdeal.KV.run_value (F := Ideal) m ρ, ?_⟩
  refine (θ_run Cert.ReferenceIdeal.defs _ _).mono (fun r h c => ?_) (Cert.ReferenceIdeal.RV.run_main (F := Ideal) m' ρ')
  obtain ⟨a0, a1, a2, a3, a4, a5, a6, a7, a8, a9, a10⟩ := hagree c
  exact ⟨(h c _).trans (result_eq m ρ m' hpre c a0 a1 a2 a3 a4 a5 a6 a7 a8 a9 a10),
     (h c _).trans (Cert.ReferenceIdeal.RV.ref_arg0 _), (h c _).trans (Cert.ReferenceIdeal.RV.ref_arg1 _),
     (h c _).trans (Cert.ReferenceIdeal.RV.ref_arg2 _), (h c _).trans (Cert.ReferenceIdeal.RV.ref_arg3 _),
     (h c _).trans (Cert.ReferenceIdeal.RV.ref_arg4 _), (h c _).trans (Cert.ReferenceIdeal.RV.ref_arg5 _),
     (h c _).trans (Cert.ReferenceIdeal.RV.ref_arg6 _), (h c _).trans (Cert.ReferenceIdeal.RV.ref_arg7 _),
     (h c _).trans (Cert.ReferenceIdeal.RV.ref_arg8 _), (h c _).trans (Cert.ReferenceIdeal.RV.ref_arg9 _),
     (h c _).trans (Cert.ReferenceIdeal.RV.ref_arg10 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, pres, alg⟩

end Cert.Proof

end
